-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 512]⟩ ⟨2, ![2048, 1024]⟩ (Layout.meshBlock [2, 2, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel

variable [Facts]

def fn {F : FTy → Type} [FloatOps F] (main_arg0 : FVec F S1024x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  main_v3
-- ==== Pre_finite_inputs_ReferenceIdeal.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Kernel.lean ====
abbrev S1024x1024 : Shape := ⟨2, ![1024, 1024]⟩
abbrev S2048x512 : Shape := ⟨2, ![2048, 512]⟩
abbrev S4 : Shape := ⟨1, ![4]⟩
abbrev S2 : Shape := ⟨1, ![2]⟩
abbrev S_ : Shape := ⟨0, ![]⟩
abbrev S1 : Shape := ⟨1, ![1]⟩
abbrev S56x512 : Shape := ⟨2, ![56, 512]⟩
abbrev S64x512 : Shape := ⟨2, ![64, 512]⟩
abbrev S1024x512 : Shape := ⟨2, ![1024, 512]⟩

abbrev nBuf : Space → Nat
  | .hbm => 2
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S2048x512, .f32⟩
  | _, _ => ⟨S1024x1024, .f32⟩

abbrev bufScoped : (cs : CoreSpace) → Fin (nBuf (.core cs)) → Bool
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_13 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_12 : BitVec 32 := 8#32
  let v25 : BitVec 32 := Scalar.muli v2 c8_i32_12
  let v26 : BitVec 32 := Scalar.addi c0_i32_13 v25
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_14 : BitVec 32 := 4#32
  let v27 : BitVec 32 := Scalar.muli v9 c4_i32_14
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v29 : BitVec 32 := Scalar.muli v8 c1_i32_15
  let v30 : BitVec 32 := Scalar.addi v28 v29
  v30.toNat
def k0_dev2 (d0 : Dev nD) : Nat :=
  let c0_i32_18 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_17 : BitVec 32 := 8#32
  let v31 : BitVec 32 := Scalar.muli v10 c8_i32_17
  let v32 : BitVec 32 := Scalar.addi c0_i32_18 v31
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_19 : BitVec 32 := 4#32
  let v33 : BitVec 32 := Scalar.muli v5 c4_i32_19
  let v34 : BitVec 32 := Scalar.addi v32 v33
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v35 : BitVec 32 := Scalar.muli v8 c1_i32_20
  let v36 : BitVec 32 := Scalar.addi v34 v35
  v36.toNat
def k0_dev3 (d0 : Dev nD) : Nat :=
  let c0_i32_23 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_22 : BitVec 32 := 8#32
  let v37 : BitVec 32 := Scalar.muli v2 c8_i32_22
  let v38 : BitVec 32 := Scalar.addi c0_i32_23 v37
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_24 : BitVec 32 := 4#32
  let v39 : BitVec 32 := Scalar.muli v5 c4_i32_24
  let v40 : BitVec 32 := Scalar.addi v38 v39
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v22 : BitVec 32 := Scalar.muli c2_i32_10 v20
  let v23 : BitVec 32 := Scalar.subi v21 v22
  let c1_i32_25 : BitVec 32 := 1#32
  let v41 : BitVec 32 := Scalar.muli v23 c1_i32_25
  let v42 : BitVec 32 := Scalar.addi v40 v41
  v42.toNat
def k0_off1 (d0 : Dev nD) (c0_i32_36 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_34 : BitVec 32 := 1024#32
  let v60 : BitVec 32 := Scalar.muli v5 c1024_i32_34
  let c224_i32_35 : BitVec 32 := 224#32
  let c2_i32_26 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v43 : BitVec 32 := Scalar.muli c2_i32_26 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v44 : BitVec 32 := Scalar.addi v43 v20
  let v61 : BitVec 32 := Scalar.muli c224_i32_35 v44
  let v62 : BitVec 32 := Scalar.addi v60 v61
  let v63 : BitVec 32 := Scalar.addi v62 c0_i32_36
  let c0_i32_43 : BitVec 32 := 0#32
  ![v63.toNat, 0]
def k0_off2 (d0 : Dev nD) (c0_i32_33 : BitVec 32) : Fin 2 → Nat :=
  let c224_i32_32 : BitVec 32 := 224#32
  let c2_i32_26 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v43 : BitVec 32 := Scalar.muli c2_i32_26 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v44 : BitVec 32 := Scalar.addi v43 v20
  let v57 : BitVec 32 := Scalar.muli c224_i32_32 v44
  let v58 : BitVec 32 := Scalar.addi v57 c0_i32_33
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c512_i32 : BitVec 32 := 512#32
  let v59 : BitVec 32 := Scalar.muli v9 c512_i32
  ![v58.toNat, v59.toNat]
def k0_dev4 (d0 : Dev nD) : Nat :=
  let c0_i32_40 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_39 : BitVec 32 := 8#32
  let v64 : BitVec 32 := Scalar.muli v2 c8_i32_39
  let v65 : BitVec 32 := Scalar.addi c0_i32_40 v64
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_41 : BitVec 32 := 4#32
  let v66 : BitVec 32 := Scalar.muli v9 c4_i32_41
  let v67 : BitVec 32 := Scalar.addi v65 v66
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_42 : BitVec 32 := 1#32
  let v68 : BitVec 32 := Scalar.muli v8 c1_i32_42
  let v69 : BitVec 32 := Scalar.addi v67 v68
  v69.toNat
def k0_dev5 (d0 : Dev nD) : Nat :=
  let c0_i32_52 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_51 : BitVec 32 := 8#32
  let v83 : BitVec 32 := Scalar.muli v2 c8_i32_51
  let v84 : BitVec 32 := Scalar.addi c0_i32_52 v83
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_53 : BitVec 32 := 4#32
  let v85 : BitVec 32 := Scalar.muli v9 c4_i32_53
  let v86 : BitVec 32 := Scalar.addi v84 v85
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_54 : BitVec 32 := 1#32
  let v87 : BitVec 32 := Scalar.muli v8 c1_i32_54
  let v88 : BitVec 32 := Scalar.addi v86 v87
  v88.toNat
def k0_dev6 (d0 : Dev nD) : Nat :=
  let c0_i32_64 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_63 : BitVec 32 := 8#32
  let v102 : BitVec 32 := Scalar.muli v2 c8_i32_63
  let v103 : BitVec 32 := Scalar.addi c0_i32_64 v102
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_65 : BitVec 32 := 4#32
  let v104 : BitVec 32 := Scalar.muli v9 c4_i32_65
  let v105 : BitVec 32 := Scalar.addi v103 v104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_66 : BitVec 32 := 1#32
  let v106 : BitVec 32 := Scalar.muli v8 c1_i32_66
  let v107 : BitVec 32 := Scalar.addi v105 v106
  v107.toNat
def k0_dev7 (d0 : Dev nD) : Nat :=
  let c0_i32_76 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_75 : BitVec 32 := 8#32
  let v121 : BitVec 32 := Scalar.muli v2 c8_i32_75
  let v122 : BitVec 32 := Scalar.addi c0_i32_76 v121
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_77 : BitVec 32 := 4#32
  let v123 : BitVec 32 := Scalar.muli v9 c4_i32_77
  let v124 : BitVec 32 := Scalar.addi v122 v123
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_78 : BitVec 32 := 1#32
  let v125 : BitVec 32 := Scalar.muli v8 c1_i32_78
  let v126 : BitVec 32 := Scalar.addi v124 v125
  v126.toNat
def k0_off3 (d0 : Dev nD) (c0_i32_82 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_81 : BitVec 32 := 1024#32
  let v134 : BitVec 32 := Scalar.muli v5 c1024_i32_81
  let c896_i32 : BitVec 32 := 896#32
  let v135 : BitVec 32 := Scalar.addi v134 c896_i32
  let v136 : BitVec 32 := Scalar.addi v135 c0_i32_82
  let c0_i32_89 : BitVec 32 := 0#32
  ![v136.toNat, 0]
def k0_off4 (d0 : Dev nD) : Fin 2 → Nat :=
  let c896_i32_90 : BitVec 32 := 896#32
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c512_i32_80 : BitVec 32 := 512#32
  let v133 : BitVec 32 := Scalar.muli v9 c512_i32_80
  ![896, v133.toNat]
def k0_dev8 (d0 : Dev nD) : Nat :=
  let c0_i32_86 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_85 : BitVec 32 := 8#32
  let v137 : BitVec 32 := Scalar.muli v2 c8_i32_85
  let v138 : BitVec 32 := Scalar.addi c0_i32_86 v137
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_87 : BitVec 32 := 4#32
  let v139 : BitVec 32 := Scalar.muli v9 c4_i32_87
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_88 : BitVec 32 := 1#32
  let v141 : BitVec 32 := Scalar.muli v8 c1_i32_88
  let v142 : BitVec 32 := Scalar.addi v140 v141
  v142.toNat
def k0_off5 (d0 : Dev nD) : Fin 2 → Nat :=
  let c960_i32 : BitVec 32 := 960#32
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c512_i32_91 : BitVec 32 := 512#32
  let v149 : BitVec 32 := Scalar.muli v9 c512_i32_91
  ![960, v149.toNat]
def k0_dev9 (d0 : Dev nD) : Nat :=
  let c0_i32_97 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_96 : BitVec 32 := 8#32
  let v153 : BitVec 32 := Scalar.muli v2 c8_i32_96
  let v154 : BitVec 32 := Scalar.addi c0_i32_97 v153
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_98 : BitVec 32 := 4#32
  let v155 : BitVec 32 := Scalar.muli v9 c4_i32_98
  let v156 : BitVec 32 := Scalar.addi v154 v155
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v157 : BitVec 32 := Scalar.muli v8 c1_i32_99
  let v158 : BitVec 32 := Scalar.addi v156 v157
  v158.toNat
def k0_off6 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_102 : BitVec 32 := 1024#32
  let v166 : BitVec 32 := Scalar.muli v5 c1024_i32_102
  let c0_i32_103 : BitVec 32 := 0#32
  ![v166.toNat, 0]
def k0_off7 (d0 : Dev nD) : Fin 2 → Nat :=
  let c0_i32_104 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32_101 : BitVec 32 := 512#32
  let v165 : BitVec 32 := Scalar.muli v5 c512_i32_101
  ![0, v165.toNat]
def k0_off8 (d0 : Dev nD) (c0_i32_113 : BitVec 32) : Fin 2 → Nat :=
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c1024_i32 : BitVec 32 := 1024#32
  let v50 : BitVec 32 := Scalar.muli v9 c1024_i32
  let c224_i32 : BitVec 32 := 224#32
  let c2_i32_26 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v43 : BitVec 32 := Scalar.muli c2_i32_26 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v44 : BitVec 32 := Scalar.addi v43 v20
  let v51 : BitVec 32 := Scalar.muli c224_i32 v44
  let v52 : BitVec 32 := Scalar.addi v50 v51
  let v180 : BitVec 32 := Scalar.addi v52 c0_i32_113
  let c0_i32_120 : BitVec 32 := 0#32
  ![v180.toNat, 0]
def k0_dev10 (d0 : Dev nD) : Nat :=
  let c0_i32_117 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_116 : BitVec 32 := 8#32
  let v181 : BitVec 32 := Scalar.muli v10 c8_i32_116
  let v182 : BitVec 32 := Scalar.addi c0_i32_117 v181
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_118 : BitVec 32 := 4#32
  let v183 : BitVec 32 := Scalar.muli v5 c4_i32_118
  let v184 : BitVec 32 := Scalar.addi v182 v183
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_119 : BitVec 32 := 1#32
  let v185 : BitVec 32 := Scalar.muli v8 c1_i32_119
  let v186 : BitVec 32 := Scalar.addi v184 v185
  v186.toNat
def k0_dev11 (d0 : Dev nD) : Nat :=
  let c0_i32_126 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_125 : BitVec 32 := 8#32
  let v194 : BitVec 32 := Scalar.muli v2 c8_i32_125
  let v195 : BitVec 32 := Scalar.addi c0_i32_126 v194
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_127 : BitVec 32 := 4#32
  let v196 : BitVec 32 := Scalar.muli v5 c4_i32_127
  let v197 : BitVec 32 := Scalar.addi v195 v196
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v22 : BitVec 32 := Scalar.muli c2_i32_10 v20
  let v23 : BitVec 32 := Scalar.subi v21 v22
  let c1_i32_128 : BitVec 32 := 1#32
  let v198 : BitVec 32 := Scalar.muli v23 c1_i32_128
  let v199 : BitVec 32 := Scalar.addi v197 v198
  v199.toNat
def k0_dev12 (d0 : Dev nD) : Nat :=
  let c0_i32_143 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_142 : BitVec 32 := 8#32
  let v218 : BitVec 32 := Scalar.muli v10 c8_i32_142
  let v219 : BitVec 32 := Scalar.addi c0_i32_143 v218
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_144 : BitVec 32 := 4#32
  let v220 : BitVec 32 := Scalar.muli v5 c4_i32_144
  let v221 : BitVec 32 := Scalar.addi v219 v220
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_145 : BitVec 32 := 1#32
  let v222 : BitVec 32 := Scalar.muli v8 c1_i32_145
  let v223 : BitVec 32 := Scalar.addi v221 v222
  v223.toNat
def k0_dev13 (d0 : Dev nD) : Nat :=
  let c0_i32_152 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_151 : BitVec 32 := 8#32
  let v231 : BitVec 32 := Scalar.muli v2 c8_i32_151
  let v232 : BitVec 32 := Scalar.addi c0_i32_152 v231
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_153 : BitVec 32 := 4#32
  let v233 : BitVec 32 := Scalar.muli v5 c4_i32_153
  let v234 : BitVec 32 := Scalar.addi v232 v233
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v22 : BitVec 32 := Scalar.muli c2_i32_10 v20
  let v23 : BitVec 32 := Scalar.subi v21 v22
  let c1_i32_154 : BitVec 32 := 1#32
  let v235 : BitVec 32 := Scalar.muli v23 c1_i32_154
  let v236 : BitVec 32 := Scalar.addi v234 v235
  v236.toNat
def k0_dev14 (d0 : Dev nD) : Nat :=
  let c0_i32_169 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_168 : BitVec 32 := 8#32
  let v255 : BitVec 32 := Scalar.muli v10 c8_i32_168
  let v256 : BitVec 32 := Scalar.addi c0_i32_169 v255
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_170 : BitVec 32 := 4#32
  let v257 : BitVec 32 := Scalar.muli v5 c4_i32_170
  let v258 : BitVec 32 := Scalar.addi v256 v257
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_171 : BitVec 32 := 1#32
  let v259 : BitVec 32 := Scalar.muli v8 c1_i32_171
  let v260 : BitVec 32 := Scalar.addi v258 v259
  v260.toNat
def k0_dev15 (d0 : Dev nD) : Nat :=
  let c0_i32_178 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_177 : BitVec 32 := 8#32
  let v268 : BitVec 32 := Scalar.muli v2 c8_i32_177
  let v269 : BitVec 32 := Scalar.addi c0_i32_178 v268
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_179 : BitVec 32 := 4#32
  let v270 : BitVec 32 := Scalar.muli v5 c4_i32_179
  let v271 : BitVec 32 := Scalar.addi v269 v270
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v22 : BitVec 32 := Scalar.muli c2_i32_10 v20
  let v23 : BitVec 32 := Scalar.subi v21 v22
  let c1_i32_180 : BitVec 32 := 1#32
  let v272 : BitVec 32 := Scalar.muli v23 c1_i32_180
  let v273 : BitVec 32 := Scalar.addi v271 v272
  v273.toNat
def k0_dev16 (d0 : Dev nD) : Nat :=
  let c0_i32_195 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_194 : BitVec 32 := 8#32
  let v292 : BitVec 32 := Scalar.muli v10 c8_i32_194
  let v293 : BitVec 32 := Scalar.addi c0_i32_195 v292
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_196 : BitVec 32 := 4#32
  let v294 : BitVec 32 := Scalar.muli v5 c4_i32_196
  let v295 : BitVec 32 := Scalar.addi v293 v294
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_197 : BitVec 32 := 1#32
  let v296 : BitVec 32 := Scalar.muli v8 c1_i32_197
  let v297 : BitVec 32 := Scalar.addi v295 v296
  v297.toNat
def k0_dev17 (d0 : Dev nD) : Nat :=
  let c0_i32_204 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_203 : BitVec 32 := 8#32
  let v305 : BitVec 32 := Scalar.muli v2 c8_i32_203
  let v306 : BitVec 32 := Scalar.addi c0_i32_204 v305
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_205 : BitVec 32 := 4#32
  let v307 : BitVec 32 := Scalar.muli v5 c4_i32_205
  let v308 : BitVec 32 := Scalar.addi v306 v307
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v22 : BitVec 32 := Scalar.muli c2_i32_10 v20
  let v23 : BitVec 32 := Scalar.subi v21 v22
  let c1_i32_206 : BitVec 32 := 1#32
  let v309 : BitVec 32 := Scalar.muli v23 c1_i32_206
  let v310 : BitVec 32 := Scalar.addi v308 v309
  v310.toNat
def k0_off9 (d0 : Dev nD) (c0_i32_218 : BitVec 32) : Fin 2 → Nat :=
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c1024_i32 : BitVec 32 := 1024#32
  let v50 : BitVec 32 := Scalar.muli v9 c1024_i32
  let c224_i32_30 : BitVec 32 := 224#32
  let c2_i32_27 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let v45 : BitVec 32 := Scalar.muli c2_i32_27 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v46 : BitVec 32 := Scalar.addi v45 v20
  let v53 : BitVec 32 := Scalar.muli c224_i32_30 v46
  let v54 : BitVec 32 := Scalar.addi v50 v53
  let v328 : BitVec 32 := Scalar.addi v54 c0_i32_218
  let c0_i32_225 : BitVec 32 := 0#32
  ![v328.toNat, 0]
def k0_dev18 (d0 : Dev nD) : Nat :=
  let c0_i32_222 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_221 : BitVec 32 := 8#32
  let v329 : BitVec 32 := Scalar.muli v2 c8_i32_221
  let v330 : BitVec 32 := Scalar.addi c0_i32_222 v329
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_223 : BitVec 32 := 4#32
  let v331 : BitVec 32 := Scalar.muli v5 c4_i32_223
  let v332 : BitVec 32 := Scalar.addi v330 v331
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v22 : BitVec 32 := Scalar.muli c2_i32_10 v20
  let v23 : BitVec 32 := Scalar.subi v21 v22
  let c1_i32_224 : BitVec 32 := 1#32
  let v333 : BitVec 32 := Scalar.muli v23 c1_i32_224
  let v334 : BitVec 32 := Scalar.addi v332 v333
  v334.toNat
def k0_dev19 (d0 : Dev nD) : Nat :=
  let c0_i32_240 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_239 : BitVec 32 := 8#32
  let v353 : BitVec 32 := Scalar.muli v2 c8_i32_239
  let v354 : BitVec 32 := Scalar.addi c0_i32_240 v353
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_241 : BitVec 32 := 4#32
  let v355 : BitVec 32 := Scalar.muli v5 c4_i32_241
  let v356 : BitVec 32 := Scalar.addi v354 v355
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v22 : BitVec 32 := Scalar.muli c2_i32_10 v20
  let v23 : BitVec 32 := Scalar.subi v21 v22
  let c1_i32_242 : BitVec 32 := 1#32
  let v357 : BitVec 32 := Scalar.muli v23 c1_i32_242
  let v358 : BitVec 32 := Scalar.addi v356 v357
  v358.toNat
def k0_off10 (d0 : Dev nD) (c0_i32_256 : BitVec 32) : Fin 2 → Nat :=
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c1024_i32 : BitVec 32 := 1024#32
  let v50 : BitVec 32 := Scalar.muli v9 c1024_i32
  let c224_i32_31 : BitVec 32 := 224#32
  let c2_i32_28 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v47 : BitVec 32 := Scalar.muli c2_i32_28 v2
  let c1_i32_29 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v48 : BitVec 32 := Scalar.subi c1_i32_29 v20
  let v49 : BitVec 32 := Scalar.addi v47 v48
  let v55 : BitVec 32 := Scalar.muli c224_i32_31 v49
  let v56 : BitVec 32 := Scalar.addi v50 v55
  let c112_i32_255 : BitVec 32 := 112#32
  let v377 : BitVec 32 := Scalar.addi v56 c112_i32_255
  let v378 : BitVec 32 := Scalar.addi v377 c0_i32_256
  let c0_i32_263 : BitVec 32 := 0#32
  ![v378.toNat, 0]
def k0_dev20 (d0 : Dev nD) : Nat :=
  let c0_i32_260 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_259 : BitVec 32 := 8#32
  let v379 : BitVec 32 := Scalar.muli v10 c8_i32_259
  let v380 : BitVec 32 := Scalar.addi c0_i32_260 v379
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_261 : BitVec 32 := 4#32
  let v381 : BitVec 32 := Scalar.muli v5 c4_i32_261
  let v382 : BitVec 32 := Scalar.addi v380 v381
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_262 : BitVec 32 := 1#32
  let v383 : BitVec 32 := Scalar.muli v8 c1_i32_262
  let v384 : BitVec 32 := Scalar.addi v382 v383
  v384.toNat
def k0_dev21 (d0 : Dev nD) : Nat :=
  let c0_i32_280 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_279 : BitVec 32 := 8#32
  let v405 : BitVec 32 := Scalar.muli v10 c8_i32_279
  let v406 : BitVec 32 := Scalar.addi c0_i32_280 v405
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_281 : BitVec 32 := 4#32
  let v407 : BitVec 32 := Scalar.muli v5 c4_i32_281
  let v408 : BitVec 32 := Scalar.addi v406 v407
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_282 : BitVec 32 := 1#32
  let v409 : BitVec 32 := Scalar.muli v8 c1_i32_282
  let v410 : BitVec 32 := Scalar.addi v408 v409
  v410.toNat

class Facts₀ : Prop where
  hamt_1 : (1#32 : BitVec 32).msb = false
  hamt_3 : (3#32 : BitVec 32).msb = false
  inb_S4_S1_0 : ∀ a, (![0] : Fin 1 → Nat) a + S1.size a ≤ S4.size a
  squeezes_S1_S_ : S1.Squeezes S_
  inb_S4_S1_1 : ∀ a, (![1] : Fin 1 → Nat) a + S1.size a ≤ S4.size a
  inb_S4_S1_2 : ∀ a, (![2] : Fin 1 → Nat) a + S1.size a ≤ S4.size a
  inb_S4_S1_3 : ∀ a, (![3] : Fin 1 → Nat) a + S1.size a ≤ S4.size a
  inb_S2_S1_0 : ∀ a, (![0] : Fin 1 → Nat) a + S1.size a ≤ S2.size a
  inb_S2_S1_1 : ∀ a, (![1] : Fin 1 → Nat) a + S1.size a ≤ S2.size a
  hcc0_scratch0 : 0 + S4.numel ≤ 37
  hcc0_scratch1 : 4 + S4.numel ≤ 37
  hcc0_scratch2 : 8 + S2.numel ≤ 37
  hcc0_scratch3 : 10 + S2.numel ≤ 37
  hcc0_scratch4 : 12 + S4.numel ≤ 37
  hcc0_scratch5 : 16 + S4.numel ≤ 37
  hcc0_scratch6 : 20 + S4.numel ≤ 37
  hcc0_scratch7 : 24 + S4.numel ≤ 37
  hcc0_scratch8 : 28 + S2.numel ≤ 37
  hcc0_scratch9 : 30 + S2.numel ≤ 37
  hcc0_scratch10 : 32 + S2.numel ≤ 37
  hcc0_scratch11 : 34 + S2.numel ≤ 37
  hcc0_scratch12 : 36 + S_.numel ≤ 37
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ (r : Fin 4), ∀ a, (k0_off1 d0 (BitVec.ofNat 32 (56 * r.val))) a + S56x512.size a ≤ S2048x512.size a
  k0_off2_inb : ∀ d0 : Dev nD, ∀ (r : Fin 4), ∀ a, (k0_off2 d0 (BitVec.ofNat 32 (56 * r.val))) a + S56x512.size a ≤ S1024x1024.size a
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off3_inb : ∀ d0 : Dev nD, ∀ (r : Fin 2), ∀ a, (k0_off3 d0 (BitVec.ofNat 32 (64 * r.val))) a + S64x512.size a ≤ S2048x512.size a
  k0_off4_inb : ∀ d0 : Dev nD, ∀ a, (k0_off4 d0) a + S64x512.size a ≤ S1024x1024.size a
  k0_dev8_lt : ∀ d0 : Dev nD, (k0_dev8 d0) < nD
  k0_off5_inb : ∀ d0 : Dev nD, ∀ a, (k0_off5 d0) a + S64x512.size a ≤ S1024x1024.size a
  k0_dev9_lt : ∀ d0 : Dev nD, (k0_dev9 d0) < nD
  k0_off6_inb : ∀ d0 : Dev nD, ∀ a, (k0_off6 d0) a + S1024x512.size a ≤ S2048x512.size a
  k0_off7_inb : ∀ d0 : Dev nD, ∀ a, (k0_off7 d0) a + S1024x512.size a ≤ S1024x1024.size a
  k0_off8_inb : ∀ d0 : Dev nD, ∀ (r : Fin 4), ∀ a, (k0_off8 d0 (BitVec.ofNat 32 (56 * r.val))) a + S56x512.size a ≤ S2048x512.size a
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_off9_inb : ∀ d0 : Dev nD, ∀ (r : Fin 2), ∀ a, (k0_off9 d0 (BitVec.ofNat 32 (56 * r.val))) a + S56x512.size a ≤ S2048x512.size a
  k0_dev18_lt : ∀ d0 : Dev nD, (k0_dev18 d0) < nD
  k0_dev19_lt : ∀ d0 : Dev nD, (k0_dev19 d0) < nD
  k0_off10_inb : ∀ d0 : Dev nD, ∀ (r : Fin 2), ∀ a, (k0_off10 d0 (BitVec.ofNat 32 (56 * r.val))) a + S56x512.size a ≤ S2048x512.size a
  k0_dev20_lt : ∀ d0 : Dev nD, (k0_dev20 d0) < nD
  k0_dev21_lt : ∀ d0 : Dev nD, (k0_dev21 d0) < nD

variable [Facts₀]

abbrev cc0_scratch0 : DmaSems sig S4 := SemArray.consecutive 0 S4 hcc0_scratch0
abbrev cc0_scratch1 : DmaSems sig S4 := SemArray.consecutive 4 S4 hcc0_scratch1
abbrev cc0_scratch2 : DmaSems sig S2 := SemArray.consecutive 8 S2 hcc0_scratch2
abbrev cc0_scratch3 : DmaSems sig S2 := SemArray.consecutive 10 S2 hcc0_scratch3
abbrev cc0_scratch4 : DmaSems sig S4 := SemArray.consecutive 12 S4 hcc0_scratch4
abbrev cc0_scratch5 : DmaSems sig S4 := SemArray.consecutive 16 S4 hcc0_scratch5
abbrev cc0_scratch6 : DmaSems sig S4 := SemArray.consecutive 20 S4 hcc0_scratch6
abbrev cc0_scratch7 : DmaSems sig S4 := SemArray.consecutive 24 S4 hcc0_scratch7
abbrev cc0_scratch8 : DmaSems sig S2 := SemArray.consecutive 28 S2 hcc0_scratch8
abbrev cc0_scratch9 : DmaSems sig S2 := SemArray.consecutive 30 S2 hcc0_scratch9
abbrev cc0_scratch10 : DmaSems sig S2 := SemArray.consecutive 32 S2 hcc0_scratch10
abbrev cc0_scratch11 : DmaSems sig S2 := SemArray.consecutive 34 S2 hcc0_scratch11
abbrev cc0_scratch12 : DmaSems sig S_ := SemArray.consecutive 36 S_ hcc0_scratch12

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S2048x1024 : Shape := ⟨2, ![2048, 1024]⟩

abbrev nBuf : Space → Nat
  | .hbm => 1
  | .vmem => 0
  | .smem => 0
  | _ => 0

abbrev bufTy : (tb : Table) → Fin (tcTables nBuf tb) → BufTy
  | .hbm, ⟨0, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.Mesh.lean ====
import proofs.«900637_g7700000000000638_dist_a2a_v7x_xyz2x2x4_y_m1024_n512_f32_1_alg».proof.Proof.Gen.KernelIdeal

set_option Elab.async false

namespace Cert.KernelIdeal.A2A

open Idealize.ShloMosaic Idealize.SL.Sem Cert.KernelIdeal Cert.KernelIdeal.Gen

abbrev xv (d : Dev nD) : Nat := d.val / 8
abbrev yv (d : Dev nD) : Nat := (d.val / 4) % 2
abbrev pz (d : Dev nD) : Nat := d.val % 2

abbrev qme (d : Dev nD) : Nat := 2 * xv d + pz d
abbrev qxp (d : Dev nD) : Nat := 2 * (1 - xv d) + pz d
abbrev qzp (d : Dev nD) : Nat := 2 * xv d + (1 - pz d)
abbrev q4 (d : Dev nD) : Nat := 2 * (1 - xv d) + (1 - pz d)

theorem xv_le (d : Dev nD) : xv d ≤ 1 := by revert d; decide
theorem yv_le (d : Dev nD) : yv d ≤ 1 := by revert d; decide
theorem pz_le (d : Dev nD) : pz d ≤ 1 := by revert d; decide

def yp (d : Dev nD) : Dev nD := ⟨(8 * (d.val / 8) + (d.val % 4) + 4) - 4 * ((d.val / 4) % 2), by revert d; decide⟩
def xp (d : Dev nD) : Dev nD := ⟨(4 * ((d.val / 4) % 2) + (d.val % 4) + 8) - 8 * (d.val / 8), by revert d; decide⟩
def zp (d : Dev nD) : Dev nD := ⟨(d.val + 1) - 2 * (d.val % 2), by revert d; decide⟩

theorem yp_yp (d : Dev nD) : yp (yp d) = d := by revert d; decide
theorem xp_xp (d : Dev nD) : xp (xp d) = d := by revert d; decide
theorem zp_zp (d : Dev nD) : zp (zp d) = d := by revert d; decide

def ypE : Dev nD ≃ Dev nD := ⟨yp, yp, yp_yp, yp_yp⟩
def xpE : Dev nD ≃ Dev nD := ⟨xp, xp, xp_xp, xp_xp⟩
def zpE : Dev nD ≃ Dev nD := ⟨zp, zp, zp_zp, zp_zp⟩

theorem yv_yp (d : Dev nD) : yv (yp d) = 1 - yv d := by revert d; decide
theorem yv_xp (d : Dev nD) : yv (xp d) = yv d := by revert d; decide
theorem yv_zp (d : Dev nD) : yv (zp d) = yv d := by revert d; decide

theorem dev1_eq (c : Dev nD) : (⟨k0_dev1 c, k0_dev1_lt c⟩ : Dev nD) = yp c := Fin.ext (k0_dev1_eq c)
theorem dev2_eq (c : Dev nD) : (⟨k0_dev2 c, k0_dev2_lt c⟩ : Dev nD) = xp c := Fin.ext (k0_dev2_eq c)
theorem dev3_eq (c : Dev nD) : (⟨k0_dev3 c, k0_dev3_lt c⟩ : Dev nD) = zp c := by revert c; decide +kernel
theorem dev4_eq (c : Dev nD) : (⟨k0_dev4 c, k0_dev4_lt c⟩ : Dev nD) = yp c := Fin.ext (k0_dev4_eq c)
theorem dev5_eq (c : Dev nD) : (⟨k0_dev5 c, k0_dev5_lt c⟩ : Dev nD) = yp c := Fin.ext (k0_dev5_eq c)
theorem dev6_eq (c : Dev nD) : (⟨k0_dev6 c, k0_dev6_lt c⟩ : Dev nD) = yp c := Fin.ext (k0_dev6_eq c)
theorem dev7_eq (c : Dev nD) : (⟨k0_dev7 c, k0_dev7_lt c⟩ : Dev nD) = yp c := Fin.ext (k0_dev7_eq c)
theorem dev8_eq (c : Dev nD) : (⟨k0_dev8 c, k0_dev8_lt c⟩ : Dev nD) = yp c := Fin.ext (k0_dev8_eq c)
theorem dev9_eq (c : Dev nD) : (⟨k0_dev9 c, k0_dev9_lt c⟩ : Dev nD) = yp c := Fin.ext (k0_dev9_eq c)
theorem dev10_eq (c : Dev nD) : (⟨k0_dev10 c, k0_dev10_lt c⟩ : Dev nD) = xp c := Fin.ext (k0_dev10_eq c)
theorem dev11_eq (c : Dev nD) : (⟨k0_dev11 c, k0_dev11_lt c⟩ : Dev nD) = zp c := by revert c; decide +kernel
theorem dev12_eq (c : Dev nD) : (⟨k0_dev12 c, k0_dev12_lt c⟩ : Dev nD) = xp c := Fin.ext (k0_dev12_eq c)
theorem dev13_eq (c : Dev nD) : (⟨k0_dev13 c, k0_dev13_lt c⟩ : Dev nD) = zp c := by revert c; decide +kernel
theorem dev14_eq (c : Dev nD) : (⟨k0_dev14 c, k0_dev14_lt c⟩ : Dev nD) = xp c := Fin.ext (k0_dev14_eq c)
theorem dev15_eq (c : Dev nD) : (⟨k0_dev15 c, k0_dev15_lt c⟩ : Dev nD) = zp c := by revert c; decide +kernel
theorem dev16_eq (c : Dev nD) : (⟨k0_dev16 c, k0_dev16_lt c⟩ : Dev nD) = xp c := Fin.ext (k0_dev16_eq c)
theorem dev17_eq (c : Dev nD) : (⟨k0_dev17 c, k0_dev17_lt c⟩ : Dev nD) = zp c := by revert c; decide +kernel
theorem dev18_eq (c : Dev nD) : (⟨k0_dev18 c, k0_dev18_lt c⟩ : Dev nD) = zp c := by revert c; decide +kernel
theorem dev19_eq (c : Dev nD) : (⟨k0_dev19 c, k0_dev19_lt c⟩ : Dev nD) = zp c := by revert c; decide +kernel
theorem dev20_eq (c : Dev nD) : (⟨k0_dev20 c, k0_dev20_lt c⟩ : Dev nD) = xp c := Fin.ext (k0_dev20_eq c)
theorem dev21_eq (c : Dev nD) : (⟨k0_dev21 c, k0_dev21_lt c⟩ : Dev nD) = xp c := Fin.ext (k0_dev21_eq c)

theorem off1_eq : ∀ d : Dev nD, ∀ r : Fin 4, k0_off1 d (BitVec.ofNat 32 (56 * r.val)) = ![1024 * yv d + 224 * qme d + 56 * r.val, 0] := by decide +kernel

theorem off2_eq : ∀ d : Dev nD, ∀ r : Fin 4, k0_off2 d (BitVec.ofNat 32 (56 * r.val)) = ![224 * qme d + 56 * r.val, 512 - 512 * yv d] := by decide +kernel

theorem off8_eq : ∀ d : Dev nD, ∀ r : Fin 4, k0_off8 d (BitVec.ofNat 32 (56 * r.val)) = ![1024 * (1 - yv d) + 224 * qme d + 56 * r.val, 0] := by decide +kernel

theorem off9_eq : ∀ d : Dev nD, ∀ r : Fin 2, k0_off9 d (BitVec.ofNat 32 (56 * r.val)) = ![1024 * (1 - yv d) + 224 * qxp d + 56 * r.val, 0] := by decide +kernel

theorem off10_eq : ∀ d : Dev nD, ∀ r : Fin 2, k0_off10 d (BitVec.ofNat 32 (56 * r.val)) = ![1024 * (1 - yv d) + 224 * qzp d + 112 + 56 * r.val, 0] := by decide +kernel

end Cert.KernelIdeal.A2A
-- ==== Proof.Views.lean ====
import proofs.«900637_g7700000000000638_dist_a2a_v7x_xyz2x2x4_y_m1024_n512_f32_1_alg».proof.Proof.Mesh
import Idealize.ShloMosaic.Lib.Pipeline.Value

noncomputable section

namespace Cert.KernelIdeal.A2A

open Idealize.ShloMosaic Idealize.ShloMosaic.TcCoe Idealize.SL.Sem Cert.KernelIdeal Cert.KernelIdeal.Gen

abbrev xM : Memref sig .tc .hbm S1024x1024 .f32 := Memref.whole main_arg0
abbrev oM : Memref sig .tc .hbm S2048x512 .f32 := Memref.whole main_v1

abbrev ySrc (s : Dev nD) (r : Fin 4) : Memref sig .tc .hbm S56x512 .f32 :=
  xM.slice (Rect.unit (s := S1024x1024) (k0_off2 s (BitVec.ofNat 32 (56 * r.val))) S56x512.size (k0_off2_inb s r)) (fun _ => rfl)

abbrev yDst (s : Dev nD) (r : Fin 4) : Memref sig .tc .hbm S56x512 .f32 :=
  oM.slice (Rect.unit (s := S2048x512) (k0_off1 s (BitVec.ofNat 32 (56 * r.val))) S56x512.size (k0_off1_inb s r)) (fun _ => rfl)

abbrev tSrc0 (s : Dev nD) : Memref sig .tc .hbm S64x512 .f32 :=
  xM.slice (Rect.unit (s := S1024x1024) (k0_off4 s) S64x512.size (k0_off4_inb s)) (fun _ => rfl)
abbrev tSrc1 (s : Dev nD) : Memref sig .tc .hbm S64x512 .f32 :=
  xM.slice (Rect.unit (s := S1024x1024) (k0_off5 s) S64x512.size (k0_off5_inb s)) (fun _ => rfl)

abbrev tDst (s : Dev nD) (r : Fin 2) : Memref sig .tc .hbm S64x512 .f32 :=
  oM.slice (Rect.unit (s := S2048x512) (k0_off3 s (BitVec.ofNat 32 (64 * r.val))) S64x512.size (k0_off3_inb s r)) (fun _ => rfl)

abbrev lSrc (s : Dev nD) : Memref sig .tc .hbm S1024x512 .f32 :=
  xM.slice (Rect.unit (s := S1024x1024) (k0_off7 s) S1024x512.size (k0_off7_inb s)) (fun _ => rfl)
abbrev lDst (s : Dev nD) : Memref sig .tc .hbm S1024x512 .f32 :=
  oM.slice (Rect.unit (s := S2048x512) (k0_off6 s) S1024x512.size (k0_off6_inb s)) (fun _ => rfl)

abbrev fw (s : Dev nD) (r : Fin 4) : Memref sig .tc .hbm S56x512 .f32 :=
  oM.slice (Rect.unit (s := S2048x512) (k0_off8 s (BitVec.ofNat 32 (56 * r.val))) S56x512.size (k0_off8_inb s r)) (fun _ => rfl)

abbrev fa (s : Dev nD) (r : Fin 2) : Memref sig .tc .hbm S56x512 .f32 :=
  oM.slice (Rect.unit (s := S2048x512) (k0_off9 s (BitVec.ofNat 32 (56 * r.val))) S56x512.size (k0_off9_inb s r)) (fun _ => rfl)

abbrev fb (s : Dev nD) (r : Fin 2) : Memref sig .tc .hbm S56x512 .f32 :=
  oM.slice (Rect.unit (s := S2048x512) (k0_off10 s (BitVec.ofNat 32 (56 * r.val))) S56x512.size (k0_off10_inb s r)) (fun _ => rfl)

variable {Val : EltTy → Type}

abbrev XBuf (Val : EltTy → Type) : Type := (d : Dev nD) → Buf Val ((d : Thread nD τ).loc main_arg0)

def srcDev (c : Dev nD) (ρ : Nat) : Dev nD :=
  if h : ρ < 896 then
    ⟨8 * ((ρ / 224) / 2) + 4 * (1 - yv c) + 2 * ((c.val % 4) / 2) + (ρ / 224) % 2, by
      have h1 : ρ / 224 < 4 := Nat.div_lt_of_lt_mul (by omega)
      have h2 := yv_le c
      have h3 : c.val % 4 / 2 < 2 := by omega
      have h4 : (ρ / 224) / 2 < 2 := by omega
      show _ < 16
      omega⟩
  else yp c

def xIdx (c : Dev nD) (ρ : Nat) (hρ : ρ < 1024) (j : Fin 512) : S1024x1024.Idx :=
  fun a => match a with
    | ⟨0, _⟩ => ⟨ρ, hρ⟩
    | ⟨1, _⟩ => ⟨512 * yv c + j.val, by have := yv_le c; have := j.isLt; show _ < 1024; omega⟩

def outF (X : XBuf Val) (c : Dev nD) : Buf Val ((c : Thread nD τ).loc main_v1) :=
  fun i =>
    let ρ : Nat := (i 0).val % 1024
    have hρ : ρ < 1024 := Nat.mod_lt _ (by decide)
    if (i 0).val / 1024 = yv c then X c (xIdx c ρ hρ (i 1))
    else X (srcDev c ρ) (xIdx c ρ hρ (i 1))

end Cert.KernelIdeal.A2A

end
-- ==== Proof.Core.lean ====
import proofs.«900637_g7700000000000638_dist_a2a_v7x_xyz2x2x4_y_m1024_n512_f32_1_alg».proof.Proof.Views
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev barS : Sem sig := (SemArray.scalar (sig.barrier 0 rfl) : Sems sig S_).sem
abbrev barCell (c : Dev nD) : GSem nD τ sig := ((c : Thread nD τ), .reg barS)
abbrev dCell (c : Dev nD) (j : DmaSem sig) : GSem nD τ sig := ((c : Thread nD τ), .dma j)

def csem (k : Fin 38) : SemLoc sig := if h : k.val < 37 then .dma ⟨k.val, h⟩ else .reg barS
abbrev kcell (ck : Dev nD × Fin 38) : GSem nD τ sig := ((ck.1 : Thread nD τ), csem ck.2)

abbrev osem : Fin 37 → SemLoc sig := fun j => .dma j

def rowsO (lo len : Nat) : Finset S2048x512.Idx := Finset.univ.filter fun i => lo ≤ (i 0).val ∧ (i 0).val < lo + len

def rectX (r0 rl c0 : Nat) : Finset S1024x1024.Idx :=
  Finset.univ.filter fun i => (r0 ≤ (i 0).val ∧ (i 0).val < r0 + rl) ∧ (c0 ≤ (i 1).val ∧ (i 1).val < c0 + 512)

abbrev far (c : Dev nD) : Nat := 1024 * (1 - yv c)
abbrev own (c : Dev nD) : Nat := 1024 * yv c

def QR (c : Dev nD) (q r : Nat) : Finset S2048x512.Idx := rowsO (far c + 224 * q + 56 * r) 56
def TR (c : Dev nD) (r : Nat) : Finset S2048x512.Idx := rowsO (far c + 896 + 64 * r) 64
def LR (c : Dev nD) : Finset S2048x512.Idx := rowsO (own c) 1024

def YS (c : Dev nD) (r : Nat) : Finset S1024x1024.Idx := rectX (224 * qme c + 56 * r) 56 (512 - 512 * yv c)
def TS (c : Dev nD) (r : Nat) : Finset S1024x1024.Idx := rectX (896 + 64 * r) 64 (512 - 512 * yv c)
def LS (c : Dev nD) : Finset S1024x1024.Idx := rectX 0 1024 (512 * yv c)

abbrev oLoc (c : Dev nD) : Loc nD τ sig := (c : Thread nD τ).loc main_v1
abbrev xLoc (c : Dev nD) : Loc nD τ sig := (c : Thread nD τ).loc main_arg0

abbrev oPt (c : Dev nD) (S : Finset S2048x512.Idx) (q : PosShare TreeShare) (f : Buf (Elt F) (oLoc c)) : sProp 𝕄 :=
  oLoc c ↦[S]{q} f
abbrev xPt (c : Dev nD) (f : Buf (Elt F) (xLoc c)) (S : Finset S1024x1024.Idx) (q : PosShare TreeShare) : sProp 𝕄 :=
  xLoc c ↦[S]{q} f

abbrev oAny (p : Dev nD) (S : Finset S2048x512.Idx) : sProp 𝕄 := iprop(∃ f : Buf (Elt F) (oLoc p), oLoc p ↦[S]{fullShare} f)

abbrev N56 : ℕ := (fw 0 0).view.dmaCredit
abbrev N64 : ℕ := (tDst 0 0).view.dmaCredit
abbrev NL : ℕ := (lDst 0).view.dmaCredit
theorem N56_pos : 0 < N56 := View.dmaCredit_pos _ (by decide)
theorem N64_pos : 0 < N64 := View.dmaCredit_pos _ (by decide)
theorem NL_pos : 0 < NL := View.dmaCredit_pos _ (by decide)

def cr (j : DmaSem sig) : ℕ := if 8 ≤ j.val ∧ j.val < 12 then N64 else if j.val = 36 then NL else N56
theorem cr_pos (j : DmaSem sig) : 0 < cr j := by
  unfold cr; split
  · exact N64_pos
  · split
    · exact NL_pos
    · exact N56_pos

variable (X : XBuf (Elt F))

def dmaPay (c : Dev nD) : DmaSem sig → sProp 𝕄
  | ⟨0, _⟩ => xPt c (X c) (YS c 0) fullShare
  | ⟨1, _⟩ => xPt c (X c) (YS c 1) fullShare
  | ⟨2, _⟩ => xPt c (X c) (YS c 2) fullShare
  | ⟨3, _⟩ => xPt c (X c) (YS c 3) fullShare
  | ⟨4, _⟩ => oPt c (QR c (qme c) 0) fullShare (outF X c)
  | ⟨5, _⟩ => oPt c (QR c (qme c) 1) fullShare (outF X c)
  | ⟨6, _⟩ => oPt c (QR c (qme c) 2) fullShare (outF X c)
  | ⟨7, _⟩ => oPt c (QR c (qme c) 3) fullShare (outF X c)
  | ⟨8, _⟩ => xPt c (X c) (TS c 0) fullShare
  | ⟨9, _⟩ => xPt c (X c) (TS c 1) fullShare
  | ⟨10, _⟩ => oPt c (TR c 0) fullShare (outF X c)
  | ⟨11, _⟩ => oPt c (TR c 1) fullShare (outF X c)
  | ⟨12, _⟩ => oPt c (QR c (qme c) 0) fullShare.left (outF X c)
  | ⟨13, _⟩ => oPt c (QR c (qme c) 1) fullShare.left (outF X c)
  | ⟨14, _⟩ => oPt c (QR c (qme c) 2) fullShare.left (outF X c)
  | ⟨15, _⟩ => oPt c (QR c (qme c) 3) fullShare.left (outF X c)
  | ⟨16, _⟩ => oPt c (QR c (qxp c) 0) fullShare (outF X c)
  | ⟨17, _⟩ => oPt c (QR c (qxp c) 1) fullShare (outF X c)
  | ⟨18, _⟩ => oPt c (QR c (qxp c) 2) fullShare (outF X c)
  | ⟨19, _⟩ => oPt c (QR c (qxp c) 3) fullShare (outF X c)
  | ⟨20, _⟩ => oPt c (QR c (qme c) 0) fullShare.right (outF X c)
  | ⟨21, _⟩ => oPt c (QR c (qme c) 1) fullShare.right (outF X c)
  | ⟨22, _⟩ => oPt c (QR c (qme c) 2) fullShare.right (outF X c)
  | ⟨23, _⟩ => oPt c (QR c (qme c) 3) fullShare.right (outF X c)
  | ⟨24, _⟩ => oPt c (QR c (qzp c) 0) fullShare (outF X c)
  | ⟨25, _⟩ => oPt c (QR c (qzp c) 1) fullShare (outF X c)
  | ⟨26, _⟩ => oPt c (QR c (qzp c) 2) fullShare (outF X c)
  | ⟨27, _⟩ => oPt c (QR c (qzp c) 3) fullShare (outF X c)
  | ⟨28, _⟩ => oPt c (QR c (qxp c) 0) fullShare (outF X c)
  | ⟨29, _⟩ => oPt c (QR c (qxp c) 1) fullShare (outF X c)
  | ⟨30, _⟩ => oPt c (QR c (q4 c) 0) fullShare (outF X c)
  | ⟨31, _⟩ => oPt c (QR c (q4 c) 1) fullShare (outF X c)
  | ⟨32, _⟩ => oPt c (QR c (qzp c) 2) fullShare (outF X c)
  | ⟨33, _⟩ => oPt c (QR c (qzp c) 3) fullShare (outF X c)
  | ⟨34, _⟩ => oPt c (QR c (q4 c) 2) fullShare (outF X c)
  | ⟨35, _⟩ => oPt c (QR c (q4 c) 3) fullShare (outF X c)
  | ⟨36, _⟩ => iprop(oPt c (LR c) fullShare (outF X c) ∗ xPt c (X c) (LS c) fullShare)
  | ⟨_ + 37, h⟩ => absurd h (by have : sig.nDmaSem = 37 := rfl; omega)

def barPay (c : Dev nD) : Fin 3 → sProp 𝕄
  | 0 => iprop(oAny (yp c) (QR (yp c) (qme c) 0) ∗ oAny (yp c) (QR (yp c) (qme c) 1) ∗ oAny (yp c) (QR (yp c) (qme c) 2) ∗ oAny (yp c) (QR (yp c) (qme c) 3)
      ∗ oAny (yp c) (TR (yp c) 0) ∗ oAny (yp c) (TR (yp c) 1))
  | 1 => iprop(oAny (xp c) (QR (xp c) (qme c) 0) ∗ oAny (xp c) (QR (xp c) (qme c) 1) ∗ oAny (xp c) (QR (xp c) (qme c) 2) ∗ oAny (xp c) (QR (xp c) (qme c) 3)
      ∗ oAny (xp c) (QR (xp c) (qzp c) 2) ∗ oAny (xp c) (QR (xp c) (qzp c) 3))
  | 2 => iprop(oAny (zp c) (QR (zp c) (qme c) 0) ∗ oAny (zp c) (QR (zp c) (qme c) 1) ∗ oAny (zp c) (QR (zp c) (qme c) 2) ∗ oAny (zp c) (QR (zp c) (qme c) 3)
      ∗ oAny (zp c) (QR (zp c) (qxp c) 0) ∗ oAny (zp c) (QR (zp c) (qxp c) 1))

def Rd : Rounds.Schedule (GSem nD τ sig) (Fin 3) 𝕄 where
  duties g r := if r = 0 ∧ g.1.2 = .tc then (match g.2 with | .reg _ => Finset.univ | .dma _ => {0}) else ∅
  unitless _ := False
  amount g _ _ := match g.2 with | .reg _ => 1 | .dma j => cr j
  payload g _ d := match g.2 with | .reg _ => barPay g.1.1 d | .dma j => dmaPay X g.1.1 j
  amount_pos g _ _ _ := by
    cases hg : g.2 with
    | reg s => simp only [hg]; exact Nat.one_pos
    | dma j => simp only [hg]; exact cr_pos j

end Cert.KernelIdeal.A2A

end
-- ==== Proof.Proto.lean ====
import proofs.«900637_g7700000000000638_dist_a2a_v7x_xyz2x2x4_y_m1024_n512_f32_1_alg».proof.Proof.Core

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev dj (n : Fin 37) : DmaSem sig := n

def debts (c : Dev nD) : List (GSem nD τ sig × ℕ) :=
  [ (barCell (yp c), 1), (barCell (xp c), 1), (barCell (zp c), 1),
    (dCell (yp c) (dj 4), N56), (dCell (yp c) (dj 5), N56), (dCell (yp c) (dj 6), N56), (dCell (yp c) (dj 7), N56),
    (dCell (yp c) (dj 10), N64), (dCell (yp c) (dj 11), N64),
    (dCell (xp c) (dj 16), N56), (dCell (zp c) (dj 24), N56), (dCell (xp c) (dj 17), N56), (dCell (zp c) (dj 25), N56),
    (dCell (xp c) (dj 18), N56), (dCell (zp c) (dj 26), N56), (dCell (xp c) (dj 19), N56), (dCell (zp c) (dj 27), N56),
    (dCell (zp c) (dj 30), N56), (dCell (zp c) (dj 31), N56), (dCell (xp c) (dj 34), N56), (dCell (xp c) (dj 35), N56) ]

def oweL : List (GSem nD τ sig × ℕ) → CellTallies nD τ sig Unit
  | [] => 0
  | e :: t => oweL t + tallyAt e.1 () e.2

theorem oweL_cons (e : GSem nD τ sig × ℕ) (t : List (GSem nD τ sig × ℕ)) : oweL (e :: t) = oweL t + tallyAt e.1 () e.2 := rfl
theorem oweL_nil : oweL ([] : List (GSem nD τ sig × ℕ)) = 0 := rfl

def O₀ (c : Dev nD) : CellTallies nD τ sig Unit := oweL (debts c)
abbrev owedAfter (c : Dev nD) (n : Nat) : CellTallies nD τ sig Unit := oweL ((debts c).drop n)

def lvS : SemLoc sig → ℕ
  | .reg _ => 0
  | .dma j => if (4 ≤ j.val ∧ j.val < 8) ∨ (10 ≤ j.val ∧ j.val < 12) then 1
      else if (16 ≤ j.val ∧ j.val < 20) ∨ (24 ≤ j.val ∧ j.val < 28) then 2
      else if (30 ≤ j.val ∧ j.val < 32) ∨ (34 ≤ j.val ∧ j.val < 36) then 3 else 0

def L (g : GSem nD τ sig) : Finset Unit := if g.1.2 = .tc then {()} else ∅
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

variable (X : XBuf (Elt F))

def recs (K : Dev nD × Fin 38 → ℕ) : sProp 𝕄 :=
  iprop((bigSep Finset.univ fun ck : Dev nD × Fin 38 => cellInv ER (Rd X) (K ck) (kcell ck))
    ∗ bigSep Finset.univ fun ck : Dev nD × Fin 38 => reached ER (kcell ck) 0)

instance recs_persistent (K : Dev nD × Fin 38 → ℕ) : BI.Persistent (recs X K) := by unfold recs; infer_instance

abbrev kd (j : DmaSem sig) : Fin 38 := ⟨j.val, by have := j.isLt; have : sig.nDmaSem = 37 := rfl; omega⟩
abbrev kb : Fin 38 := ⟨37, by decide⟩

abbrev tokD (c : Dev nD) (j : DmaSem sig) : sProp 𝕄 := dutyTok ER (dCell c j) 0 (0 : Fin 3)
abbrev tokB (c : Dev nD) (d : Fin 3) : sProp 𝕄 := dutyTok ER (barCell c) 0 d
abbrev pos0 (c : Dev nD) (j : DmaSem sig) : sProp 𝕄 := atPos ER (dCell c j) 0 ∅ 0
abbrev pos1 (c : Dev nD) (j : DmaSem sig) : sProp 𝕄 := atPos ER (dCell c j) 1 ∅ 0
abbrev crD (c : Dev nD) (j : DmaSem sig) : sProp 𝕄 := cred (tallyAt (dCell c j) () (cr j))

end Cert.KernelIdeal.A2A

end
-- ==== Proof.Tables.lean ====
import proofs.«900637_g7700000000000638_dist_a2a_v7x_xyz2x2x4_y_m1024_n512_f32_1_alg».proof.Proof.Proto

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : XBuf (Elt F))

instance barPay_storable (c : Dev nD) (d : Fin 3) : BI.Storable (upEmb : UEmb _ 𝕄) (barPay (F := F) c d) := by
  match d with
  | 0 => unfold barPay; infer_instance
  | 1 => unfold barPay; infer_instance
  | 2 => unfold barPay; infer_instance

instance dmaPay_storable (c : Dev nD) (j : DmaSem sig) : BI.Storable (upEmb : UEmb _ 𝕄) (dmaPay X c j) := by
  unfold dmaPay
  split <;> first | infer_instance | exact absurd ‹_› (by have : sig.nDmaSem = 37 := rfl; omega)

instance Rd_payload_storable (g : GSem nD τ sig) (r : ℕ) (d : Fin 3) : BI.Storable (upEmb : UEmb _ 𝕄) ((Rd X).payload g r d) := by
  show BI.Storable upEmb (match g.2 with | .reg _ => barPay g.1.1 d | .dma j => dmaPay X g.1.1 j)
  split <;> infer_instance

section Tables
variable (c : Dev nD) (j : DmaSem sig) (d : Fin 3)

theorem duties_bar : (Rd X).duties (barCell c) 0 = Finset.univ := by dsimp only [Rd]; exact if_pos ⟨rfl, rfl⟩
theorem duties_dma : (Rd X).duties (dCell c j) 0 = {0} := by dsimp only [Rd]; exact if_pos ⟨rfl, rfl⟩
theorem duties_later (g : GSem nD τ sig) : ∀ r, 1 ≤ r → (Rd X).duties g r = ∅ :=
  fun r hr => by dsimp only [Rd]; exact if_neg fun h => by omega
theorem amount_bar : (Rd X).amount (barCell c) 0 d = 1 := rfl
theorem amount_dma : (Rd X).amount (dCell c j) 0 d = cr j := rfl
theorem payload_bar : (Rd X).payload (barCell c) 0 d = barPay c d := rfl
theorem payload_dma : (Rd X).payload (dCell c j) 0 d = dmaPay X c j := rfl

theorem expect_bar : (Rd X).expect (barCell c) 0 = 3 := by
  unfold Schedule.expect Schedule.amountOf
  rw [duties_bar, Finset.sum_congr rfl fun d _ => amount_bar X c d, Finset.sum_const, Finset.card_univ, Fintype.card_fin, smul_eq_mul]
theorem expect_dma : (Rd X).expect (dCell c j) 0 = cr j := by
  unfold Schedule.expect Schedule.amountOf; rw [duties_dma, Finset.sum_singleton, amount_dma]

theorem rest_bar : bigSep ((Rd X).duties (barCell c) 0 \ ∅) (fun d => (Rd X).payload (barCell c) 0 d)
    = iprop(barPay c 0 ∗ barPay c 1 ∗ barPay c 2) := by
  rw [Finset.sdiff_empty, duties_bar, bigSep_univ_eq_bigSepL [0, 1, 2] (by decide) (by decide)]
  rfl
theorem rest_dma : bigSep ((Rd X).duties (dCell c j) 0 \ ∅) (fun d => (Rd X).payload (dCell c j) 0 d) = dmaPay X c j := by
  rw [Finset.sdiff_empty, duties_dma, bigSep_singleton, payload_dma]

theorem kcell_d : kcell (c, kd j) = dCell c j := by
  unfold kcell csem; simp only [kd]; rw [dif_pos j.isLt]
theorem kcell_b : kcell (c, kb) = barCell c := by
  unfold kcell csem; rw [dif_neg (show ¬ (kb : Fin 38).val < 37 by decide)]

end Tables

theorem inv_at (K : Dev nD × Fin 38 → ℕ) (ck : Dev nD × Fin 38) : recs X K ⊢ cellInv ER (Rd X) (K ck) (kcell ck) := by
  unfold recs
  iintro ⟨HI, -⟩
  iapply (show (bigSep Finset.univ fun ck : Dev nD × Fin 38 => (cellInv ER (Rd X) (K ck) (kcell ck) : sProp 𝕄))
      ⊢ cellInv ER (Rd X) (K ck) (kcell ck) from bigSep_elim (Finset.mem_univ ck))
  iexact HI
theorem reached_at (K : Dev nD × Fin 38 → ℕ) (ck : Dev nD × Fin 38) : recs X K ⊢ (reached ER (kcell ck) 0 : sProp 𝕄) := by
  unfold recs
  iintro ⟨-, HR⟩
  iapply (show (bigSep Finset.univ fun ck : Dev nD × Fin 38 => (reached ER (kcell ck) 0 : sProp 𝕄))
      ⊢ reached ER (kcell ck) 0 from bigSep_elim (Finset.mem_univ ck))
  iexact HR

theorem inv_d (K : Dev nD × Fin 38 → ℕ) (c : Dev nD) (j : DmaSem sig) : recs X K ⊢ cellInv ER (Rd X) (K (c, kd j)) (dCell c j) := by
  have h := inv_at X K (c, kd j); rw [kcell_d] at h; exact h
theorem inv_b (K : Dev nD × Fin 38 → ℕ) (c : Dev nD) : recs X K ⊢ cellInv ER (Rd X) (K (c, kb)) (barCell c) := by
  have h := inv_at X K (c, kb); rw [kcell_b] at h; exact h
theorem reach_d (K : Dev nD × Fin 38 → ℕ) (c : Dev nD) (j : DmaSem sig) : recs X K ⊢ (reached ER (dCell c j) 0 : sProp 𝕄) := by
  have h := reached_at X K (c, kd j); rw [kcell_d] at h; exact h
theorem reach_b (K : Dev nD × Fin 38 → ℕ) (c : Dev nD) : recs X K ⊢ (reached ER (barCell c) 0 : sProp 𝕄) := by
  have h := reached_at X K (c, kb); rw [kcell_b] at h; exact h

end Cert.KernelIdeal.A2A

end
-- ==== Proof.Rules.lean ====
import proofs.«900637_g7700000000000638_dist_a2a_v7x_xyz2x2x4_y_m1024_n512_f32_1_alg».proof.Proof.Tables

noncomputable section

namespace Cert.KernelIdeal.A2A

open Cert.KernelIdeal Cert.KernelIdeal.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

abbrev 𝒱₀ : Variants := Variants.none

variable (X : XBuf (Elt F)) (K : Dev nD × Fin 38 → ℕ)

-- A signal pays one unit of the peer's barrier round and hands over that duty's payload.
theorem sig_step (c p n : Dev nD) (hn : n = p) (d : Fin 3) (O : CellTallies nD τ sig Unit) (W : Waits sig Unit) (k' : ℕ) (hk' : k' = 1)
    {α : Type} {Q : α → sProp 𝕄} {k : PUnit → Prog (TpuEff nD τ sig (Elt F) Λ₀ .tc) α} :
    ⊢ recs X K -∗ owes (c : Thread nD τ) (O + tallyAt (barCell p) () 1) W -∗ tokB p d -∗ barPay p d
      -∗ (owes (c : Thread nD τ) O W -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (n : Thread nD τ) barS k') k) Q := by
  subst hn; subst hk'
  iintro #HR HO Ht Hp
  iapply (Rounds.wp_signal 𝒱₀ ER (Rd X) (c : Thread nD τ) none (dst := (n : Thread nD τ)) (κ := K (n, kb))
      (d := d) (by rw [duties_bar]; exact Finset.mem_univ _) (amount_bar X n d) () O rfl)
  isplitr; · iapply (inv_b X K n); iexact HR
  iframe HO Ht
  isplitl [Hp]; · rw [payload_bar]; iexact Hp
  iapply (reach_b X K n); iexact HR

-- The barrier wait takes the three units of its round and receives the three payloads.
theorem barwait_step (c : Dev nD) (O : CellTallies nD τ sig Unit) (W : Waits sig Unit) (k' : ℕ) (hk' : k' = 3)
    {α : Type} {Q : α → sProp 𝕄} {k : PUnit → Prog (TpuEff nD τ sig (Elt F) Λ₀ .tc) α} :
    ⊢ recs X K -∗ cred (tallyAt (barCell c) () 3) -∗ owes (c : Thread nD τ) O W -∗ MayWait (c : Thread nD τ) (.reg barS) () O
      -∗ atPos ER (barCell c) 0 ∅ 0
      -∗ ((owes (c : Thread nD τ) O (insert (SemLoc.reg barS, ()) W) ∗ barPay c 0 ∗ barPay c 1 ∗ barPay c 2)
            -∗ wp frame (wpE (defs₀ (F := F)) 𝒱₀ (c : Thread nD τ) none) Set.univ (k ⟨⟩) Q)
      -∗ wp frame (wpE (defs₀ (F := F)) 𝒱₀ (c : Thread nD τ) none) Set.univ (.op (.semWait barS k') k) Q := by
  subst hk'
  iintro #HR Hc HO Hm Hat Hk
  iapply (Rounds.wp_wait_rest_token 𝒱₀ ER (Rd X) (c : Thread nD τ) none (κ := K (c, kb))
      (wpE_semWait_eq 𝒱₀ (c : Thread nD τ) none Set.univ) (Set.mem_univ _) () (O := O) (W := W) (R := 0) (m := 0) (T := ∅)
      (by rw [expect_bar])) $$ [Hc HO Hm Hat]
  · isplitr; · iapply (inv_b X K c); iexact HR
    iframe
  iintro ⟨HO, -, -, Hpay⟩
  ihave Hp := (Entails.of_eq (rest_bar X c)) $$ Hpay
  iapply Hk; iframe

-- A remote copy: the sender's cell is paid with the source, the receiver's with the landed contents.
theorem send_step (c c' n : Dev nD) (hn : n = c') {s : Shape}
    {src : Memref sig .tc .hbm s .f32} {dst : Memref sig .tc .hbm s .f32}
    (jS jR : DmaSem sig) (N : ℕ) (hN : dst.view.dmaCredit = N) (hS : cr jS = N) (hR : cr jR = N)
    (q : PosShare TreeShare) (fs : Buf (Elt F) (src.view.loc (c : Thread nD τ))) (fd : Buf (Elt F) (dst.view.loc (c' : Thread nD τ)))
    (hp1 : (src.view.loc (c : Thread nD τ) ↦[src.view.set]{q} fs : sProp 𝕄) ⊢ dmaPay X c jS)
    (hp2 : (dst.view.loc (c' : Thread nD τ) ↦[dst.view.set]{fullShare} (dst.view.write (Elt F) fd (src.view.read (Elt F) fs) Finset.univ) : sProp 𝕄)
      ⊢ dmaPay X c' jR)
    (O : CellTallies nD τ sig Unit) (W : Waits sig Unit)
    {hsc : (dst : Memref sig (Dev.tc n : Thread nD τ).2.kind .hbm s .f32).view.ref.isScScratch = false}
    {hsrc : src.view.WordExact} {hdst : dst.view.WordExact}
    {hsem : DmaTarget.Typed .hbm (.dma jR) (.remote (Dev.tc n : Thread nD τ) dst (.dma jS) hsc)}
    {α : Type} {Q : α → sProp 𝕄} {k : PUnit → Prog (TpuEff nD τ sig (Elt F) Λ₀ .tc) α} :
    ⊢ recs X K -∗ (src.view.loc (c : Thread nD τ) ↦[src.view.set]{q} fs) -∗ (dst.view.loc (c' : Thread nD τ) ↦[dst.view.set]{fullShare} fd)
      -∗ owes (c : Thread nD τ) (O + tallyAt (dCell c' jR) () N) W -∗ tokD c jS -∗ tokD c' jR
      -∗ ((cred (tallyAt (dCell c jS) () N) ∗ owes (c : Thread nD τ) O W)
            -∗ wp frame (wpE (defs₀ (F := F)) 𝒱₀ (c : Thread nD τ) none) Set.univ (k ⟨⟩) Q)
      -∗ wp frame (wpE (defs₀ (F := F)) 𝒱₀ (c : Thread nD τ) none) Set.univ
              (.op (.enqueueDma src (.remote (Dev.tc n : Thread nD τ) dst (.dma jS) hsc) (.dma jR) hsrc hdst hsem) k) Q := by
  subst hn
  iintro #HR Hs Hd HO HtS HtR
  iapply (Rounds.wp_send_pointsTo 𝒱₀ ER (Rd X) (c : Thread nD τ) none (κ₁ := K (c, kd jS)) (κ₂ := K (n, kd jR))
      (r₁ := 0) (r₂ := 0) (d₁ := 0) (d₂ := 0) (fd := fd)
      (by rw [duties_dma]; exact Finset.mem_singleton_self _) (by rw [duties_dma]; exact Finset.mem_singleton_self _)
      () () N (by rw [View.amount_dma]; exact hN) ((amount_dma X c jS 0).trans hS) ((amount_dma X n jR 0).trans hR) O rfl (W := W)
      (by rw [payload_dma]; exact hp1) (by rw [payload_dma]; exact hp2))
  isplitr; · iapply (inv_d X K c jS); iexact HR
  isplitr; · iapply (inv_d X K n jR); iexact HR
  iframe Hs Hd HO HtS
  isplitr; · iapply (reach_d X K c jS); iexact HR
  iframe HtR
  iapply (reach_d X K n jR); iexact HR

-- A local copy pays its one cell with both the landed destination and the source.
theorem copy_step (c : Dev nD) {s : Shape} {src dst : Memref sig .tc .hbm s .f32} (j : DmaSem sig) (N : ℕ)
    (hN : dst.view.dmaCredit = N) (hj : cr j = N)
    (q : PosShare TreeShare) (fs : Buf (Elt F) (src.view.loc (c : Thread nD τ))) (fd : Buf (Elt F) (dst.view.loc (c : Thread nD τ)))
    (hpay : iprop((dst.view.loc (c : Thread nD τ) ↦[dst.view.set]{fullShare} (dst.view.write (Elt F) fd (src.view.read (Elt F) fs) Finset.univ))
        ∗ (src.view.loc (c : Thread nD τ) ↦[src.view.set]{q} fs)) ⊢ (dmaPay X c j : sProp 𝕄))
    {hsrc : src.view.WordExact} {hdst : dst.view.WordExact} {hsem : DmaTarget.Typed (nD := nD) .hbm (.dma j) (DmaTarget.here (nD := nD) (τ := τ) (p := (Proc.tc : Proc τ)) dst)}
    {α : Type} {Q : α → sProp 𝕄} {k : PUnit → Prog (TpuEff nD τ sig (Elt F) Λ₀ .tc) α} :
    ⊢ recs X K -∗ (src.view.loc (c : Thread nD τ) ↦[src.view.set]{q} fs) -∗ (dst.view.loc (c : Thread nD τ) ↦[dst.view.set]{fullShare} fd) -∗ tokD c j
      -∗ (cred (tallyAt (dCell c j) () N) -∗ wp frame (wpE (defs₀ (F := F)) 𝒱₀ (c : Thread nD τ) none) Set.univ (k ⟨⟩) Q)
      -∗ wp frame (wpE (defs₀ (F := F)) 𝒱₀ (c : Thread nD τ) none) Set.univ
              (.op (.enqueueDma src (.here dst) (.dma j) hsrc hdst hsem) k) Q := by
  iintro #HR Hs Hd Ht
  iapply (Rounds.wp_copy_pointsTo 𝒱₀ ER (Rd X) (c : Thread nD τ) none (κ := K (c, kd j)) (r := 0) (d := 0) (fd := fd)
      (by rw [duties_dma]; exact Finset.mem_singleton_self _) () N (by rw [View.amount_dma]; exact hN) ((amount_dma X c j 0).trans hj)
      (by rw [payload_dma]; exact hpay))
  isplitr; · iapply (inv_d X K c j); iexact HR
  iframe Hs Hd Ht
  iapply (reach_d X K c j); iexact HR

-- A wait on a copy's cell takes the round's whole amount and receives the cell's payload.
theorem wait_step (c : Dev nD) (j : DmaSem sig) {s : Shape} {src dst : Memref sig .tc .hbm s .f32}
    (hN : dst.view.dmaCredit = cr j) (O : CellTallies nD τ sig Unit) (W : Waits sig Unit)
    {hsrc : src.view.WordExact} {hdst : dst.view.WordExact}
    {α : Type} {Q : α → sProp 𝕄} {k : PUnit → Prog (TpuEff nD τ sig (Elt F) Λ₀ .tc) α} :
    ⊢ recs X K -∗ crD c j -∗ owes (c : Thread nD τ) O W -∗ MayWait (c : Thread nD τ) (.dma j) () O -∗ pos0 c j
      -∗ ((owes (c : Thread nD τ) O (insert (SemLoc.dma j, ()) W) ∗ pos1 c j ∗ dmaPay X c j)
            -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 j src dst hsrc hdst) k) Q := by
  iintro #HR Hc HO Hm Hat Hk
  iapply (Rounds.wp_wait_rest_token 𝒱₀ ER (Rd X) (c : Thread nD τ) none (κ := K (c, kd j))
      (wpE_waitDma2_eq 𝒱₀ (c : Thread nD τ) none Set.univ) (Set.mem_univ _) () (O := O) (W := W) (R := 0) (m := 0) (T := ∅)
      (by rw [Nat.zero_add, expect_dma]; exact hN)) $$ [Hc HO Hm Hat]
  · isplitr; · iapply (inv_d X K c j); iexact HR
    isplitl [Hc]; · rw [hN]; iexact Hc
    iframe
  iintro ⟨HO, Hat, -, Hpay⟩
  ihave Hp := (Entails.of_eq (rest_dma X c j)) $$ Hpay
  iapply Hk; iframe

end Cert.KernelIdeal.A2A

end
-- ==== Proof.Geom.lean ====
import proofs.«900637_g7700000000000638_dist_a2a_v7x_xyz2x2x4_y_m1024_n512_f32_1_alg».proof.Proof.Proto

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem mem_rowsO {lo len : Nat} {i : S2048x512.Idx} : i ∈ rowsO lo len ↔ lo ≤ (i 0).val ∧ (i 0).val < lo + len := by
  unfold rowsO; simp only [Finset.mem_filter, Finset.mem_univ, true_and]
theorem mem_rectX {r0 rl c0 : Nat} {i : S1024x1024.Idx} :
    i ∈ rectX r0 rl c0 ↔ (r0 ≤ (i 0).val ∧ (i 0).val < r0 + rl) ∧ (c0 ≤ (i 1).val ∧ (i 1).val < c0 + 512) := by
  unfold rectX; simp only [Finset.mem_filter, Finset.mem_univ, true_and]

private theorem rows_iff (i : S2048x512.Idx) {E E' len : Nat} {sz : Fin 2 → Nat} (hE : E = E') (h0 : sz 0 = len) (h1 : sz 1 = 512) :
    (∀ a : Fin 2, ![E, 0] a ≤ (i a).val ∧ (i a).val < ![E, 0] a + sz a) ↔ E' ≤ (i 0).val ∧ (i 0).val < E' + len := by
  subst hE h0
  constructor
  · intro h; exact h 0
  · rintro ⟨hlo, hhi⟩ a
    match a with
    | ⟨0, _⟩ => exact ⟨hlo, hhi⟩
    | ⟨1, _⟩ =>
      have hc : (i 1).val < 512 := (i 1).isLt
      refine ⟨Nat.zero_le _, ?_⟩
      show (i 1).val < 0 + sz 1
      omega

private theorem rect_iff (i : S1024x1024.Idx) {R R' C C' rl : Nat} {sz : Fin 2 → Nat} (hR : R = R') (hC : C = C')
    (h0 : sz 0 = rl) (h1 : sz 1 = 512) :
    (∀ a : Fin 2, ![R, C] a ≤ (i a).val ∧ (i a).val < ![R, C] a + sz a)
      ↔ (R' ≤ (i 0).val ∧ (i 0).val < R' + rl) ∧ (C' ≤ (i 1).val ∧ (i 1).val < C' + 512) := by
  subst hR hC h0
  constructor
  · intro h
    refine ⟨h 0, ?_⟩
    have h1' := h 1
    have e : (![R, C] : Fin 2 → Nat) 1 = C := rfl
    rw [e, h1] at h1'
    exact h1'
  · rintro ⟨hr, hc⟩ a
    match a with
    | ⟨0, _⟩ => exact hr
    | ⟨1, _⟩ =>
      show C ≤ (i 1).val ∧ (i 1).val < C + sz 1
      rw [h1]; exact hc

theorem far_xp (c : Dev nD) : far (xp c) = far c := by unfold far; rw [yv_xp]
theorem far_zp (c : Dev nD) : far (zp c) = far c := by unfold far; rw [yv_zp]
theorem far_yp (c : Dev nD) : far (yp c) = own c := by revert c; decide
theorem QR_xp (c : Dev nD) (q r : Nat) : QR (xp c) q r = QR c q r := by unfold QR; rw [far_xp]
theorem QR_zp (c : Dev nD) (q r : Nat) : QR (zp c) q r = QR c q r := by unfold QR; rw [far_zp]

theorem qme_yp (c : Dev nD) : qme (yp c) = qme c := by revert c; decide
theorem qme_xp (c : Dev nD) : qme (xp c) = qxp c := by revert c; decide
theorem qme_zp (c : Dev nD) : qme (zp c) = qzp c := by revert c; decide
theorem qzp_xp (c : Dev nD) : qzp (xp c) = q4 c := by revert c; decide
theorem qxp_zp (c : Dev nD) : qxp (zp c) = q4 c := by revert c; decide
theorem qxp_xp (c : Dev nD) : qxp (xp c) = qme c := by revert c; decide
theorem qzp_zp (c : Dev nD) : qzp (zp c) = qme c := by revert c; decide

section Slices
variable (s p : Dev nD) (q : PosShare TreeShare)

private theorem mem_oslice {sz off : Fin 2 → ℕ} (inb : ∀ a, off a + sz a ≤ S2048x512.size a) (i : S2048x512.Idx)
    {E E' len : ℕ} (ho : off = ![E, 0]) (hE : E = E') (h0 : sz 0 = len) (h1 : sz 1 = 512) :
    i ∈ (oM.slice (Rect.unit (s := S2048x512) off sz inb) (fun _ => rfl)).view.set ↔ i ∈ rowsO E' len := by
  subst ho
  show i ∈ ((View.whole main_v1).slice (Rect.unit (s := S2048x512) ![E, 0] sz inb)).set ↔ _
  rw [View.set_slice_whole, Rect.mem_set_unit, mem_rowsO]
  exact rows_iff i hE h0 h1

private theorem set_xslice {sz off : Fin 2 → ℕ} (inb : ∀ a, off a + sz a ≤ S1024x1024.size a)
    {R R' C C' rl : ℕ} (ho : off = ![R, C]) (hR : R = R') (hC : C = C') (h0 : sz 0 = rl) (h1 : sz 1 = 512) :
    (xM.slice (Rect.unit (s := S1024x1024) off sz inb) (fun _ => rfl)).view.set = rectX R' rl C' := by
  subst ho; ext i
  show i ∈ ((View.whole main_arg0).slice (Rect.unit (s := S1024x1024) ![R, C] sz inb)).set ↔ _
  rw [View.set_slice_whole, Rect.mem_set_unit, mem_rectX]
  exact rect_iff i hR hC h0 h1

theorem mem_set_yDst (r : Fin 4) (i : S2048x512.Idx) : i ∈ (yDst s r).view.set ↔ i ∈ QR (yp s) (qme s) r.val :=
  mem_oslice _ i (off1_eq s r) (by rw [far_yp]) rfl rfl
theorem mem_set_tDst (r : Fin 2) (i : S2048x512.Idx) : i ∈ (tDst s r).view.set ↔ i ∈ TR (yp s) r.val :=
  mem_oslice _ i (k0_off3_eq s r)
    (by rw [far_yp]; show 1024 * yv s + 64 * r.val + 896 = 1024 * yv s + 896 + 64 * r.val; omega) rfl rfl
theorem mem_set_lDst (i : S2048x512.Idx) : i ∈ (lDst s).view.set ↔ i ∈ LR s := mem_oslice _ i (k0_off6_eq s) rfl rfl rfl
theorem mem_set_fw (r : Fin 4) (i : S2048x512.Idx) : i ∈ (fw s r).view.set ↔ i ∈ QR s (qme s) r.val :=
  mem_oslice _ i (off8_eq s r) rfl rfl rfl
theorem mem_set_fa (r : Fin 2) (i : S2048x512.Idx) : i ∈ (fa s r).view.set ↔ i ∈ QR s (qxp s) r.val :=
  mem_oslice _ i (off9_eq s r) rfl rfl rfl
theorem mem_set_fb (r : Fin 2) (i : S2048x512.Idx) : i ∈ (fb s r).view.set ↔ i ∈ QR s (qzp s) (2 + r.val) :=
  mem_oslice _ i (off10_eq s r)
    (show 1024 * (1 - yv s) + 224 * qzp s + 112 + 56 * r.val = 1024 * (1 - yv s) + 224 * qzp s + 56 * (2 + r.val) by omega) rfl rfl

private theorem set_ySrc (r : Fin 4) : (ySrc s r).view.set = YS s r.val := set_xslice _ (off2_eq s r) rfl rfl rfl rfl
private theorem set_tSrc0 : (tSrc0 s).view.set = TS s 0 := set_xslice _ (k0_off4_eq s) rfl rfl rfl rfl
private theorem set_tSrc1 : (tSrc1 s).view.set = TS s 1 := set_xslice _ (k0_off5_eq s) rfl rfl rfl rfl
private theorem set_lSrc : (lSrc s).view.set = LS s := set_xslice _ (k0_off7_eq s) rfl rfl rfl rfl

theorem pt_ySrc (r : Fin 4) (g : Buf (Elt F) (xLoc p)) :
    ((ySrc s r).view.loc (p : Thread nD τ) ↦[(ySrc s r).view.set]{q} g : sProp 𝕄) = xPt p g (YS s r.val) q :=
  congrArg (fun S => (xLoc p ↦[S]{q} g : sProp 𝕄)) (set_ySrc s r)
theorem pt_yDst (r : Fin 4) (g : Buf (Elt F) (oLoc p)) :
    ((yDst s r).view.loc (p : Thread nD τ) ↦[(yDst s r).view.set]{q} g : sProp 𝕄) = oPt p (QR (yp s) (qme s) r.val) q g :=
  congrArg (fun S => (oLoc p ↦[S]{q} g : sProp 𝕄)) (Finset.ext (mem_set_yDst s r))
theorem pt_tSrc0 (g : Buf (Elt F) (xLoc p)) :
    ((tSrc0 s).view.loc (p : Thread nD τ) ↦[(tSrc0 s).view.set]{q} g : sProp 𝕄) = xPt p g (TS s 0) q :=
  congrArg (fun S => (xLoc p ↦[S]{q} g : sProp 𝕄)) (set_tSrc0 s)
theorem pt_tSrc1 (g : Buf (Elt F) (xLoc p)) :
    ((tSrc1 s).view.loc (p : Thread nD τ) ↦[(tSrc1 s).view.set]{q} g : sProp 𝕄) = xPt p g (TS s 1) q :=
  congrArg (fun S => (xLoc p ↦[S]{q} g : sProp 𝕄)) (set_tSrc1 s)
theorem pt_tDst (r : Fin 2) (g : Buf (Elt F) (oLoc p)) :
    ((tDst s r).view.loc (p : Thread nD τ) ↦[(tDst s r).view.set]{q} g : sProp 𝕄) = oPt p (TR (yp s) r.val) q g :=
  congrArg (fun S => (oLoc p ↦[S]{q} g : sProp 𝕄)) (Finset.ext (mem_set_tDst s r))
theorem pt_lSrc (g : Buf (Elt F) (xLoc p)) :
    ((lSrc s).view.loc (p : Thread nD τ) ↦[(lSrc s).view.set]{q} g : sProp 𝕄) = xPt p g (LS s) q :=
  congrArg (fun S => (xLoc p ↦[S]{q} g : sProp 𝕄)) (set_lSrc s)
theorem pt_lDst (g : Buf (Elt F) (oLoc p)) :
    ((lDst s).view.loc (p : Thread nD τ) ↦[(lDst s).view.set]{q} g : sProp 𝕄) = oPt p (LR s) q g :=
  congrArg (fun S => (oLoc p ↦[S]{q} g : sProp 𝕄)) (Finset.ext (mem_set_lDst s))
theorem pt_fw (r : Fin 4) (g : Buf (Elt F) (oLoc p)) :
    ((fw s r).view.loc (p : Thread nD τ) ↦[(fw s r).view.set]{q} g : sProp 𝕄) = oPt p (QR s (qme s) r.val) q g :=
  congrArg (fun S => (oLoc p ↦[S]{q} g : sProp 𝕄)) (Finset.ext (mem_set_fw s r))
theorem pt_fa (r : Fin 2) (g : Buf (Elt F) (oLoc p)) :
    ((fa s r).view.loc (p : Thread nD τ) ↦[(fa s r).view.set]{q} g : sProp 𝕄) = oPt p (QR s (qxp s) r.val) q g :=
  congrArg (fun S => (oLoc p ↦[S]{q} g : sProp 𝕄)) (Finset.ext (mem_set_fa s r))
theorem pt_fb (r : Fin 2) (g : Buf (Elt F) (oLoc p)) :
    ((fb s r).view.loc (p : Thread nD τ) ↦[(fb s r).view.set]{q} g : sProp 𝕄) = oPt p (QR s (qzp s) (2 + r.val)) q g :=
  congrArg (fun S => (oLoc p ↦[S]{q} g : sProp 𝕄)) (Finset.ext (mem_set_fb s r))

end Slices

private theorem pt_cut {ℓ : Loc nD τ sig} {I J S : Finset (Idx ℓ)} {q : PosShare TreeShare} {f : Buf (Elt F) ℓ} {P Q : sProp 𝕄}
    (hS : S = I ∪ J) (hd : Disjoint I J) (hI : (ℓ ↦[I]{q} f : sProp 𝕄) ⊣⊢ P) (hJ : (ℓ ↦[J]{q} f : sProp 𝕄) ⊣⊢ Q) :
    (ℓ ↦[S]{q} f : sProp 𝕄) ⊣⊢ iprop(P ∗ Q) := by
  subst hS; exact (pointsTo_union hd).trans (sep_congr hI hJ)

private theorem rowsO_disjoint {lo len lo' len' : Nat} (h : lo + len ≤ lo' ∨ lo' + len' ≤ lo) :
    Disjoint (rowsO lo len) (rowsO lo' len') :=
  Finset.disjoint_left.mpr fun i hi hj => by rw [mem_rowsO] at hi hj; omega

private theorem oPt_split (c : Dev nD) (q : PosShare TreeShare) (f : Buf (Elt F) (oLoc c)) {lo len lo₁ len₁ lo₂ len₂ : Nat}
    (h₁ : lo₁ = lo) (h₂ : lo₂ = lo + len₁) (h : len = len₁ + len₂) {P Q : sProp 𝕄}
    (hI : oPt c (rowsO lo₁ len₁) q f ⊣⊢ P) (hJ : oPt c (rowsO lo₂ len₂) q f ⊣⊢ Q) :
    oPt c (rowsO lo len) q f ⊣⊢ iprop(P ∗ Q) := by
  subst h₁ h₂ h
  refine pt_cut ?_ (rowsO_disjoint (Or.inl (Nat.le_refl _))) hI hJ
  ext i; simp only [Finset.mem_union, mem_rowsO]; omega

private theorem quarter_cut (c : Dev nD) (k : Nat) (f : Buf (Elt F) (oLoc c)) :
    oPt c (rowsO (far c + 224 * k) 224) fullShare f ⊣⊢ iprop(oPt c (QR c k 0) fullShare f ∗ oPt c (QR c k 1) fullShare f
      ∗ oPt c (QR c k 2) fullShare f ∗ oPt c (QR c k 3) fullShare f) := by
  unfold QR
  refine oPt_split c _ f (len₁ := 56) (len₂ := 168) ?_ rfl rfl .rfl
    (oPt_split c _ f (lo := far c + 224 * k + 56) (len₁ := 56) (len₂ := 112) ?_ ?_ rfl .rfl
      (oPt_split c _ f (lo := far c + 224 * k + 56 + 56) (len₁ := 56) (len₂ := 56) ?_ ?_ rfl .rfl .rfl))
  all_goals omega

private theorem far_cut (c : Dev nD) (f : Buf (Elt F) (oLoc c)) :
    oPt c (rowsO (far c) 1024) fullShare f ⊣⊢ iprop(oPt c (rowsO (far c + 224 * qme c) 224) fullShare f
      ∗ oPt c (rowsO (far c + 224 * qxp c) 224) fullShare f ∗ oPt c (rowsO (far c + 224 * qzp c) 224) fullShare f
      ∗ oPt c (rowsO (far c + 224 * q4 c) 224) fullShare f ∗ oPt c (rowsO (far c + 896) 128) fullShare f) := by
  have hx := xv_le c
  have hz := pz_le c
  refine pt_cut (ℓ := oLoc c) (I := rowsO (far c + 224 * qme c) 224)
    (J := rowsO (far c + 224 * qxp c) 224 ∪ (rowsO (far c + 224 * qzp c) 224 ∪ (rowsO (far c + 224 * q4 c) 224 ∪ rowsO (far c + 896) 128)))
    ?cover ?d1 .rfl (pt_cut rfl ?d2 .rfl (pt_cut rfl ?d3 .rfl (pt_cut rfl ?d4 .rfl .rfl)))
  case cover =>
    ext i
    simp only [Finset.mem_union, mem_rowsO, qme, qxp, qzp, q4]
    constructor <;> intro h <;> omega
  case d1 =>
    refine Finset.disjoint_left.mpr fun i hi hj => ?_
    simp only [Finset.mem_union, mem_rowsO, qme, qxp, qzp, q4] at hi hj
    omega
  case d2 =>
    refine Finset.disjoint_left.mpr fun i hi hj => ?_
    simp only [Finset.mem_union, mem_rowsO, qme, qxp, qzp, q4] at hi hj
    omega
  case d3 =>
    refine Finset.disjoint_left.mpr fun i hi hj => ?_
    simp only [Finset.mem_union, mem_rowsO, qme, qxp, qzp, q4] at hi hj
    omega
  case d4 =>
    refine Finset.disjoint_left.mpr fun i hi hj => ?_
    simp only [Finset.mem_union, mem_rowsO, qme, qxp, qzp, q4] at hi hj
    omega

def XR (c : Dev nD) : Finset S1024x1024.Idx :=
  Finset.univ \ (YS c 0 ∪ YS c 1 ∪ YS c 2 ∪ YS c 3 ∪ TS c 0 ∪ TS c 1 ∪ LS c)

theorem out_cut (c : Dev nD) (f : Buf (Elt F) (oLoc c)) :
    (oLoc c ↦{fullShare} f : sProp 𝕄) ⊣⊢ iprop(oPt c (LR c) fullShare f
      ∗ (oPt c (QR c (qme c) 0) fullShare f ∗ oPt c (QR c (qme c) 1) fullShare f ∗ oPt c (QR c (qme c) 2) fullShare f ∗ oPt c (QR c (qme c) 3) fullShare f)
      ∗ (oPt c (QR c (qxp c) 0) fullShare f ∗ oPt c (QR c (qxp c) 1) fullShare f ∗ oPt c (QR c (qxp c) 2) fullShare f ∗ oPt c (QR c (qxp c) 3) fullShare f)
      ∗ (oPt c (QR c (qzp c) 0) fullShare f ∗ oPt c (QR c (qzp c) 1) fullShare f ∗ oPt c (QR c (qzp c) 2) fullShare f ∗ oPt c (QR c (qzp c) 3) fullShare f)
      ∗ (oPt c (QR c (q4 c) 0) fullShare f ∗ oPt c (QR c (q4 c) 1) fullShare f ∗ oPt c (QR c (q4 c) 2) fullShare f ∗ oPt c (QR c (q4 c) 3) fullShare f)
      ∗ (oPt c (TR c 0) fullShare f ∗ oPt c (TR c 1) fullShare f)) := by
  have hy := yv_le c
  show (oLoc c ↦[Finset.univ]{fullShare} f : sProp 𝕄) ⊣⊢ _
  have top : (oLoc c ↦[Finset.univ]{fullShare} f : sProp 𝕄)
      ⊣⊢ iprop(oPt c (LR c) fullShare f ∗ oPt c (rowsO (far c) 1024) fullShare f) := by
    refine pt_cut (ℓ := oLoc c) (I := LR c) (J := rowsO (far c) 1024) ?_ ?_ .rfl .rfl
    · refine (Finset.eq_univ_of_forall fun (i : S2048x512.Idx) => ?_).symm
      have hi : (i 0).val < 2048 := (i 0).isLt
      unfold LR
      rw [Finset.mem_union, mem_rowsO, mem_rowsO]
      show (1024 * yv c ≤ (i 0).val ∧ (i 0).val < 1024 * yv c + 1024)
        ∨ (1024 * (1 - yv c) ≤ (i 0).val ∧ (i 0).val < 1024 * (1 - yv c) + 1024)
      omega
    · unfold LR
      refine rowsO_disjoint ?_
      show 1024 * yv c + 1024 ≤ 1024 * (1 - yv c) ∨ 1024 * (1 - yv c) + 1024 ≤ 1024 * yv c
      omega
  refine top.trans (sep_congr .rfl ((far_cut c f).trans ?_))
  refine sep_congr (quarter_cut c (qme c) f) (sep_congr (quarter_cut c (qxp c) f)
    (sep_congr (quarter_cut c (qzp c) f) (sep_congr (quarter_cut c (q4 c) f) ?_)))
  unfold TR
  refine oPt_split c _ f (len₁ := 64) (len₂ := 64) ?_ ?_ rfl .rfl .rfl
  all_goals omega

theorem x_cut (c : Dev nD) (f : Buf (Elt F) (xLoc c)) :
    (xLoc c ↦{fullShare} f : sProp 𝕄) ⊣⊢ iprop((xPt c f (YS c 0) fullShare ∗ xPt c f (YS c 1) fullShare ∗ xPt c f (YS c 2) fullShare ∗ xPt c f (YS c 3) fullShare)
      ∗ (xPt c f (TS c 0) fullShare ∗ xPt c f (TS c 1) fullShare) ∗ xPt c f (LS c) fullShare ∗ xPt c f (XR c) fullShare) := by
  have hy := yv_le c
  have hq : qme c ≤ 3 := by
    have hx := xv_le c
    have hz := pz_le c
    show 2 * xv c + pz c ≤ 3
    omega
  show (xLoc c ↦[Finset.univ]{fullShare} f : sProp 𝕄) ⊣⊢ _
  have h1 : (xLoc c ↦[Finset.univ]{fullShare} f : sProp 𝕄)
      ⊣⊢ iprop(xPt c f (YS c 0 ∪ YS c 1 ∪ YS c 2 ∪ YS c 3 ∪ TS c 0 ∪ TS c 1 ∪ LS c) fullShare ∗ xPt c f (XR c) fullShare) :=
    pointsTo_split_subset (Finset.subset_univ _)
  have hW : YS c 0 ∪ YS c 1 ∪ YS c 2 ∪ YS c 3 ∪ TS c 0 ∪ TS c 1 ∪ LS c
      = (YS c 0 ∪ (YS c 1 ∪ (YS c 2 ∪ YS c 3))) ∪ ((TS c 0 ∪ TS c 1) ∪ LS c) := by
    simp only [Finset.union_assoc]
  have h2 : xPt c f (YS c 0 ∪ YS c 1 ∪ YS c 2 ∪ YS c 3 ∪ TS c 0 ∪ TS c 1 ∪ LS c) fullShare
      ⊣⊢ iprop((xPt c f (YS c 0) fullShare ∗ xPt c f (YS c 1) fullShare ∗ xPt c f (YS c 2) fullShare ∗ xPt c f (YS c 3) fullShare)
        ∗ ((xPt c f (TS c 0) fullShare ∗ xPt c f (TS c 1) fullShare) ∗ xPt c f (LS c) fullShare)) := by
    refine pt_cut (ℓ := xLoc c) hW ?_ (pt_cut rfl ?_ .rfl (pt_cut rfl ?_ .rfl (pt_cut rfl ?_ .rfl .rfl)))
      (pt_cut rfl ?_ (pt_cut rfl ?_ .rfl .rfl) .rfl)
    all_goals
      refine Finset.disjoint_left.mpr fun i hi hj => ?_
      simp only [Finset.mem_union, YS, TS, LS, mem_rectX] at hi hj
      omega
  exact h1.trans ((sep_congr h2 .rfl).trans (sep_assoc.trans (sep_congr .rfl sep_assoc)))

theorem oPt_halves (c : Dev nD) (S : Finset S2048x512.Idx) (f : Buf (Elt F) (oLoc c)) :
    (oPt c S fullShare f : sProp 𝕄) ⊣⊢ iprop(oPt c S fullShare.left f ∗ oPt c S fullShare.right f) :=
  pointsTo_share (PosShare.mem_left_op_right fullShare)

end Cert.KernelIdeal.A2A

end
-- ==== Proof.Landing.lean ====
import proofs.«900637_g7700000000000638_dist_a2a_v7x_xyz2x2x4_y_m1024_n512_f32_1_alg».proof.Proof.Geom

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : XBuf (Elt F))

theorem srcDev_val_lt (c : Dev nD) (ρ : Nat) (h : ρ < 896) :
    (srcDev c ρ).val = 8 * ((ρ / 224) / 2) + 4 * (1 - yv c) + 2 * ((c.val % 4) / 2) + (ρ / 224) % 2 := by
  unfold srcDev; rw [dif_pos h]

theorem srcDev_tail (c : Dev nD) (ρ : Nat) (h : 896 ≤ ρ) : srcDev c ρ = yp c := by
  unfold srcDev; rw [dif_neg (by omega)]

theorem xp_mod4 (c : Dev nD) : (xp c).val % 4 = c.val % 4 := by revert c; decide
theorem zp_mod4_half (c : Dev nD) : (zp c).val % 4 / 2 = c.val % 4 / 2 := by revert c; decide

theorem srcDev_xp (c : Dev nD) (ρ : Nat) (h : ρ < 896) : srcDev (xp c) ρ = srcDev c ρ := by
  apply Fin.ext
  rw [srcDev_val_lt _ _ h, srcDev_val_lt _ _ h, yv_xp, xp_mod4]
theorem srcDev_zp (c : Dev nD) (ρ : Nat) (h : ρ < 896) : srcDev (zp c) ρ = srcDev c ρ := by
  apply Fin.ext
  rw [srcDev_val_lt _ _ h, srcDev_val_lt _ _ h, yv_zp, zp_mod4_half]

theorem yp_val (c : Dev nD) : (yp c).val = 8 * xv c + 4 * (1 - yv c) + 2 * ((c.val % 4) / 2) + pz c := by revert c; decide

theorem srcDev_qme (c : Dev nD) (ρ : Nat) (h : 224 * qme c ≤ ρ ∧ ρ < 224 * qme c + 224) : srcDev c ρ = yp c := by
  have h1 := xv_le c
  have h2 := pz_le c
  have hqme : qme c = 2 * xv c + pz c := rfl
  have hq : ρ / 224 = 2 * xv c + pz c := by omega
  apply Fin.ext
  rw [srcDev_val_lt _ _ (by omega), yp_val, hq]
  omega

theorem yv_srcDev (c : Dev nD) (ρ : Nat) : yv (srcDev c ρ) = 1 - yv c := by
  by_cases h : ρ < 896
  · have h1 : ρ / 224 < 4 := Nat.div_lt_of_lt_mul (by omega)
    have h2 := yv_le c
    show ((srcDev c ρ).val / 4) % 2 = 1 - yv c
    rw [srcDev_val_lt _ _ h]
    omega
  · rw [srcDev_tail _ _ (by omega), yv_yp]

theorem quarter_rows {y q r a : Nat} (hy : y ≤ 1) (hq : q ≤ 3) (hr : r ≤ 3)
    (h : 1024 * y + 224 * q + 56 * r ≤ a ∧ a < 1024 * y + 224 * q + 56 * r + 56) :
    a / 1024 = y ∧ a % 1024 = 224 * q + 56 * r + (a - (1024 * y + 224 * q + 56 * r)) ∧
      224 * q ≤ a % 1024 ∧ a % 1024 < 224 * q + 224 := by
  have h1 : a / 1024 = y := by omega
  have h2 : a % 1024 = a - 1024 * y := by omega
  omega

theorem tail_rows {y k a : Nat} (hy : y ≤ 1) (hk : k ≤ 1)
    (h : 1024 * y + 896 + 64 * k ≤ a ∧ a < 1024 * y + 896 + 64 * k + 64) :
    a / 1024 = y ∧ a % 1024 = 896 + 64 * k + (a - (1024 * y + 64 * k + 896)) ∧ 896 ≤ a % 1024 := by
  have h1 : a / 1024 = y := by omega
  have h2 : a % 1024 = a - 1024 * y := by omega
  omega

theorem far_yp' (s : Dev nD) : far (yp s) = 1024 * yv s := by
  have hy := yv_le s
  show 1024 * (1 - yv (yp s)) = 1024 * yv s
  rw [yv_yp]; omega
theorem qme_le (s : Dev nD) : qme s ≤ 3 := by revert s; decide
theorem qxp_le (s : Dev nD) : qxp s ≤ 3 := by revert s; decide
theorem qzp_le (s : Dev nD) : qzp s ≤ 3 := by revert s; decide
theorem qme_of_yp (s : Dev nD) : qme (yp s) = qme s := by revert s; decide

theorem write_read_xo {sz : Fin 2 → Nat} (od : Fin 2 → Nat) (inbd : ∀ a, od a + sz a ≤ S2048x512.size a)
    (os : Fin 2 → Nat) (inbs : ∀ a, os a + sz a ≤ S1024x1024.size a)
    (p s : Dev nD) (fd : Buf (Elt F) (oLoc p)) (fs : Buf (Elt F) (xLoc s)) (i : S2048x512.Idx)
    (hi : ∀ a, od a ≤ (i a).val ∧ (i a).val < od a + sz a) (j : S1024x1024.Idx)
    (hj : ∀ a, (j a).val = os a + ((i a).val - od a)) :
    (oM.slice (Rect.unit (s := S2048x512) od sz inbd) (fun _ => rfl)).view.write (Elt F) fd
      ((xM.slice (Rect.unit (s := S1024x1024) os sz inbs) (fun _ => rfl)).view.read (Elt F) fs) Finset.univ i = fs j := by
  let y : (⟨2, sz⟩ : Shape).Idx := fun a => ⟨(i a).val - od a, by have := hi a; show _ < sz a; omega⟩
  have he : (oM.slice (Rect.unit (s := S2048x512) od sz inbd) (fun _ => rfl)).view.emb y = i := by
    funext a; apply Fin.ext
    show od a + 1 * ((i a).val - od a) = (i a).val
    have := hi a; omega
  have hw := View.write_emb_of_mem (v := (oM.slice (Rect.unit (s := S2048x512) od sz inbd) (fun _ => rfl)).view)
    (Val := Elt F) fd ((xM.slice (Rect.unit (s := S1024x1024) os sz inbs) (fun _ => rfl)).view.read (Elt F) fs)
    (M := Finset.univ) (x := y) (Finset.mem_univ _)
  rw [he] at hw
  rw [hw, View.read_apply, cast_cast, cast_eq]
  congr 1
  funext a; apply Fin.ext
  show os a + 1 * ((i a).val - od a) = (j a).val
  rw [hj a]; omega

theorem write_read_oo {sz : Fin 2 → Nat} (od : Fin 2 → Nat) (inbd : ∀ a, od a + sz a ≤ S2048x512.size a)
    (p s : Dev nD) (fd : Buf (Elt F) (oLoc p)) (fs : Buf (Elt F) (oLoc s)) (i : S2048x512.Idx)
    (hi : ∀ a, od a ≤ (i a).val ∧ (i a).val < od a + sz a) :
    (oM.slice (Rect.unit (s := S2048x512) od sz inbd) (fun _ => rfl)).view.write (Elt F) fd
      ((oM.slice (Rect.unit (s := S2048x512) od sz inbd) (fun _ => rfl)).view.read (Elt F) fs) Finset.univ i = fs i := by
  let y : (⟨2, sz⟩ : Shape).Idx := fun a => ⟨(i a).val - od a, by have := hi a; show _ < sz a; omega⟩
  have he : (oM.slice (Rect.unit (s := S2048x512) od sz inbd) (fun _ => rfl)).view.emb y = i := by
    funext a; apply Fin.ext
    show od a + 1 * ((i a).val - od a) = (i a).val
    have := hi a; omega
  have hw := View.write_emb_of_mem (v := (oM.slice (Rect.unit (s := S2048x512) od sz inbd) (fun _ => rfl)).view)
    (Val := Elt F) fd ((oM.slice (Rect.unit (s := S2048x512) od sz inbd) (fun _ => rfl)).view.read (Elt F) fs)
    (M := Finset.univ) (x := y) (Finset.mem_univ _)
  rw [he] at hw
  rw [hw, View.read_apply, cast_cast, cast_eq, he]

theorem outF_own (c : Dev nD) (i : S2048x512.Idx) (h : (i 0).val / 1024 = yv c) :
    outF X c i = X c (xIdx c ((i 0).val % 1024) (Nat.mod_lt _ (by decide)) (i 1)) := by
  unfold outF; exact if_pos h
theorem outF_far (c : Dev nD) (i : S2048x512.Idx) (h : (i 0).val / 1024 ≠ yv c) :
    outF X c i = X (srcDev c ((i 0).val % 1024)) (xIdx c ((i 0).val % 1024) (Nat.mod_lt _ (by decide)) (i 1)) := by
  unfold outF; exact if_neg h

theorem xIdx_congr (c c' : Dev nD) (h : yv c' = yv c) (ρ : Nat) (hρ : ρ < 1024) (j : Fin 512) : xIdx c' ρ hρ j = xIdx c ρ hρ j := by
  funext a
  match a with
  | ⟨0, _⟩ => rfl
  | ⟨1, _⟩ => apply Fin.ext; show 512 * yv c' + j.val = 512 * yv c + j.val; rw [h]

theorem outF_xp (c : Dev nD) (i : S2048x512.Idx) (h : far c ≤ (i 0).val ∧ (i 0).val < far c + 896) : outF X (xp c) i = outF X c i := by
  have hy := yv_le c
  have hfar : far c = 1024 * (1 - yv c) := rfl
  have hne : (i 0).val / 1024 ≠ yv c := by omega
  rw [outF_far X c i hne, outF_far X (xp c) i (by rw [yv_xp]; exact hne), srcDev_xp c _ (by omega),
    xIdx_congr c (xp c) (yv_xp c) _ _ (i 1)]
theorem outF_zp (c : Dev nD) (i : S2048x512.Idx) (h : far c ≤ (i 0).val ∧ (i 0).val < far c + 896) : outF X (zp c) i = outF X c i := by
  have hy := yv_le c
  have hfar : far c = 1024 * (1 - yv c) := rfl
  have hne : (i 0).val / 1024 ≠ yv c := by omega
  rw [outF_far X c i hne, outF_far X (zp c) i (by rw [yv_zp]; exact hne), srcDev_zp c _ (by omega),
    xIdx_congr c (zp c) (yv_zp c) _ _ (i 1)]

theorem land_y (s : Dev nD) (r : Fin 4) (fd : Buf (Elt F) (oLoc (yp s))) :
    ∀ i ∈ QR (yp s) (qme s) r.val, (yDst s r).view.write (Elt F) fd ((ySrc s r).view.read (Elt F) (X s)) Finset.univ i = outF X (yp s) i := by
  intro i hi
  have hy := yv_le s
  have hi' := (mem_rowsO (lo := far (yp s) + 224 * qme s + 56 * r.val) (len := 56)).mp hi
  rw [far_yp'] at hi'
  have hr : r.val ≤ 3 := by have := r.isLt; omega
  obtain ⟨hdiv, hmod, hlo, hhi⟩ := quarter_rows hy (qme_le s) hr hi'
  have h1 : (i 1).val < 512 := (i 1).isLt
  have hne : (i 0).val / 1024 ≠ yv (yp s) := by rw [hdiv, yv_yp]; omega
  have hsrc : srcDev (yp s) ((i 0).val % 1024) = s := by
    rw [srcDev_qme (yp s) _ (by rw [qme_of_yp]; exact ⟨hlo, hhi⟩), yp_yp]
  rw [outF_far X (yp s) i hne, hsrc]
  have e1 := off1_eq s r
  have e2 := off2_eq s r
  refine write_read_xo (sz := S56x512.size) _ (k0_off1_inb s r) _ (k0_off2_inb s r) (yp s) s fd (X s) i ?_ _ ?_
  · rw [e1]; refine Fin.forall_fin_two.mpr ⟨hi', ?_⟩
    show 0 ≤ (i 1).val ∧ (i 1).val < 0 + 512; omega
  · rw [e1, e2]; refine Fin.forall_fin_two.mpr ⟨hmod, ?_⟩
    show 512 * yv (yp s) + (i 1).val = 512 - 512 * yv s + ((i 1).val - 0); rw [yv_yp]; omega

theorem land_t0 (s : Dev nD) (fd : Buf (Elt F) (oLoc (yp s))) :
    ∀ i ∈ TR (yp s) 0, (tDst s 0).view.write (Elt F) fd ((tSrc0 s).view.read (Elt F) (X s)) Finset.univ i = outF X (yp s) i := by
  intro i hi
  have hy := yv_le s
  have hi' := (mem_rowsO (lo := far (yp s) + 896 + 64 * 0) (len := 64)).mp hi
  rw [far_yp'] at hi'
  obtain ⟨hdiv, hmod, hlo⟩ := tail_rows hy (k := 0) (by omega) hi'
  have h1 : (i 1).val < 512 := (i 1).isLt
  have hne : (i 0).val / 1024 ≠ yv (yp s) := by rw [hdiv, yv_yp]; omega
  have hsrc : srcDev (yp s) ((i 0).val % 1024) = s := by
    rw [srcDev_tail (yp s) _ hlo, yp_yp]
  rw [outF_far X (yp s) i hne, hsrc]
  have e3 := k0_off3_eq s 0
  have e4 := k0_off4_eq s
  refine write_read_xo (sz := S64x512.size) _ (k0_off3_inb s 0) _ (k0_off4_inb s) (yp s) s fd (X s) i ?_ _ ?_
  · rw [e3]; refine Fin.forall_fin_two.mpr ⟨?_, ?_⟩
    · show 1024 * yv s + 64 * 0 + 896 ≤ (i 0).val ∧ (i 0).val < 1024 * yv s + 64 * 0 + 896 + 64; omega
    · show 0 ≤ (i 1).val ∧ (i 1).val < 0 + 512; omega
  · rw [e3, e4]; refine Fin.forall_fin_two.mpr ⟨?_, ?_⟩
    · show (i 0).val % 1024 = 896 + ((i 0).val - (1024 * yv s + 64 * 0 + 896)); omega
    · show 512 * yv (yp s) + (i 1).val = 512 - 512 * yv s + ((i 1).val - 0); rw [yv_yp]; omega
theorem land_t1 (s : Dev nD) (fd : Buf (Elt F) (oLoc (yp s))) :
    ∀ i ∈ TR (yp s) 1, (tDst s 1).view.write (Elt F) fd ((tSrc1 s).view.read (Elt F) (X s)) Finset.univ i = outF X (yp s) i := by
  intro i hi
  have hy := yv_le s
  have hi' := (mem_rowsO (lo := far (yp s) + 896 + 64 * 1) (len := 64)).mp hi
  rw [far_yp'] at hi'
  obtain ⟨hdiv, hmod, hlo⟩ := tail_rows hy (k := 1) (by omega) hi'
  have h1 : (i 1).val < 512 := (i 1).isLt
  have hne : (i 0).val / 1024 ≠ yv (yp s) := by rw [hdiv, yv_yp]; omega
  have hsrc : srcDev (yp s) ((i 0).val % 1024) = s := by
    rw [srcDev_tail (yp s) _ hlo, yp_yp]
  rw [outF_far X (yp s) i hne, hsrc]
  have e3 := k0_off3_eq s 1
  have e4 := k0_off5_eq s
  refine write_read_xo (sz := S64x512.size) _ (k0_off3_inb s 1) _ (k0_off5_inb s) (yp s) s fd (X s) i ?_ _ ?_
  · rw [e3]; refine Fin.forall_fin_two.mpr ⟨?_, ?_⟩
    · show 1024 * yv s + 64 * 1 + 896 ≤ (i 0).val ∧ (i 0).val < 1024 * yv s + 64 * 1 + 896 + 64; omega
    · show 0 ≤ (i 1).val ∧ (i 1).val < 0 + 512; omega
  · rw [e3, e4]; refine Fin.forall_fin_two.mpr ⟨?_, ?_⟩
    · show (i 0).val % 1024 = 960 + ((i 0).val - (1024 * yv s + 64 * 1 + 896)); omega
    · show 512 * yv (yp s) + (i 1).val = 512 - 512 * yv s + ((i 1).val - 0); rw [yv_yp]; omega

theorem land_l (s : Dev nD) (fd : Buf (Elt F) (oLoc s)) :
    ∀ i ∈ LR s, (lDst s).view.write (Elt F) fd ((lSrc s).view.read (Elt F) (X s)) Finset.univ i = outF X s i := by
  intro i hi
  have hi' := (mem_rowsO (lo := own s) (len := 1024)).mp hi
  have hy := yv_le s
  have h1 : (i 1).val < 512 := (i 1).isLt
  have hown : own s = 1024 * yv s := rfl
  rw [outF_own X s i (by omega)]
  have e6 := k0_off6_eq s
  have e7 := k0_off7_eq s
  refine write_read_xo (sz := S1024x512.size) (k0_off6 s) (k0_off6_inb s) (k0_off7 s) (k0_off7_inb s) s s fd (X s) i ?_ _ ?_
  · rw [e6]; refine Fin.forall_fin_two.mpr ⟨?_, ?_⟩
    · show 1024 * yv s ≤ (i 0).val ∧ (i 0).val < 1024 * yv s + 1024; omega
    · show 0 ≤ (i 1).val ∧ (i 1).val < 0 + 512; omega
  · rw [e6, e7]; refine Fin.forall_fin_two.mpr ⟨?_, ?_⟩
    · show (i 0).val % 1024 = 0 + ((i 0).val - 1024 * yv s); omega
    · show 512 * yv s + (i 1).val = 512 * yv s + ((i 1).val - 0); omega

-- Rows already final on the sender, copied onto the same rows of a peer whose result agrees there, are final on the peer.
private theorem land_fwd (s p : Dev nD) {off : Fin 2 → ℕ} (inb : ∀ a, off a + S56x512.size a ≤ S2048x512.size a)
    {lo : ℕ} (ho : off = ![lo, 0]) (hlo : 1024 * (1 - yv s) ≤ lo ∧ lo + 56 ≤ 1024 * (1 - yv s) + 896)
    (hout : ∀ i : S2048x512.Idx, far s ≤ (i 0).val ∧ (i 0).val < far s + 896 → outF X p i = outF X s i)
    (fs : Buf (Elt F) (oLoc s)) (fd : Buf (Elt F) (oLoc p)) (i : S2048x512.Idx)
    (hi : lo ≤ (i 0).val ∧ (i 0).val < lo + 56) (hfs : fs i = outF X s i) :
    (oM.slice (Rect.unit (s := S2048x512) off S56x512.size inb) (fun _ => rfl)).view.write (Elt F) fd
      ((oM.slice (Rect.unit (s := S2048x512) off S56x512.size inb) (fun _ => rfl)).view.read (Elt F) fs) Finset.univ i = outF X p i := by
  have h1 : (i 1).val < 512 := (i 1).isLt
  rw [hout i (by show 1024 * (1 - yv s) ≤ _ ∧ _ < 1024 * (1 - yv s) + 896; omega), ← hfs]
  refine write_read_oo (sz := S56x512.size) _ inb p s fd fs i ?_
  rw [ho]; refine Fin.forall_fin_two.mpr ⟨hi, ?_⟩
  show 0 ≤ (i 1).val ∧ (i 1).val < 0 + 512; omega

theorem land_xq (s : Dev nD) (r : Fin 4) (fs : Buf (Elt F) (oLoc s)) (hfs : ∀ i ∈ QR s (qme s) r.val, fs i = outF X s i) (fd : Buf (Elt F) (oLoc (xp s))) :
    ∀ i ∈ QR s (qme s) r.val, (fw s r).view.write (Elt F) fd ((fw s r).view.read (Elt F) fs) Finset.univ i = outF X (xp s) i := fun i hi =>
  land_fwd X s (xp s) (k0_off8_inb s r) (off8_eq s r) (by have := qme_le s; have := r.isLt; omega) (outF_xp X s) fs fd i (mem_rowsO.mp hi) (hfs i hi)
theorem land_zq (s : Dev nD) (r : Fin 4) (fs : Buf (Elt F) (oLoc s)) (hfs : ∀ i ∈ QR s (qme s) r.val, fs i = outF X s i) (fd : Buf (Elt F) (oLoc (zp s))) :
    ∀ i ∈ QR s (qme s) r.val, (fw s r).view.write (Elt F) fd ((fw s r).view.read (Elt F) fs) Finset.univ i = outF X (zp s) i := fun i hi =>
  land_fwd X s (zp s) (k0_off8_inb s r) (off8_eq s r) (by have := qme_le s; have := r.isLt; omega) (outF_zp X s) fs fd i (mem_rowsO.mp hi) (hfs i hi)
theorem land_fa (s : Dev nD) (r : Fin 2) (fs : Buf (Elt F) (oLoc s)) (hfs : ∀ i ∈ QR s (qxp s) r.val, fs i = outF X s i) (fd : Buf (Elt F) (oLoc (zp s))) :
    ∀ i ∈ QR s (qxp s) r.val, (fa s r).view.write (Elt F) fd ((fa s r).view.read (Elt F) fs) Finset.univ i = outF X (zp s) i := fun i hi =>
  land_fwd X s (zp s) (k0_off9_inb s r) (off9_eq s r) (by have := qxp_le s; have := r.isLt; omega) (outF_zp X s) fs fd i (mem_rowsO.mp hi) (hfs i hi)
theorem land_fb (s : Dev nD) (r : Fin 2) (fs : Buf (Elt F) (oLoc s)) (hfs : ∀ i ∈ QR s (qzp s) (2 + r.val), fs i = outF X s i) (fd : Buf (Elt F) (oLoc (xp s))) :
    ∀ i ∈ QR s (qzp s) (2 + r.val), (fb s r).view.write (Elt F) fd ((fb s r).view.read (Elt F) fs) Finset.univ i = outF X (xp s) i := fun i hi =>
  land_fwd X s (xp s) (k0_off10_inb s r) (off10_eq s r) (by have := qzp_le s; have := r.isLt; omega) (outF_xp X s) fs fd i
    (by have := mem_rowsO.mp hi; dsimp only [far] at this; omega) (hfs i hi)

theorem meshLin_y (d : Dev nD) : Layout.meshLin [2, 2, 4] d.val [1] = yv d := by revert d; decide

theorem outF_block (Xw : (⟨2, ![2048, 1024]⟩ : Shape).Idx → Elt F .f32)
    (hX : ∀ c : Dev nD, X c = Layout.blockN ⟨2, ![1024, 1024]⟩ ⟨2, ![2048, 1024]⟩ (Layout.meshBlock [2, 2, 4] ![[1], []] c) Xw) (c : Dev nD) :
    outF X c = Layout.blockN ⟨2, ![2048, 512]⟩ ⟨2, ![2048, 1024]⟩ (Layout.meshBlock [2, 2, 4] ![[], [1]] c) Xw := by
  funext i
  have hy := yv_le c
  have h0 : (i 0).val < 2048 := (i 0).isLt
  by_cases h : (i 0).val / 1024 = yv c
  · rw [outF_own X c i h, hX c, Layout.blockN_apply, Layout.blockN_apply]
    congr 1
    funext b
    apply Fin.ext
    rw [Layout.TilesN.idx_val, Layout.TilesN.idx_val]
    match b with
    | ⟨0, _⟩ =>
      show Layout.meshLin [2, 2, 4] c.val [1] * 1024 + (i 0).val % 1024 = Layout.meshLin [2, 2, 4] c.val [] * 2048 + (i 0).val
      rw [meshLin_y]
      show yv c * 1024 + (i 0).val % 1024 = 0 * 2048 + (i 0).val
      omega
    | ⟨1, _⟩ =>
      show Layout.meshLin [2, 2, 4] c.val [] * 1024 + (512 * yv c + (i 1).val) = Layout.meshLin [2, 2, 4] c.val [1] * 512 + (i 1).val
      rw [meshLin_y]
      show 0 * 1024 + (512 * yv c + (i 1).val) = yv c * 512 + (i 1).val
      omega
  · rw [outF_far X c i h, hX (srcDev c ((i 0).val % 1024)), Layout.blockN_apply, Layout.blockN_apply]
    congr 1
    funext b
    apply Fin.ext
    rw [Layout.TilesN.idx_val, Layout.TilesN.idx_val]
    match b with
    | ⟨0, _⟩ =>
      show Layout.meshLin [2, 2, 4] (srcDev c ((i 0).val % 1024)).val [1] * 1024 + (i 0).val % 1024 = Layout.meshLin [2, 2, 4] c.val [] * 2048 + (i 0).val
      rw [meshLin_y, yv_srcDev]
      show (1 - yv c) * 1024 + (i 0).val % 1024 = 0 * 2048 + (i 0).val
      omega
    | ⟨1, _⟩ =>
      show Layout.meshLin [2, 2, 4] (srcDev c ((i 0).val % 1024)).val [] * 1024 + (512 * yv c + (i 1).val) = Layout.meshLin [2, 2, 4] c.val [1] * 512 + (i 1).val
      rw [meshLin_y]
      show 0 * 1024 + (512 * yv c + (i 1).val) = yv c * 512 + (i 1).val
      omega

/-- info: 'Cert.KernelIdeal.A2A.outF_block' depends on axioms: [propext, Classical.choice, Quot.sound] -/
#guard_msgs in #print axioms outF_block
/-- info: 'Cert.KernelIdeal.A2A.land_y' depends on axioms: [propext, Classical.choice, Quot.sound] -/
#guard_msgs in #print axioms land_y

end Cert.KernelIdeal.A2A

end
-- ==== Proof.Levels.lean ====
import proofs.«900637_g7700000000000638_dist_a2a_v7x_xyz2x2x4_y_m1024_n512_f32_1_alg».proof.Proof.Tables

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : XBuf (Elt F))

theorem oweL_pos {l : List (GSem nD τ sig × ℕ)} {g : GSem nD τ sig} {u : Unit} (h : 0 < oweL l g u) : ∃ e ∈ l, e.1 = g := by
  induction l with
  | nil => rw [oweL_nil, Pi.zero_apply, Finsupp.zero_apply] at h; exact absurd h (Nat.lt_irrefl 0)
  | cons e t ih =>
    rw [oweL_cons] at h
    rcases Pipeline.add_pos_cases h with h | h
    · obtain ⟨e', he', hg⟩ := ih h
      exact ⟨e', List.mem_cons_of_mem _ he', hg⟩
    · exact ⟨e, List.mem_cons_self, (Pipeline.tallyAt_pos h).1.symm⟩

theorem mayWait_of (c : Dev nD) (sm : SemLoc sig) (l : List (GSem nD τ sig × ℕ))
    (h : ∀ e ∈ l, e.1.1.2 = .tc ∧ lvS sm < lvS e.1.2) :
    (levAts L lv : sProp 𝕄) ⊢ MayWait (c : Thread nD τ) sm () (oweL l) :=
  MayOwe.of_cut (L := L) (lev := lv) (lvS sm)
    (fun p hp => by rw [Finset.mem_singleton.mp hp, L_tc]; exact Finset.mem_singleton_self _)
    (fun g u hg => by
      obtain ⟨e, he, rfl⟩ := oweL_pos hg
      unfold L; rw [if_pos (h e he).1]; exact Finset.mem_singleton_self _)
    (fun p hp => by rw [Finset.mem_singleton.mp hp]; exact le_refl _)
    (fun g u hg => by
      obtain ⟨e, he, rfl⟩ := oweL_pos hg
      exact (h e he).2)

theorem launchCred_cons (e : Dev nD → GSem nD τ sig × ℕ) (t : Dev nD → List (GSem nD τ sig × ℕ)) (c : Dev nD) :
    (Pipeline.launchCred (fun d => oweL (e d :: t d)) c : sProp 𝕄)
      = iprop(Pipeline.launchCred (fun d => oweL (t d)) c ∗ Pipeline.launchCred (fun d => tallyAt (e d).1 () (e d).2) c) :=
  Pipeline.launchCred_add _ _ c

theorem cred_peer (f : Dev nD → Dev nD) (hf : ∀ d, f (f d) = d) (sm : SemLoc sig) (n : ℕ) (c : Dev nD) :
    (Pipeline.launchCred (fun d => tallyAt ((f d : Thread nD τ), sm) () n) c : sProp 𝕄)
      ⊢ cred (tallyAt ((c : Thread nD τ), sm) () n) :=
  Pipeline.launchCred_tallyAt sm f f hf hf () n c

theorem crD_peer (f : Dev nD → Dev nD) (hf : ∀ d, f (f d) = d) (j : DmaSem sig) (n : ℕ) (hn : cr j = n) (c : Dev nD) :
    (Pipeline.launchCred (fun d => tallyAt (dCell (f d) j) () n) c : sProp 𝕄) ⊢ crD c j := by
  subst hn; exact cred_peer f hf (.dma j) _ c

theorem cred_three (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) by
    rw [tallyAt_add, tallyAt_add]]
  exact (sep_mono_right (cred_add _ _).2).trans (cred_add _ _).2

-- The launch credit of all debts is, cell by cell, what each device's peers owe it.
theorem launch_creds (c : Dev nD) :
    (Pipeline.launchCred O₀ c : sProp 𝕄) ⊢ iprop(cred (tallyAt (barCell c) () 3)
      ∗ (crD c (dj 4) ∗ crD c (dj 5) ∗ crD c (dj 6) ∗ crD c (dj 7)) ∗ (crD c (dj 10) ∗ crD c (dj 11))
      ∗ (crD c (dj 16) ∗ crD c (dj 17) ∗ crD c (dj 18) ∗ crD c (dj 19)) ∗ (crD c (dj 24) ∗ crD c (dj 25) ∗ crD c (dj 26) ∗ crD c (dj 27))
      ∗ (crD c (dj 30) ∗ crD c (dj 31)) ∗ (crD c (dj 34) ∗ crD c (dj 35))) := by
  rw [show (O₀ : Dev nD → CellTallies nD τ sig Unit) = fun d => oweL (debts d) from rfl]; unfold debts
  repeat rw [launchCred_cons]
  rw [show (Pipeline.launchCred (fun _ : Dev nD => oweL ([] : List (GSem nD τ sig × ℕ))) c : sProp 𝕄) = iprop(emp) from
      Pipeline.launchCred_zero c]
  dsimp only
  iintro ⟨⟨⟨⟨⟨⟨⟨⟨⟨⟨⟨⟨⟨⟨⟨⟨⟨⟨⟨⟨⟨-, H35⟩, H34⟩, H31⟩, H30⟩, H27⟩, H19⟩, H26⟩, H18⟩, H25⟩, H17⟩, H24⟩, H16⟩, H11⟩, H10⟩, H7⟩, H6⟩, H5⟩, H4⟩, Hz⟩, Hx⟩, Hy⟩
  ihave Hy := (cred_peer yp yp_yp (.reg barS) 1 c) $$ Hy
  ihave Hx := (cred_peer xp xp_xp (.reg barS) 1 c) $$ Hx
  ihave Hz := (cred_peer zp zp_zp (.reg barS) 1 c) $$ Hz
  ihave H4 := (crD_peer yp yp_yp (dj 4) N56 rfl c) $$ H4
  ihave H5 := (crD_peer yp yp_yp (dj 5) N56 rfl c) $$ H5
  ihave H6 := (crD_peer yp yp_yp (dj 6) N56 rfl c) $$ H6
  ihave H7 := (crD_peer yp yp_yp (dj 7) N56 rfl c) $$ H7
  ihave H10 := (crD_peer yp yp_yp (dj 10) N64 rfl c) $$ H10
  ihave H11 := (crD_peer yp yp_yp (dj 11) N64 rfl c) $$ H11
  ihave H16 := (crD_peer xp xp_xp (dj 16) N56 rfl c) $$ H16
  ihave H17 := (crD_peer xp xp_xp (dj 17) N56 rfl c) $$ H17
  ihave H18 := (crD_peer xp xp_xp (dj 18) N56 rfl c) $$ H18
  ihave H19 := (crD_peer xp xp_xp (dj 19) N56 rfl c) $$ H19
  ihave H24 := (crD_peer zp zp_zp (dj 24) N56 rfl c) $$ H24
  ihave H25 := (crD_peer zp zp_zp (dj 25) N56 rfl c) $$ H25
  ihave H26 := (crD_peer zp zp_zp (dj 26) N56 rfl c) $$ H26
  ihave H27 := (crD_peer zp zp_zp (dj 27) N56 rfl c) $$ H27
  ihave H30 := (crD_peer zp zp_zp (dj 30) N56 rfl c) $$ H30
  ihave H31 := (crD_peer zp zp_zp (dj 31) N56 rfl c) $$ H31
  ihave H34 := (crD_peer xp xp_xp (dj 34) N56 rfl c) $$ H34
  ihave H35 := (crD_peer xp xp_xp (dj 35) N56 rfl c) $$ H35
  isplitl [Hy Hx Hz]
  · iapply (cred_three (barCell c)); iframe
  iframe

/-- info: 'Cert.KernelIdeal.A2A.mayWait_of' depends on axioms: [propext, Classical.choice, Quot.sound] -/
#guard_msgs in #print axioms mayWait_of

/-- info: 'Cert.KernelIdeal.A2A.launch_creds' depends on axioms: [propext, Classical.choice, Quot.sound] -/
#guard_msgs in #print axioms launch_creds

end Cert.KernelIdeal.A2A

end
-- ==== Proof.Res.lean ====
import proofs.«900637_g7700000000000638_dist_a2a_v7x_xyz2x2x4_y_m1024_n512_f32_1_alg».proof.Proof.Rules
import proofs.«900637_g7700000000000638_dist_a2a_v7x_xyz2x2x4_y_m1024_n512_f32_1_alg».proof.Proof.Geom
import proofs.«900637_g7700000000000638_dist_a2a_v7x_xyz2x2x4_y_m1024_n512_f32_1_alg».proof.Proof.Landing
import proofs.«900637_g7700000000000638_dist_a2a_v7x_xyz2x2x4_y_m1024_n512_f32_1_alg».proof.Proof.Levels
import proofs.«900637_g7700000000000638_dist_a2a_v7x_xyz2x2x4_y_m1024_n512_f32_1_alg».proof.Proof.Gen.KernelIdeal.Skeleton

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev Dy (c : Dev nD) (r : Nat) : sProp 𝕄 := oAny (yp c) (QR (yp c) (qme c) r)
abbrev Dt (c : Dev nD) (r : Nat) : sProp 𝕄 := oAny (yp c) (TR (yp c) r)
abbrev Dx (c : Dev nD) (r : Nat) : sProp 𝕄 := oAny (xp c) (QR (xp c) (qme c) r)
abbrev Dfb (c : Dev nD) (r : Nat) : sProp 𝕄 := oAny (xp c) (QR (xp c) (qzp c) (2 + r))
abbrev Dz (c : Dev nD) (r : Nat) : sProp 𝕄 := oAny (zp c) (QR (zp c) (qme c) r)
abbrev Dfa (c : Dev nD) (r : Nat) : sProp 𝕄 := oAny (zp c) (QR (zp c) (qxp c) r)

theorem barPay0_eq (c : Dev nD) : (barPay c 0 : sProp 𝕄) = iprop(Dy c 0 ∗ Dy c 1 ∗ Dy c 2 ∗ Dy c 3 ∗ Dt c 0 ∗ Dt c 1) := rfl
theorem barPay1_eq (c : Dev nD) : (barPay c 1 : sProp 𝕄) = iprop(Dx c 0 ∗ Dx c 1 ∗ Dx c 2 ∗ Dx c 3 ∗ Dfb c 0 ∗ Dfb c 1) := rfl
theorem barPay2_eq (c : Dev nD) : (barPay c 2 : sProp 𝕄) = iprop(Dz c 0 ∗ Dz c 1 ∗ Dz c 2 ∗ Dz c 3 ∗ Dfa c 0 ∗ Dfa c 1) := rfl

end Cert.KernelIdeal.A2A

end
-- ==== Proof.Ghost.lean ====
import proofs.«900637_g7700000000000638_dist_a2a_v7x_xyz2x2x4_y_m1024_n512_f32_1_alg».proof.Proof.Tables

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : XBuf (Elt F))

def sendJ : Finset (DmaSem sig) :=
  {dj 0, dj 1, dj 2, dj 3, dj 8, dj 9, dj 12, dj 13, dj 14, dj 15, dj 20, dj 21, dj 22, dj 23, dj 28, dj 29, dj 32, dj 33, dj 36}

def recvY : Finset (DmaSem sig) := {dj 4, dj 5, dj 6, dj 7, dj 10, dj 11}
def recvX : Finset (DmaSem sig) := {dj 16, dj 17, dj 18, dj 19, dj 34, dj 35}
def recvZ : Finset (DmaSem sig) := {dj 24, dj 25, dj 26, dj 27, dj 30, dj 31}

theorem dma_partition : (Finset.univ : Finset (DmaSem sig)) = sendJ ∪ recvY ∪ recvX ∪ recvZ := by decide
theorem dma_disj1 : Disjoint sendJ recvY := by decide
theorem dma_disj2 : Disjoint (sendJ ∪ recvY) recvX := by decide
theorem dma_disj3 : Disjoint (sendJ ∪ recvY ∪ recvX) recvZ := by decide

def toks (c : Dev nD) : sProp 𝕄 :=
  iprop(tokB c 0 ∗ tokB c 1 ∗ tokB c 2 ∗ bigSep Finset.univ fun j : DmaSem sig => tokD c j)

def payToks (c : Dev nD) : sProp 𝕄 :=
  iprop(tokB (yp c) 0 ∗ tokB (xp c) 1 ∗ tokB (zp c) 2 ∗ (bigSep sendJ fun j => tokD c j)
    ∗ (bigSep recvY fun j => tokD (yp c) j) ∗ (bigSep recvX fun j => tokD (xp c) j) ∗ (bigSep recvZ fun j => tokD (zp c) j))

def positions (c : Dev nD) : sProp 𝕄 := bigSep Finset.univ fun k : Fin 38 => atPos ER (kcell (c, k)) 0 ∅ 0

def ghost (K : Dev nD × Fin 38 → ℕ) (c : Dev nD) : sProp 𝕄 := iprop(recs X K ∗ positions c ∗ payToks c)

def G (c : Dev nD) : sProp 𝕄 :=
  iprop((bigSep Finset.univ fun k : Fin 38 => roundState ER (Rd X) (kcell (c, k)) 0)
    ∗ (bigSep Finset.univ fun k : Fin 38 => iprop(atPos ER (kcell (c, k)) 0 ∅ 0 ∗ reached ER (kcell (c, k)) 0)) ∗ toks c)
def G' (c : Dev nD) : sProp 𝕄 := iprop(∃ K, ghost X K c)

end Cert.KernelIdeal.A2A

end
-- ==== Proof.Dats.lean ====
import proofs.«900637_g7700000000000638_dist_a2a_v7x_xyz2x2x4_y_m1024_n512_f32_1_alg».proof.Proof.Res
import proofs.«900637_g7700000000000638_dist_a2a_v7x_xyz2x2x4_y_m1024_n512_f32_1_alg».proof.Proof.Ghost
import proofs.«900637_g7700000000000638_dist_a2a_v7x_xyz2x2x4_y_m1024_n512_f32_1_alg».proof.Proof.Gen.KernelIdeal.Frame

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev Xm : XBuf (Elt F) := fun d => m ((d : Thread nD τ).loc main_arg0)

def credsC (c : Dev nD) : sProp 𝕄 :=
  iprop(cred (tallyAt (barCell c) () 3)
      ∗ (crD c (dj 4) ∗ crD c (dj 5) ∗ crD c (dj 6) ∗ crD c (dj 7)) ∗ (crD c (dj 10) ∗ crD c (dj 11))
      ∗ (crD c (dj 16) ∗ crD c (dj 17) ∗ crD c (dj 18) ∗ crD c (dj 19)) ∗ (crD c (dj 24) ∗ crD c (dj 25) ∗ crD c (dj 26) ∗ crD c (dj 27))
      ∗ (crD c (dj 30) ∗ crD c (dj 31)) ∗ (crD c (dj 34) ∗ crD c (dj 35)))

def start (c : Dev nD) : sProp 𝕄 := iprop((∃ K, ghost (Xm m) K c) ∗ credsC c ∗ levAts L lv)

def Φ₀ (c : Dev nD) : sProp 𝕄 :=
  iprop(start m c ∗ (oLoc c ↦{fullShare} m (oLoc c)) ∗ (xLoc c ↦{fullShare} Xm m c))
def Φ₁ (c : Dev nD) : sProp 𝕄 :=
  iprop((oLoc c ↦{fullShare} outF (Xm m) c) ∗ (xLoc c ↦{fullShare} Xm m c) ∗ bigSep Finset.univ fun j : Fin 37 => semVal (dCell c j) 0)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := w.elim0
  after w := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.KernelIdeal.A2A

end
-- ==== Proof.Chains.lean ====
import proofs.«900637_g7700000000000638_dist_a2a_v7x_xyz2x2x4_y_m1024_n512_f32_1_alg».proof.Proof.Res
import proofs.«900637_g7700000000000638_dist_a2a_v7x_xyz2x2x4_y_m1024_n512_f32_1_alg».proof.Proof.Ghost

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : XBuf (Elt F)) (K : Dev nD × Fin 38 → ℕ)

theorem positions_eq (c : Dev nD) : (positions c : sProp 𝕄) =
    iprop(pos0 c (dj 0) ∗ pos0 c (dj 1) ∗ pos0 c (dj 2) ∗ pos0 c (dj 3) ∗ pos0 c (dj 4) ∗ pos0 c (dj 5) ∗ pos0 c (dj 6) ∗ pos0 c (dj 7) ∗ pos0 c (dj 8) ∗ pos0 c (dj 9) ∗ pos0 c (dj 10) ∗ pos0 c (dj 11) ∗ pos0 c (dj 12) ∗ pos0 c (dj 13) ∗ pos0 c (dj 14) ∗ pos0 c (dj 15) ∗ pos0 c (dj 16) ∗ pos0 c (dj 17) ∗ pos0 c (dj 18) ∗ pos0 c (dj 19) ∗ pos0 c (dj 20) ∗ pos0 c (dj 21) ∗ pos0 c (dj 22) ∗ pos0 c (dj 23) ∗ pos0 c (dj 24) ∗ pos0 c (dj 25) ∗ pos0 c (dj 26) ∗ pos0 c (dj 27) ∗ pos0 c (dj 28) ∗ pos0 c (dj 29) ∗ pos0 c (dj 30) ∗ pos0 c (dj 31) ∗ pos0 c (dj 32) ∗ pos0 c (dj 33) ∗ pos0 c (dj 34) ∗ pos0 c (dj 35) ∗ pos0 c (dj 36) ∗ atPos ER (barCell c) 0 ∅ 0) := by
  unfold positions
  rw [bigSep_univ_eq_bigSepL ([0, 1, 2, 3, 4, 5, 6, 7, 8, 9, 10, 11, 12, 13, 14, 15, 16, 17, 18, 19, 20, 21, 22, 23, 24, 25, 26, 27, 28, 29, 30, 31, 32, 33, 34, 35, 36, 37] : List (Fin 38)) (by decide) (by decide)]
  rfl

theorem payToks_eq (c : Dev nD) : (payToks c : sProp 𝕄) =
    iprop(tokB (yp c) 0 ∗ tokB (xp c) 1 ∗ tokB (zp c) 2
      ∗ (tokD c (dj 0) ∗ tokD c (dj 1) ∗ tokD c (dj 2) ∗ tokD c (dj 3) ∗ tokD c (dj 8) ∗ tokD c (dj 9) ∗ tokD c (dj 12) ∗ tokD c (dj 13) ∗ tokD c (dj 14) ∗ tokD c (dj 15) ∗ tokD c (dj 20) ∗ tokD c (dj 21) ∗ tokD c (dj 22) ∗ tokD c (dj 23) ∗ tokD c (dj 28) ∗ tokD c (dj 29) ∗ tokD c (dj 32) ∗ tokD c (dj 33) ∗ tokD c (dj 36))
      ∗ (tokD (yp c) (dj 4) ∗ tokD (yp c) (dj 5) ∗ tokD (yp c) (dj 6) ∗ tokD (yp c) (dj 7) ∗ tokD (yp c) (dj 10) ∗ tokD (yp c) (dj 11))
      ∗ (tokD (xp c) (dj 16) ∗ tokD (xp c) (dj 17) ∗ tokD (xp c) (dj 18) ∗ tokD (xp c) (dj 19) ∗ tokD (xp c) (dj 34) ∗ tokD (xp c) (dj 35))
      ∗ (tokD (zp c) (dj 24) ∗ tokD (zp c) (dj 25) ∗ tokD (zp c) (dj 26) ∗ tokD (zp c) (dj 27) ∗ tokD (zp c) (dj 30) ∗ tokD (zp c) (dj 31))) := by
  unfold payToks
  rw [bigSep_eq_bigSepL_of_eq (S := sendJ) [dj 0, dj 1, dj 2, dj 3, dj 8, dj 9, dj 12, dj 13, dj 14, dj 15, dj 20, dj 21, dj 22, dj 23, dj 28, dj 29, dj 32, dj 33, dj 36] (by decide) (by decide),
    bigSep_eq_bigSepL_of_eq (S := recvY) [dj 4, dj 5, dj 6, dj 7, dj 10, dj 11] (by decide) (by decide),
    bigSep_eq_bigSepL_of_eq (S := recvX) [dj 16, dj 17, dj 18, dj 19, dj 34, dj 35] (by decide) (by decide),
    bigSep_eq_bigSepL_of_eq (S := recvZ) [dj 24, dj 25, dj 26, dj 27, dj 30, dj 31] (by decide) (by decide)]
  rfl

theorem pos1_family (c : Dev nD) :
    iprop(pos1 c (dj 0) ∗ pos1 c (dj 1) ∗ pos1 c (dj 2) ∗ pos1 c (dj 3) ∗ pos1 c (dj 4) ∗ pos1 c (dj 5) ∗ pos1 c (dj 6) ∗ pos1 c (dj 7) ∗ pos1 c (dj 8) ∗ pos1 c (dj 9) ∗ pos1 c (dj 10) ∗ pos1 c (dj 11) ∗ pos1 c (dj 12) ∗ pos1 c (dj 13) ∗ pos1 c (dj 14) ∗ pos1 c (dj 15) ∗ pos1 c (dj 16) ∗ pos1 c (dj 17) ∗ pos1 c (dj 18) ∗ pos1 c (dj 19) ∗ pos1 c (dj 20) ∗ pos1 c (dj 21) ∗ pos1 c (dj 22) ∗ pos1 c (dj 23) ∗ pos1 c (dj 24) ∗ pos1 c (dj 25) ∗ pos1 c (dj 26) ∗ pos1 c (dj 27) ∗ pos1 c (dj 28) ∗ pos1 c (dj 29) ∗ pos1 c (dj 30) ∗ pos1 c (dj 31) ∗ pos1 c (dj 32) ∗ pos1 c (dj 33) ∗ pos1 c (dj 34) ∗ pos1 c (dj 35) ∗ pos1 c (dj 36)) ⊢ (bigSep Finset.univ fun j : Fin 37 => pos1 c j : sProp 𝕄) := by
  rw [bigSep_univ_eq_bigSepL ([0, 1, 2, 3, 4, 5, 6, 7, 8, 9, 10, 11, 12, 13, 14, 15, 16, 17, 18, 19, 20, 21, 22, 23, 24, 25, 26, 27, 28, 29, 30, 31, 32, 33, 34, 35, 36] : List (Fin 37)) (by decide) (by decide)]
  exact Entails.of_eq rfl

theorem close_one (c : Dev nD) (j : Fin 37) :
    iprop(recs X K ∗ pos1 c j) ⊢ (|={Set.univ}=> semVal (dCell c j) 0 : sProp 𝕄) := by
  iintro ⟨#HR, Hat⟩
  iapply (Rounds.cell_close ER (Rd X) (Set.mem_univ (K (c, kd j))) (fun h => h) (R := 0 + 1) (duties_later X (dCell c j)))
  isplitr; · iapply (inv_d X K c j); iexact HR
  iexact Hat

theorem close_all (c : Dev nD) :
    iprop(recs X K ∗ bigSep Finset.univ fun j : Fin 37 => pos1 c j) ⊢ (|={Set.univ}=> bigSep Finset.univ fun j : Fin 37 => semVal (dCell c j) 0 : sProp 𝕄) := by
  refine ((sep_mono_left (BI.bigSep_of_persistent (Finset.univ : Finset (Fin 37)) (recs X K))).trans ?_)
  rw [← bigSep_sep']
  exact (bigSep_mono fun j _ => close_one X K c j).trans (bigSep_fupd _ _)

section Give
variable (c : Dev nD) (f : Buf (Elt F) (oLoc c))

theorem give_y :
    iprop(oPt c (QR c (qme c) 0) fullShare f ∗ oPt c (QR c (qme c) 1) fullShare f ∗ oPt c (QR c (qme c) 2) fullShare f ∗ oPt c (QR c (qme c) 3) fullShare f
      ∗ oPt c (TR c 0) fullShare f ∗ oPt c (TR c 1) fullShare f) ⊢ (barPay (yp c) 0 : sProp 𝕄) := by
  rw [barPay0_eq]
  simp only [Dy, Dt, yp_yp, qme_yp]
  iintro ⟨H0, H1, H2, H3, H4, H5⟩
  isplitl [H0]; · iexists f; iexact H0
  isplitl [H1]; · iexists f; iexact H1
  isplitl [H2]; · iexists f; iexact H2
  isplitl [H3]; · iexists f; iexact H3
  isplitl [H4]; · iexists f; iexact H4
  iexists f; iexact H5

theorem give_x :
    iprop(oPt c (QR c (qxp c) 0) fullShare f ∗ oPt c (QR c (qxp c) 1) fullShare f ∗ oPt c (QR c (qxp c) 2) fullShare f ∗ oPt c (QR c (qxp c) 3) fullShare f
      ∗ oPt c (QR c (q4 c) 2) fullShare f ∗ oPt c (QR c (q4 c) 3) fullShare f) ⊢ (barPay (xp c) 1 : sProp 𝕄) := by
  rw [barPay1_eq]
  simp only [Dx, Dfb, xp_xp, qme_xp, qzp_xp]
  iintro ⟨H0, H1, H2, H3, H4, H5⟩
  isplitl [H0]; · iexists f; iexact H0
  isplitl [H1]; · iexists f; iexact H1
  isplitl [H2]; · iexists f; iexact H2
  isplitl [H3]; · iexists f; iexact H3
  isplitl [H4]; · iexists f; iexact H4
  iexists f; iexact H5

theorem give_z :
    iprop(oPt c (QR c (qzp c) 0) fullShare f ∗ oPt c (QR c (qzp c) 1) fullShare f ∗ oPt c (QR c (qzp c) 2) fullShare f ∗ oPt c (QR c (qzp c) 3) fullShare f
      ∗ oPt c (QR c (q4 c) 0) fullShare f ∗ oPt c (QR c (q4 c) 1) fullShare f) ⊢ (barPay (zp c) 2 : sProp 𝕄) := by
  rw [barPay2_eq]
  simp only [Dz, Dfa, zp_zp, qme_zp, qxp_zp]
  iintro ⟨H0, H1, H2, H3, H4, H5⟩
  isplitl [H0]; · iexists f; iexact H0
  isplitl [H1]; · iexists f; iexact H1
  isplitl [H2]; · iexists f; iexact H2
  isplitl [H3]; · iexists f; iexact H3
  isplitl [H4]; · iexists f; iexact H4
  iexists f; iexact H5

end Give

end Cert.KernelIdeal.A2A

end
-- ==== Proof.Steps.lean ====
import proofs.«900637_g7700000000000638_dist_a2a_v7x_xyz2x2x4_y_m1024_n512_f32_1_alg».proof.Proof.Res

noncomputable section

namespace Cert.KernelIdeal.A2A

open Cert.KernelIdeal Cert.KernelIdeal.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

variable (X : XBuf (Elt F)) (K : Dev nD × Fin 38 → ℕ)

theorem q4_zp : ∀ d : Dev nD, q4 (zp d) = qxp d := by decide
theorem q4_xp : ∀ d : Dev nD, q4 (xp d) = qzp d := by decide

theorem debts_tc (c : Dev nD) : ∀ e ∈ debts c, e.1.1.2 = .tc := by
  intro e he
  simp only [debts, List.mem_cons, List.not_mem_nil, or_false] at he
  rcases he with rfl | rfl | rfl | rfl | rfl | rfl | rfl | rfl | rfl | rfl | rfl | rfl | rfl | rfl | rfl | rfl | rfl | rfl | rfl | rfl | rfl <;> rfl

-- A wait is allowed once every debt still owed sits at a higher level than the waited cell.
theorem mayWait_drop (c : Dev nD) (sm : SemLoc sig) (n : ℕ)
    (h : ((debts c).drop n).all (fun e => decide (lvS sm < lvS e.1.2)) = true) :
    (levAts L lv : sProp 𝕄) ⊢ MayWait (c : Thread nD τ) sm () (owedAfter c n) :=
  mayWait_of c sm _ fun e he => ⟨debts_tc c e (List.mem_of_mem_drop he), of_decide_eq_true (List.all_eq_true.mp h e he)⟩

theorem wait_lv (c : Dev nD) (j : DmaSem sig) (n : ℕ) {s : Shape} {src dst : Memref sig .tc .hbm s .f32}
    (P : sProp 𝕄) (W : Waits sig Unit) (hP : dmaPay X c j = P := by rfl) (hN : dst.view.dmaCredit = cr j := by rfl)
    (hl : ((debts c).drop n).all (fun e => decide (lvS (.dma j) < lvS e.1.2)) = true := by rfl)
    {hsrc : src.view.WordExact} {hdst : dst.view.WordExact}
    {α : Type} {Q : α → sProp 𝕄} {k : PUnit → Prog (TpuEff nD τ sig (Elt F) Λ₀ .tc) α} :
    ⊢ recs X K -∗ levAts L lv -∗ crD c j -∗ owes (c : Thread nD τ) (owedAfter c n) W -∗ pos0 c j
      -∗ ((owes (c : Thread nD τ) (owedAfter c n) (insert (SemLoc.dma j, ()) W) ∗ pos1 c j ∗ P) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 j src dst hsrc hdst) k) Q := by
  subst hP
  iintro #HR #HL Hc HO Hat
  ihave Hm := (mayWait_drop c (.dma j) n hl) $$ HL
  iapply (wait_step X K c j hN (owedAfter c n) W) $$ HR Hc HO Hm Hat

set_option maxHeartbeats 1600000 in
-- A device sends rows of its own block to its peer along y, where they land as the peer's result rows.
theorem ysend (c n : Dev nD) (hn : n = yp c) (r : Fin 4) (r' : ℕ) (jS jR : DmaSem sig) (a b : ℕ) (W : Waits sig Unit)
    (hr : r.val = r' := by rfl) (hS : cr jS = N56 := by rfl) (hR : cr jR = N56 := by rfl)
    (eS : dmaPay X c jS = xPt c (X c) (YS c r') fullShare := by rfl)
    (eR : dmaPay X (yp c) jR = oPt (yp c) (QR (yp c) (qme (yp c)) r') fullShare (outF X (yp c)) := by rfl)
    (hO : owedAfter c a = owedAfter c b + tallyAt (dCell (yp c) jR) () N56 := by rfl)
    {hsc : (yDst c r : Memref sig (Dev.tc n : Thread nD τ).2.kind .hbm S56x512 .f32).view.ref.isScScratch = false}
    {hsrc : (ySrc c r).view.WordExact} {hdst : (yDst c r).view.WordExact}
    {hsem : DmaTarget.Typed .hbm (.dma jR) (.remote (Dev.tc n : Thread nD τ) (yDst c r) (.dma jS) hsc)}
    {α : Type} {Q : α → sProp 𝕄} {k : PUnit → Prog (TpuEff nD τ sig (Elt F) Λ₀ .tc) α} :
    ⊢ recs X K -∗ xPt c (X c) (YS c r') fullShare -∗ Dy c r' -∗ owes (c : Thread nD τ) (owedAfter c a) W
      -∗ tokD c jS -∗ tokD (yp c) jR
      -∗ ((crD c jS ∗ owes (c : Thread nD τ) (owedAfter c b) W) -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma (ySrc c r) (.remote (Dev.tc n : Thread nD τ) (yDst c r) (.dma jS) hsc) (.dma jR) hsrc hdst hsem) k) Q := by
  subst hr; rw [hO, crD, hS]
  iintro #HR Hs ⟨%fd, Hd⟩ HO HtS HtR
  ihave Hs := (Entails.of_eq (pt_ySrc c c fullShare r (X c)).symm) $$ Hs
  ihave Hd := (Entails.of_eq (pt_yDst c (yp c) fullShare r fd).symm) $$ Hd
  iapply (send_step X K c (yp c) n hn (src := ySrc c r) (dst := yDst c r) jS jR N56 rfl hS hR fullShare (X c) fd
      (Entails.of_eq ((pt_ySrc c c fullShare r (X c)).trans eS.symm))
      (Entails.of_eq ((pt_yDst c (yp c) fullShare r _).trans ((pointsTo_congr (land_y X c r fd)).trans (by rw [eR, qme_yp]))))
      (owedAfter c b) W) $$ HR Hs Hd HO HtS HtR

abbrev oV (off : Fin 2 → ℕ) (inb : ∀ a, off a + S56x512.size a ≤ S2048x512.size a) : Memref sig .tc .hbm S56x512 .f32 :=
  oM.slice (Rect.unit (s := S2048x512) off S56x512.size inb) (fun _ => rfl)

set_option maxHeartbeats 1600000 in
-- Forwarding inside the result array: rows already final on the sender land, unchanged, as the same rows of a peer.
theorem osend (c p n : Dev nD) (hn : n = p) {off : Fin 2 → ℕ} {inb : ∀ a, off a + S56x512.size a ≤ S2048x512.size a}
    (S : Finset S2048x512.Idx)
    (pt : ∀ (p' : Dev nD) (q : PosShare TreeShare) (g : Buf (Elt F) (oLoc p')),
      ((oV off inb).view.loc (p' : Thread nD τ) ↦[(oV off inb).view.set]{q} g : sProp 𝕄) = oPt p' S q g)
    (land : ∀ fd : Buf (Elt F) (oLoc p), ∀ i ∈ S,
      (oV off inb).view.write (Elt F) fd ((oV off inb).view.read (Elt F) (outF X c)) Finset.univ i = outF X p i)
    (jS jR : DmaSem sig) (q : PosShare TreeShare) (Sd : Finset S2048x512.Idx) (hSd : Sd = S)
    (eR : dmaPay X p jR = oPt p S fullShare (outF X p))
    (a b : ℕ) (W : Waits sig Unit) (hS : cr jS = N56 := by rfl) (hR : cr jR = N56 := by rfl)
    (eS : dmaPay X c jS = oPt c S q (outF X c) := by rfl)
    (hO : owedAfter c a = owedAfter c b + tallyAt (dCell p jR) () N56 := by rfl)
    {hsc : (oV off inb : Memref sig (Dev.tc n : Thread nD τ).2.kind .hbm S56x512 .f32).view.ref.isScScratch = false}
    {hsrc : (oV off inb).view.WordExact} {hdst : (oV off inb).view.WordExact}
    {hsem : DmaTarget.Typed .hbm (.dma jR) (.remote (Dev.tc n : Thread nD τ) (oV off inb) (.dma jS) hsc)}
    {α : Type} {Q : α → sProp 𝕄} {k : PUnit → Prog (TpuEff nD τ sig (Elt F) Λ₀ .tc) α} :
    ⊢ recs X K -∗ oPt c S q (outF X c) -∗ oAny p Sd -∗ owes (c : Thread nD τ) (owedAfter c a) W
      -∗ tokD c jS -∗ tokD p jR
      -∗ ((crD c jS ∗ owes (c : Thread nD τ) (owedAfter c b) W) -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma (oV off inb) (.remote (Dev.tc n : Thread nD τ) (oV off inb) (.dma jS) hsc) (.dma jR) hsrc hdst hsem) k) Q := by
  subst hSd; rw [hO, crD, hS]
  iintro #HR Hs ⟨%fd, Hd⟩ HO HtS HtR
  ihave Hs := (Entails.of_eq (pt c q (outF X c)).symm) $$ Hs
  ihave Hd := (Entails.of_eq (pt p fullShare fd).symm) $$ Hd
  iapply (send_step X K c p n hn (src := oV off inb) (dst := oV off inb) jS jR N56 rfl hS hR q (outF X c) fd
      (Entails.of_eq ((pt c q (outF X c)).trans eS.symm))
      (Entails.of_eq ((pt p fullShare _).trans ((pointsTo_congr (land fd)).trans eR.symm))) (owedAfter c b) W)
    $$ HR Hs Hd HO HtS HtR

end Cert.KernelIdeal.A2A

end
-- ==== Proof.Part01.lean ====
import proofs.«900637_g7700000000000638_dist_a2a_v7x_xyz2x2x4_y_m1024_n512_f32_1_alg».proof.Proof.Steps

noncomputable section

namespace Cert.KernelIdeal.A2A

open Cert.KernelIdeal Cert.KernelIdeal.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

variable (X : XBuf (Elt F)) (K : Dev nD × Fin 38 → ℕ)

theorem part1_spec (c : Dev nD) (W : Waits sig Unit)
    (Kt : (Σ' (d0 : Dev nD) (v2 : BitVec 32) (v5 : BitVec 32) (v8 : BitVec 32) (v9 : BitVec 32) (v10 : BitVec 32) (v20 : BitVec 32) (v23 : BitVec 32) (v24 : Sems sig S_) (v32 : BitVec 32), BitVec 32) → sProp 𝕄) :
    ⊢ recs X K
      -∗ owes (c : Thread nD τ) (owedAfter c 0) W
      -∗ tokB (yp c) 0
      -∗ barPay (yp c) 0
      -∗ (∀ v2 v5 v8 v9 v10 v20 v23 v32 c4, owes (c : Thread nD τ) (owedAfter c 1) W -∗ Kt ⟨c, v2, v5, v8, v9, v10, v20, v23, SemArray.scalar (sig.barrier 0 rfl), v32, c4⟩)
      -∗ wp frame (wpE (defs₀ (F := F)) 𝒱₀ (c : Thread nD τ) none) Set.univ (k0_part1 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12) Kt := by
  rw [k0_part1_eq_skeleton]; unfold k0_part1_skel
  simp only [semSignalWord, semWaitWord, Prog.lift, Prog.bind_op, Prog.bind_ret, Prog.pure_eq_ret, wp_deviceId]
  iintro #HR HO Ht Hp Hk
  iapply (sig_step X K c (yp c) _ (dev1_eq c) 0 (owedAfter c 1) W _ (by decide)) $$ HR [HO] Ht Hp
  · iexact HO
  iintro HO
  rw [wp_ret]; imodintro
  iapply Hk $$ HO

end Cert.KernelIdeal.A2A

end
-- ==== Proof.Part02.lean ====
import proofs.«900637_g7700000000000638_dist_a2a_v7x_xyz2x2x4_y_m1024_n512_f32_1_alg».proof.Proof.Steps

noncomputable section

namespace Cert.KernelIdeal.A2A

open Cert.KernelIdeal Cert.KernelIdeal.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

variable (X : XBuf (Elt F)) (K : Dev nD × Fin 38 → ℕ)

theorem part2_spec (c : Dev nD) (W : Waits sig Unit) (v2 v5 v8 v9 v10 v20 v23 v32 c4 : BitVec 32)
    (Kt : (Σ' (v44 : BitVec 32) (v52 : BitVec 32) (v54 : BitVec 32) (v56 : BitVec 32), BitVec 32) → sProp 𝕄) :
    ⊢ recs X K
      -∗ levAts L lv
      -∗ owes (c : Thread nD τ) (owedAfter c 1) W
      -∗ tokB (xp c) 1
      -∗ barPay (xp c) 1
      -∗ tokB (zp c) 2
      -∗ barPay (zp c) 2
      -∗ cred (tallyAt (barCell c) () 3)
      -∗ atPos ER (barCell c) 0 ∅ 0
      -∗ (∀ ret, (∃ W', owes (c : Thread nD τ) (owedAfter c 3) W') ∗ barPay c 0 ∗ barPay c 1 ∗ barPay c 2 -∗ Kt ret)
      -∗ wp frame (wpE (defs₀ (F := F)) 𝒱₀ (c : Thread nD τ) none) Set.univ (k0_part2 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12 c v2 v5 v8 v9 v10 v20 v23 (SemArray.scalar (sig.barrier 0 rfl)) v32 c4) Kt := by
  rw [k0_part2_eq_skeleton]; unfold k0_part2_skel
  simp only [semSignalWord, semWaitWord, Prog.lift, Prog.bind_op, Prog.bind_ret, Prog.pure_eq_ret]
  iintro #HR #HL HO Htx Hpx Htz Hpz Hc Hat Hk
  iapply (sig_step X K c (xp c) _ (dev2_eq c) 1 (owedAfter c 2) W _ (by decide)) $$ HR [HO] Htx Hpx
  · iexact HO
  iintro HO
  iapply (sig_step X K c (zp c) _ (dev3_eq c) 2 (owedAfter c 3) W _ (by decide)) $$ HR [HO] Htz Hpz
  · iexact HO
  iintro HO
  ihave Hm := (mayWait_drop c (.reg barS) 3 rfl) $$ HL
  iapply (barwait_step X K c (owedAfter c 3) W _ (by decide)) $$ HR Hc HO Hm Hat
  iintro ⟨HO, Hp⟩
  rw [wp_ret]; imodintro
  iapply Hk
  isplitl [HO]; · iexists _; iexact HO
  iframe

end Cert.KernelIdeal.A2A

end
-- ==== Proof.Part03.lean ====
import proofs.«900637_g7700000000000638_dist_a2a_v7x_xyz2x2x4_y_m1024_n512_f32_1_alg».proof.Proof.Steps

noncomputable section

namespace Cert.KernelIdeal.A2A

open Cert.KernelIdeal Cert.KernelIdeal.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

variable (X : XBuf (Elt F)) (K : Dev nD × Fin 38 → ℕ)

theorem part3_spec (c : Dev nD) (W : Waits sig Unit) (v2 v5 v8 v9 v44 v64 : BitVec 32)
    (Kt : (BitVec 32) → sProp 𝕄) :
    ⊢ recs X K
      -∗ levAts L lv
      -∗ owes (c : Thread nD τ) (owedAfter c 3) W
      -∗ xPt c (X c) (YS c 0) fullShare
      -∗ xPt c (X c) (YS c 1) fullShare
      -∗ Dy c 0
      -∗ Dy c 1
      -∗ tokD c (dj 0)
      -∗ tokD c (dj 1)
      -∗ tokD (yp c) (dj 4)
      -∗ tokD (yp c) (dj 5)
      -∗ (∀ ret, (∃ W', owes (c : Thread nD τ) (owedAfter c 5) W') ∗ crD c (dj 0) ∗ crD c (dj 1) -∗ Kt ret)
      -∗ wp frame (wpE (defs₀ (F := F)) 𝒱₀ (c : Thread nD τ) none) Set.univ (k0_part3 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12 c v2 v5 v8 v9 v44 v64) Kt := by
  rw [k0_part3_eq_skeleton]; unfold k0_part3_skel
  simp only [semSignalWord, semWaitWord, Prog.lift, Prog.bind_op, Prog.bind_ret, Prog.pure_eq_ret]
  iintro #HR #HL HO Hs0 Hs1 Hd0 Hd1 Ht0 Ht1 Hr0 Hr1 Hk
  iapply (ysend X K c _ (dev4_eq c) 0 0 (dj 0) (dj 4) 3 4 W) $$ HR Hs0 Hd0 HO Ht0 Hr0
  iintro ⟨Hc0, HO⟩
  iapply (ysend X K c _ (dev5_eq c) 1 1 (dj 1) (dj 5) 4 5 W) $$ HR Hs1 Hd1 HO Ht1 Hr1
  iintro ⟨Hc1, HO⟩
  rw [wp_ret]; imodintro
  iapply Hk
  isplitl [HO]; · iexists _; iexact HO
  iframe

end Cert.KernelIdeal.A2A

end
-- ==== Proof.Part04.lean ====
import proofs.«900637_g7700000000000638_dist_a2a_v7x_xyz2x2x4_y_m1024_n512_f32_1_alg».proof.Proof.Steps

noncomputable section

namespace Cert.KernelIdeal.A2A

open Cert.KernelIdeal Cert.KernelIdeal.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

variable (X : XBuf (Elt F)) (K : Dev nD × Fin 38 → ℕ)

theorem part4_spec (c : Dev nD) (W : Waits sig Unit) (v2 v5 v8 v9 v44 v100 : BitVec 32)
    (Kt : (Σ' (v134 : BitVec 32), BitVec 32) → sProp 𝕄) :
    ⊢ recs X K
      -∗ levAts L lv
      -∗ owes (c : Thread nD τ) (owedAfter c 5) W
      -∗ xPt c (X c) (YS c 2) fullShare
      -∗ xPt c (X c) (YS c 3) fullShare
      -∗ Dy c 2
      -∗ Dy c 3
      -∗ tokD c (dj 2)
      -∗ tokD c (dj 3)
      -∗ tokD (yp c) (dj 6)
      -∗ tokD (yp c) (dj 7)
      -∗ (∀ ret, (∃ W', owes (c : Thread nD τ) (owedAfter c 7) W') ∗ crD c (dj 2) ∗ crD c (dj 3) -∗ Kt ret)
      -∗ wp frame (wpE (defs₀ (F := F)) 𝒱₀ (c : Thread nD τ) none) Set.univ (k0_part4 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12 c v2 v5 v8 v9 v44 v100) Kt := by
  rw [k0_part4_eq_skeleton]; unfold k0_part4_skel
  simp only [semSignalWord, semWaitWord, Prog.lift, Prog.bind_op, Prog.bind_ret, Prog.pure_eq_ret]
  iintro #HR #HL HO Hs2 Hs3 Hd2 Hd3 Ht2 Ht3 Hr2 Hr3 Hk
  iapply (ysend X K c _ (dev6_eq c) 2 2 (dj 2) (dj 6) 5 6 W) $$ HR Hs2 Hd2 HO Ht2 Hr2
  iintro ⟨Hc2, HO⟩
  iapply (ysend X K c _ (dev7_eq c) 3 3 (dj 3) (dj 7) 6 7 W) $$ HR Hs3 Hd3 HO Ht3 Hr3
  iintro ⟨Hc3, HO⟩
  rw [wp_ret]; imodintro
  iapply Hk
  isplitl [HO]; · iexists _; iexact HO
  iframe

end Cert.KernelIdeal.A2A

end
-- ==== Proof.Part05.lean ====
import proofs.«900637_g7700000000000638_dist_a2a_v7x_xyz2x2x4_y_m1024_n512_f32_1_alg».proof.Proof.Steps

noncomputable section

namespace Cert.KernelIdeal.A2A

open Cert.KernelIdeal Cert.KernelIdeal.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

variable (X : XBuf (Elt F)) (K : Dev nD × Fin 38 → ℕ)

theorem part5_spec (c : Dev nD) (W : Waits sig Unit) (v2 v5 v8 v9 v134 c896 : BitVec 32)
    (Kt : (PUnit) → sProp 𝕄) :
    ⊢ recs X K
      -∗ levAts L lv
      -∗ owes (c : Thread nD τ) (owedAfter c 7) W
      -∗ xPt c (X c) (TS c 0) fullShare
      -∗ xPt c (X c) (TS c 1) fullShare
      -∗ Dt c 0
      -∗ Dt c 1
      -∗ tokD c (dj 8)
      -∗ tokD c (dj 9)
      -∗ tokD (yp c) (dj 10)
      -∗ tokD (yp c) (dj 11)
      -∗ ((∃ W', owes (c : Thread nD τ) (owedAfter c 9) W') ∗ crD c (dj 8) ∗ crD c (dj 9) -∗ Kt ⟨⟩)
      -∗ wp frame (wpE (defs₀ (F := F)) 𝒱₀ (c : Thread nD τ) none) Set.univ (k0_part5 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12 c v2 v5 v8 v9 v134 c896) Kt := by
  rw [k0_part5_eq_skeleton]; unfold k0_part5_skel
  simp only [semSignalWord, semWaitWord, Prog.lift, Prog.bind_op, Prog.bind_ret, Prog.pure_eq_ret]
  iintro #HR #HL HO Hs0 Hs1 ⟨%fd0, Hd0⟩ ⟨%fd1, Hd1⟩ Ht0 Ht1 Hr0 Hr1 Hk
  iapply (send_step X K c (yp c) _ (dev8_eq c) (src := tSrc0 c) (dst := tDst c 0) (dj 8) (dj 10) N64 rfl rfl rfl fullShare (X c) fd0
      (Entails.of_eq (pt_tSrc0 c c fullShare (X c)))
      (Entails.of_eq ((pt_tDst c (yp c) fullShare 0 _).trans (pointsTo_congr (land_t0 X c fd0)))) (owedAfter c 8) W) $$ HR [Hs0] [Hd0] [HO] Ht0 Hr0
  · iapply (Entails.of_eq (pt_tSrc0 c c fullShare (X c)).symm); iexact Hs0
  · iapply (Entails.of_eq (pt_tDst c (yp c) fullShare 0 fd0).symm); iexact Hd0
  · iexact HO
  iintro ⟨Hc0, HO⟩
  iapply (send_step X K c (yp c) _ (dev9_eq c) (src := tSrc1 c) (dst := tDst c 1) (dj 9) (dj 11) N64 rfl rfl rfl fullShare (X c) fd1
      (Entails.of_eq (pt_tSrc1 c c fullShare (X c)))
      (Entails.of_eq ((pt_tDst c (yp c) fullShare 1 _).trans (pointsTo_congr (land_t1 X c fd1)))) (owedAfter c 9) W) $$ HR [Hs1] [Hd1] [HO] Ht1 Hr1
  · iapply (Entails.of_eq (pt_tSrc1 c c fullShare (X c)).symm); iexact Hs1
  · iapply (Entails.of_eq (pt_tDst c (yp c) fullShare 1 fd1).symm); iexact Hd1
  · iexact HO
  iintro ⟨Hc1, HO⟩
  rw [wp_ret]; imodintro
  iapply Hk
  isplitl [HO]; · iexists _; iexact HO
  isplitl [Hc0]; · iexact Hc0
  iexact Hc1

end Cert.KernelIdeal.A2A

end
-- ==== Proof.Part06.lean ====
import proofs.«900637_g7700000000000638_dist_a2a_v7x_xyz2x2x4_y_m1024_n512_f32_1_alg».proof.Proof.Steps

noncomputable section

namespace Cert.KernelIdeal.A2A

open Cert.KernelIdeal Cert.KernelIdeal.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

variable (X : XBuf (Elt F)) (K : Dev nD × Fin 38 → ℕ)

theorem part6_spec (c : Dev nD) (W : Waits sig Unit) (v2 v5 v8 v9 v10 v23 v52 : BitVec 32)
    (Kt : (PUnit) → sProp 𝕄) :
    ⊢ recs X K
      -∗ levAts L lv
      -∗ owes (c : Thread nD τ) (owedAfter c 9) W
      -∗ xPt c (X c) (LS c) fullShare
      -∗ oAny c (LR c)
      -∗ tokD c (dj 36)
      -∗ crD c (dj 4)
      -∗ pos0 c (dj 4)
      -∗ Dx c 0
      -∗ tokD c (dj 12)
      -∗ tokD (xp c) (dj 16)
      -∗ ((∃ W', owes (c : Thread nD τ) (owedAfter c 10) W') ∗ crD c (dj 36) ∗ pos1 c (dj 4) ∗ crD c (dj 12) ∗ oPt c (QR c (qme c) 0) fullShare.right (outF X c) -∗ Kt ⟨⟩)
      -∗ wp frame (wpE (defs₀ (F := F)) 𝒱₀ (c : Thread nD τ) none) Set.univ (k0_part6 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12 c v2 v5 v8 v9 v10 v23 v52) Kt := by
  rw [k0_part6_eq_skeleton]; unfold k0_part6_skel
  simp only [semSignalWord, semWaitWord, Prog.lift, Prog.bind_op, Prog.bind_ret, Prog.pure_eq_ret]
  iintro #HR #HL HO Hxs ⟨%fl, Hld⟩ Ht36 Hc4 Hp4 Hdx Ht12 Ht16 Hk
  iapply (copy_step X K c (src := lSrc c) (dst := lDst c) (dj 36) NL rfl rfl fullShare (X c) fl
      (BIClass.sep_mono (Entails.of_eq ((pt_lDst c c fullShare _).trans (pointsTo_congr (land_l X c fl))))
        (Entails.of_eq (pt_lSrc c c fullShare (X c))))) $$ HR [Hxs] [Hld] Ht36
  · iapply (Entails.of_eq (pt_lSrc c c fullShare (X c)).symm); iexact Hxs
  · iapply (Entails.of_eq (pt_lDst c c fullShare fl).symm); iexact Hld
  iintro Hc36
  iapply (wait_lv X K c (dj 4) 9 (src := ySrc c 0) (dst := yDst c 0) (oPt c (QR c (qme c) 0) fullShare (outF X c)) W) $$ HR HL Hc4 HO Hp4
  iintro ⟨HO, Hp4, Hy⟩
  ihave Hy := (oPt_halves c (QR c (qme c) 0) (outF X c)).1 $$ Hy
  icases Hy with ⟨Hyl, Hyr⟩
  iapply (osend X K c (xp c) _ (dev10_eq c) (QR c (qme c) 0) (fun p' q g => pt_fw c p' q 0 g)
      (land_xq X c 0 (outF X c) (fun _ _ => rfl)) (dj 12) (dj 16) fullShare.left
      _ (QR_xp c _ _) (by rw [← qxp_xp c, ← QR_xp c]; rfl) 9 10 _) $$ HR Hyl Hdx HO Ht12 Ht16
  iintro ⟨Hc12, HO⟩
  rw [wp_ret]; imodintro
  iapply Hk
  isplitl [HO]; · iexists _; iexact HO
  isplitl [Hc36]; · iexact Hc36
  iframe

end Cert.KernelIdeal.A2A

end
-- ==== Proof.Part07.lean ====
import proofs.«900637_g7700000000000638_dist_a2a_v7x_xyz2x2x4_y_m1024_n512_f32_1_alg».proof.Proof.Steps

noncomputable section

namespace Cert.KernelIdeal.A2A

open Cert.KernelIdeal Cert.KernelIdeal.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

variable (X : XBuf (Elt F)) (K : Dev nD × Fin 38 → ℕ)

theorem part7_spec (c : Dev nD) (W : Waits sig Unit) (v2 v5 v8 v9 v10 v52 : BitVec 32)
    (Kt : (Σ' (v232 : BitVec 32), BitVec 32) → sProp 𝕄) :
    ⊢ recs X K
      -∗ levAts L lv
      -∗ owes (c : Thread nD τ) (owedAfter c 10) W
      -∗ oPt c (QR c (qme c) 0) fullShare.right (outF X c)
      -∗ Dz c 0
      -∗ tokD c (dj 20)
      -∗ tokD (zp c) (dj 24)
      -∗ crD c (dj 5)
      -∗ pos0 c (dj 5)
      -∗ Dx c 1
      -∗ tokD c (dj 13)
      -∗ tokD (xp c) (dj 17)
      -∗ (∀ ret, (∃ W', owes (c : Thread nD τ) (owedAfter c 12) W') ∗ crD c (dj 20) ∗ pos1 c (dj 5) ∗ crD c (dj 13) ∗ oPt c (QR c (qme c) 1) fullShare.right (outF X c) -∗ Kt ret)
      -∗ wp frame (wpE (defs₀ (F := F)) 𝒱₀ (c : Thread nD τ) none) Set.univ (k0_part7 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12 c v2 v5 v8 v9 v10 v52) Kt := by
  rw [k0_part7_eq_skeleton]; unfold k0_part7_skel
  simp only [semSignalWord, semWaitWord, Prog.lift, Prog.bind_op, Prog.bind_ret, Prog.pure_eq_ret]
  iintro #HR #HL HO Hq Hdz Ht20 Ht24 Hc5 Hp5 Hdx Ht13 Ht17 Hk
  iapply (osend X K c (zp c) _ (dev11_eq c) (QR c (qme c) 0) (fun p' q g => pt_fw c p' q 0 g)
      (land_zq X c 0 (outF X c) (fun _ _ => rfl)) (dj 20) (dj 24) fullShare.right
      _ (QR_zp c _ _) (by rw [← qzp_zp c, ← QR_zp c]; rfl) 10 11 W) $$ HR Hq Hdz HO Ht20 Ht24
  iintro ⟨Hc20, HO⟩
  iapply (wait_lv X K c (dj 5) 11 (src := ySrc c 1) (dst := yDst c 1) (oPt c (QR c (qme c) 1) fullShare (outF X c)) W) $$ HR HL Hc5 HO Hp5
  iintro ⟨HO, Hp5, Hy⟩
  ihave Hy := (oPt_halves c (QR c (qme c) 1) (outF X c)).1 $$ Hy
  icases Hy with ⟨Hyl, Hyr⟩
  iapply (osend X K c (xp c) _ (dev12_eq c) (QR c (qme c) 1) (fun p' q g => pt_fw c p' q 1 g)
      (land_xq X c 1 (outF X c) (fun _ _ => rfl)) (dj 13) (dj 17) fullShare.left
      _ (QR_xp c _ _) (by rw [← qxp_xp c, ← QR_xp c]; rfl) 11 12 _) $$ HR Hyl Hdx HO Ht13 Ht17
  iintro ⟨Hc13, HO⟩
  rw [wp_ret]; imodintro
  iapply Hk
  isplitl [HO]; · iexists _; iexact HO
  iframe

end Cert.KernelIdeal.A2A

end
-- ==== Proof.Part08.lean ====
import proofs.«900637_g7700000000000638_dist_a2a_v7x_xyz2x2x4_y_m1024_n512_f32_1_alg».proof.Proof.Steps

noncomputable section

namespace Cert.KernelIdeal.A2A

open Cert.KernelIdeal Cert.KernelIdeal.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

variable (X : XBuf (Elt F)) (K : Dev nD × Fin 38 → ℕ)

theorem part8_spec (c : Dev nD) (W : Waits sig Unit) (v2 v5 v8 v9 v10 v23 v52 v232 c4 : BitVec 32)
    (Kt : (PUnit) → sProp 𝕄) :
    ⊢ recs X K
      -∗ levAts L lv
      -∗ owes (c : Thread nD τ) (owedAfter c 12) W
      -∗ oPt c (QR c (qme c) 1) fullShare.right (outF X c)
      -∗ Dz c 1
      -∗ tokD c (dj 21)
      -∗ tokD (zp c) (dj 25)
      -∗ crD c (dj 6)
      -∗ pos0 c (dj 6)
      -∗ Dx c 2
      -∗ tokD c (dj 14)
      -∗ tokD (xp c) (dj 18)
      -∗ ((∃ W', owes (c : Thread nD τ) (owedAfter c 14) W') ∗ crD c (dj 21) ∗ pos1 c (dj 6) ∗ crD c (dj 14) ∗ oPt c (QR c (qme c) 2) fullShare.right (outF X c) -∗ Kt ⟨⟩)
      -∗ wp frame (wpE (defs₀ (F := F)) 𝒱₀ (c : Thread nD τ) none) Set.univ (k0_part8 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12 c v2 v5 v8 v9 v10 v23 v52 v232 c4) Kt := by
  rw [k0_part8_eq_skeleton]; unfold k0_part8_skel
  simp only [semSignalWord, semWaitWord, Prog.lift, Prog.bind_op, Prog.bind_ret, Prog.pure_eq_ret]
  iintro #HR #HL HO Hq Hdz Ht21 Ht25 Hc6 Hp6 Hdx Ht14 Ht18 Hk
  iapply (osend X K c (zp c) _ (dev13_eq c) (QR c (qme c) 1) (fun p' q g => pt_fw c p' q 1 g)
      (land_zq X c 1 (outF X c) (fun _ _ => rfl)) (dj 21) (dj 25) fullShare.right
      _ (QR_zp c _ _) (by rw [← qzp_zp c, ← QR_zp c]; rfl) 12 13 W) $$ HR Hq Hdz HO Ht21 Ht25
  iintro ⟨Hc21, HO⟩
  iapply (wait_lv X K c (dj 6) 13 (src := ySrc c 2) (dst := yDst c 2) (oPt c (QR c (qme c) 2) fullShare (outF X c)) W) $$ HR HL Hc6 HO Hp6
  iintro ⟨HO, Hp6, Hy⟩
  ihave Hy := (oPt_halves c (QR c (qme c) 2) (outF X c)).1 $$ Hy
  icases Hy with ⟨Hyl, Hyr⟩
  iapply (osend X K c (xp c) _ (dev14_eq c) (QR c (qme c) 2) (fun p' q g => pt_fw c p' q 2 g)
      (land_xq X c 2 (outF X c) (fun _ _ => rfl)) (dj 14) (dj 18) fullShare.left
      _ (QR_xp c _ _) (by rw [← qxp_xp c, ← QR_xp c]; rfl) 13 14 _) $$ HR Hyl Hdx HO Ht14 Ht18
  iintro ⟨Hc14, HO⟩
  rw [wp_ret]; imodintro
  iapply Hk
  isplitl [HO]; · iexists _; iexact HO
  iframe

end Cert.KernelIdeal.A2A

end
-- ==== Proof.Part09.lean ====
import proofs.«900637_g7700000000000638_dist_a2a_v7x_xyz2x2x4_y_m1024_n512_f32_1_alg».proof.Proof.Steps

noncomputable section

namespace Cert.KernelIdeal.A2A

open Cert.KernelIdeal Cert.KernelIdeal.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

variable (X : XBuf (Elt F)) (K : Dev nD × Fin 38 → ℕ)

theorem part9_spec (c : Dev nD) (W : Waits sig Unit) (v2 v5 v8 v9 v10 v23 v52 : BitVec 32)
    (Kt : (PUnit) → sProp 𝕄) :
    ⊢ recs X K
      -∗ levAts L lv
      -∗ owes (c : Thread nD τ) (owedAfter c 14) W
      -∗ oPt c (QR c (qme c) 2) fullShare.right (outF X c)
      -∗ Dz c 2
      -∗ tokD c (dj 22)
      -∗ tokD (zp c) (dj 26)
      -∗ crD c (dj 7)
      -∗ pos0 c (dj 7)
      -∗ ((∃ W', owes (c : Thread nD τ) (owedAfter c 15) W') ∗ crD c (dj 22) ∗ pos1 c (dj 7) ∗ oPt c (QR c (qme c) 3) fullShare (outF X c) -∗ Kt ⟨⟩)
      -∗ wp frame (wpE (defs₀ (F := F)) 𝒱₀ (c : Thread nD τ) none) Set.univ (k0_part9 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12 c v2 v5 v8 v9 v10 v23 v52) Kt := by
  rw [k0_part9_eq_skeleton]; unfold k0_part9_skel
  simp only [semSignalWord, semWaitWord, Prog.lift, Prog.bind_op, Prog.bind_ret, Prog.pure_eq_ret]
  iintro #HR #HL HO Hq Hdz Ht22 Ht26 Hc7 Hp7 Hk
  iapply (osend X K c (zp c) _ (dev15_eq c) (QR c (qme c) 2) (fun p' q g => pt_fw c p' q 2 g)
      (land_zq X c 2 (outF X c) (fun _ _ => rfl)) (dj 22) (dj 26) fullShare.right
      _ (QR_zp c _ _) (by rw [← qzp_zp c, ← QR_zp c]; rfl) 14 15 W) $$ HR Hq Hdz HO Ht22 Ht26
  iintro ⟨Hc22, HO⟩
  iapply (wait_lv X K c (dj 7) 15 (src := ySrc c 3) (dst := yDst c 3) (oPt c (QR c (qme c) 3) fullShare (outF X c)) W) $$ HR HL Hc7 HO Hp7
  iintro ⟨HO, Hp7, Hy⟩
  rw [wp_ret]; imodintro
  iapply Hk
  isplitl [HO]; · iexists _; iexact HO
  iframe

end Cert.KernelIdeal.A2A

end
-- ==== Proof.Part10.lean ====
import proofs.«900637_g7700000000000638_dist_a2a_v7x_xyz2x2x4_y_m1024_n512_f32_1_alg».proof.Proof.Steps

noncomputable section

namespace Cert.KernelIdeal.A2A

open Cert.KernelIdeal Cert.KernelIdeal.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

variable (X : XBuf (Elt F)) (K : Dev nD × Fin 38 → ℕ)

theorem part10_spec (c : Dev nD) (W : Waits sig Unit) (v2 v5 v8 v10 v23 v52 v54 : BitVec 32)
    (Kt : (Σ' (v332 : BitVec 32), BitVec 32) → sProp 𝕄) :
    ⊢ recs X K
      -∗ levAts L lv
      -∗ owes (c : Thread nD τ) (owedAfter c 15) W
      -∗ oPt c (QR c (qme c) 3) fullShare (outF X c)
      -∗ Dx c 3
      -∗ tokD c (dj 15)
      -∗ tokD (xp c) (dj 19)
      -∗ Dz c 3
      -∗ tokD c (dj 23)
      -∗ tokD (zp c) (dj 27)
      -∗ crD c (dj 16)
      -∗ pos0 c (dj 16)
      -∗ (∀ ret, (∃ W', owes (c : Thread nD τ) (owedAfter c 17) W') ∗ crD c (dj 15) ∗ crD c (dj 23) ∗ pos1 c (dj 16) ∗ oPt c (QR c (qxp c) 0) fullShare (outF X c) -∗ Kt ret)
      -∗ wp frame (wpE (defs₀ (F := F)) 𝒱₀ (c : Thread nD τ) none) Set.univ (k0_part10 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12 c v2 v5 v8 v10 v23 v52 v54) Kt := by
  rw [k0_part10_eq_skeleton]; unfold k0_part10_skel
  simp only [semSignalWord, semWaitWord, Prog.lift, Prog.bind_op, Prog.bind_ret, Prog.pure_eq_ret]
  iintro #HR #HL HO Hq Hdx Ht15 Ht19 Hdz Ht23 Ht27 Hc16 Hp16 Hk
  ihave Hq := (oPt_halves c (QR c (qme c) 3) (outF X c)).1 $$ Hq
  icases Hq with ⟨Hql, Hqr⟩
  iapply (osend X K c (xp c) _ (dev16_eq c) (QR c (qme c) 3) (fun p' q g => pt_fw c p' q 3 g)
      (land_xq X c 3 (outF X c) (fun _ _ => rfl)) (dj 15) (dj 19) fullShare.left
      _ (QR_xp c _ _) (by rw [← qxp_xp c, ← QR_xp c]; rfl) 15 16 W) $$ HR Hql Hdx HO Ht15 Ht19
  iintro ⟨Hc15, HO⟩
  iapply (osend X K c (zp c) _ (dev17_eq c) (QR c (qme c) 3) (fun p' q g => pt_fw c p' q 3 g)
      (land_zq X c 3 (outF X c) (fun _ _ => rfl)) (dj 23) (dj 27) fullShare.right
      _ (QR_zp c _ _) (by rw [← qzp_zp c, ← QR_zp c]; rfl) 16 17 W) $$ HR Hqr Hdz HO Ht23 Ht27
  iintro ⟨Hc23, HO⟩
  iapply (wait_lv X K c (dj 16) 17 (src := fw c 0) (dst := fw c 0) (oPt c (QR c (qxp c) 0) fullShare (outF X c)) W) $$ HR HL Hc16 HO Hp16
  iintro ⟨HO, Hp16, Ha⟩
  rw [wp_ret]; imodintro
  iapply Hk
  isplitl [HO]; · iexists _; iexact HO
  iframe

end Cert.KernelIdeal.A2A

end
-- ==== Proof.Part11.lean ====
import proofs.«900637_g7700000000000638_dist_a2a_v7x_xyz2x2x4_y_m1024_n512_f32_1_alg».proof.Proof.Steps

noncomputable section

namespace Cert.KernelIdeal.A2A

open Cert.KernelIdeal Cert.KernelIdeal.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

variable (X : XBuf (Elt F)) (K : Dev nD × Fin 38 → ℕ)

theorem part11_spec (c : Dev nD) (W : Waits sig Unit) (v2 v5 v8 v10 v23 v54 v332 v333 : BitVec 32)
    (Kt : (BitVec 32) → sProp 𝕄) :
    ⊢ recs X K
      -∗ levAts L lv
      -∗ owes (c : Thread nD τ) (owedAfter c 17) W
      -∗ oPt c (QR c (qxp c) 0) fullShare (outF X c)
      -∗ Dfa c 0
      -∗ tokD c (dj 28)
      -∗ tokD (zp c) (dj 30)
      -∗ crD c (dj 17)
      -∗ pos0 c (dj 17)
      -∗ Dfa c 1
      -∗ tokD c (dj 29)
      -∗ tokD (zp c) (dj 31)
      -∗ (∀ ret, (∃ W', owes (c : Thread nD τ) (owedAfter c 19) W') ∗ crD c (dj 28) ∗ pos1 c (dj 17) ∗ crD c (dj 29) -∗ Kt ret)
      -∗ wp frame (wpE (defs₀ (F := F)) 𝒱₀ (c : Thread nD τ) none) Set.univ (k0_part11 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12 c v2 v5 v8 v10 v23 v54 v332 v333) Kt := by
  rw [k0_part11_eq_skeleton]; unfold k0_part11_skel
  simp only [semSignalWord, semWaitWord, Prog.lift, Prog.bind_op, Prog.bind_ret, Prog.pure_eq_ret]
  iintro #HR #HL HO Hq Hda Ht28 Ht30 Hc17 Hp17 Hdb Ht29 Ht31 Hk
  iapply (osend X K c (zp c) _ (dev18_eq c) (QR c (qxp c) 0) (fun p' q g => pt_fa c p' q 0 g)
      (land_fa X c 0 (outF X c) (fun _ _ => rfl)) (dj 28) (dj 30) fullShare
      _ (QR_zp c _ _) (by rw [← q4_zp c, ← QR_zp c]; rfl) 17 18 W) $$ HR Hq Hda HO Ht28 Ht30
  iintro ⟨Hc28, HO⟩
  iapply (wait_lv X K c (dj 17) 18 (src := fw c 1) (dst := fw c 1) (oPt c (QR c (qxp c) 1) fullShare (outF X c)) W) $$ HR HL Hc17 HO Hp17
  iintro ⟨HO, Hp17, Hq⟩
  iapply (osend X K c (zp c) _ (dev19_eq c) (QR c (qxp c) 1) (fun p' q g => pt_fa c p' q 1 g)
      (land_fa X c 1 (outF X c) (fun _ _ => rfl)) (dj 29) (dj 31) fullShare
      _ (QR_zp c _ _) (by rw [← q4_zp c, ← QR_zp c]; rfl) 18 19 _) $$ HR Hq Hdb HO Ht29 Ht31
  iintro ⟨Hc29, HO⟩
  rw [wp_ret]; imodintro
  iapply Hk
  isplitl [HO]; · iexists _; iexact HO
  iframe

end Cert.KernelIdeal.A2A

end
-- ==== Proof.Part12.lean ====
import proofs.«900637_g7700000000000638_dist_a2a_v7x_xyz2x2x4_y_m1024_n512_f32_1_alg».proof.Proof.Steps

noncomputable section

namespace Cert.KernelIdeal.A2A

open Cert.KernelIdeal Cert.KernelIdeal.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

variable (X : XBuf (Elt F)) (K : Dev nD × Fin 38 → ℕ)

theorem part12_spec (c : Dev nD) (W : Waits sig Unit) (v2 v5 v8 v10 v23 v56 v366 : BitVec 32)
    (Kt : (PUnit) → sProp 𝕄) :
    ⊢ recs X K
      -∗ levAts L lv
      -∗ owes (c : Thread nD τ) (owedAfter c 19) W
      -∗ crD c (dj 26)
      -∗ pos0 c (dj 26)
      -∗ Dfb c 0
      -∗ tokD c (dj 32)
      -∗ tokD (xp c) (dj 34)
      -∗ ((∃ W', owes (c : Thread nD τ) (owedAfter c 20) W') ∗ pos1 c (dj 26) ∗ crD c (dj 32) -∗ Kt ⟨⟩)
      -∗ wp frame (wpE (defs₀ (F := F)) 𝒱₀ (c : Thread nD τ) none) Set.univ (k0_part12 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12 c v2 v5 v8 v10 v23 v56 v366) Kt := by
  rw [k0_part12_eq_skeleton]; unfold k0_part12_skel
  simp only [semSignalWord, semWaitWord, Prog.lift, Prog.bind_op, Prog.bind_ret, Prog.pure_eq_ret]
  iintro #HR #HL HO Hc26 Hp26 Hdb Ht32 Ht34 Hk
  iapply (wait_lv X K c (dj 26) 19 (src := fw c 2) (dst := fw c 2) (oPt c (QR c (qzp c) (2 + 0)) fullShare (outF X c)) W) $$ HR HL Hc26 HO Hp26
  iintro ⟨HO, Hp26, Hq⟩
  iapply (osend X K c (xp c) _ (dev20_eq c) (QR c (qzp c) (2 + 0)) (fun p' q g => pt_fb c p' q 0 g)
      (land_fb X c 0 (outF X c) (fun _ _ => rfl)) (dj 32) (dj 34) fullShare
      _ (QR_xp c _ _) (by rw [← q4_xp c, ← QR_xp c]; rfl) 19 20 _) $$ HR Hq Hdb HO Ht32 Ht34
  iintro ⟨Hc32, HO⟩
  rw [wp_ret]; imodintro
  iapply Hk
  isplitl [HO]; · iexists _; iexact HO
  iframe

end Cert.KernelIdeal.A2A

end
-- ==== Proof.Part13.lean ====
import proofs.«900637_g7700000000000638_dist_a2a_v7x_xyz2x2x4_y_m1024_n512_f32_1_alg».proof.Proof.Steps

noncomputable section

namespace Cert.KernelIdeal.A2A

open Cert.KernelIdeal Cert.KernelIdeal.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

variable (X : XBuf (Elt F)) (K : Dev nD × Fin 38 → ℕ)

theorem part13_spec (c : Dev nD) (W : Waits sig Unit) (v5 v8 v10 v56 : BitVec 32)
    (Kt : (Σ' (v430 : BitVec 32), BitVec 32) → sProp 𝕄) :
    ⊢ recs X K
      -∗ levAts L lv
      -∗ owes (c : Thread nD τ) (owedAfter c 20) W
      -∗ crD c (dj 27)
      -∗ pos0 c (dj 27)
      -∗ Dfb c 1
      -∗ tokD c (dj 33)
      -∗ tokD (xp c) (dj 35)
      -∗ crD c (dj 18)
      -∗ pos0 c (dj 18)
      -∗ (∀ ret, (∃ W', owes (c : Thread nD τ) (owedAfter c 21) W') ∗ pos1 c (dj 27) ∗ crD c (dj 33) ∗ pos1 c (dj 18) ∗ oPt c (QR c (qxp c) 2) fullShare (outF X c) -∗ Kt ret)
      -∗ wp frame (wpE (defs₀ (F := F)) 𝒱₀ (c : Thread nD τ) none) Set.univ (k0_part13 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12 c v5 v8 v10 v56) Kt := by
  rw [k0_part13_eq_skeleton]; unfold k0_part13_skel
  simp only [semSignalWord, semWaitWord, Prog.lift, Prog.bind_op, Prog.bind_ret, Prog.pure_eq_ret]
  iintro #HR #HL HO Hc27 Hp27 Hdb Ht33 Ht35 Hc18 Hp18 Hk
  iapply (wait_lv X K c (dj 27) 20 (src := fw c 3) (dst := fw c 3) (oPt c (QR c (qzp c) (2 + 1)) fullShare (outF X c)) W) $$ HR HL Hc27 HO Hp27
  iintro ⟨HO, Hp27, Hq⟩
  iapply (osend X K c (xp c) _ (dev21_eq c) (QR c (qzp c) (2 + 1)) (fun p' q g => pt_fb c p' q 1 g)
      (land_fb X c 1 (outF X c) (fun _ _ => rfl)) (dj 33) (dj 35) fullShare
      _ (QR_xp c _ _) (by rw [← q4_xp c, ← QR_xp c]; rfl) 20 21 _) $$ HR Hq Hdb HO Ht33 Ht35
  iintro ⟨Hc33, HO⟩
  iapply (wait_lv X K c (dj 18) 21 (src := fw c 2) (dst := fw c 2) (oPt c (QR c (qxp c) 2) fullShare (outF X c)) _) $$ HR HL Hc18 HO Hp18
  iintro ⟨HO, Hp18, Ha⟩
  rw [wp_ret]; imodintro
  iapply Hk
  isplitl [HO]; · iexists _; iexact HO
  iframe

end Cert.KernelIdeal.A2A

end
-- ==== Proof.Part14.lean ====
import proofs.«900637_g7700000000000638_dist_a2a_v7x_xyz2x2x4_y_m1024_n512_f32_1_alg».proof.Proof.Steps

noncomputable section

namespace Cert.KernelIdeal.A2A

open Cert.KernelIdeal Cert.KernelIdeal.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

variable (X : XBuf (Elt F)) (K : Dev nD × Fin 38 → ℕ)

theorem part14_spec (c : Dev nD) (W : Waits sig Unit) (v2 v5 v23 v430 v431 : BitVec 32)
    (Kt : (PUnit) → sProp 𝕄) :
    ⊢ recs X K
      -∗ levAts L lv
      -∗ owes (c : Thread nD τ) (owedAfter c 21) W
      -∗ crD c (dj 19)
      -∗ pos0 c (dj 19)
      -∗ crD c (dj 24)
      -∗ pos0 c (dj 24)
      -∗ crD c (dj 25)
      -∗ pos0 c (dj 25)
      -∗ ((∃ W', owes (c : Thread nD τ) (owedAfter c 21) W') ∗ pos1 c (dj 19) ∗ pos1 c (dj 24) ∗ pos1 c (dj 25) ∗ oPt c (QR c (qxp c) 3) fullShare (outF X c) ∗ oPt c (QR c (qzp c) 0) fullShare (outF X c) ∗ oPt c (QR c (qzp c) 1) fullShare (outF X c) -∗ Kt ⟨⟩)
      -∗ wp frame (wpE (defs₀ (F := F)) 𝒱₀ (c : Thread nD τ) none) Set.univ (k0_part14 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12 c v2 v5 v23 v430 v431) Kt := by
  rw [k0_part14_eq_skeleton]; unfold k0_part14_skel
  simp only [semSignalWord, semWaitWord, Prog.lift, Prog.bind_op, Prog.bind_ret, Prog.pure_eq_ret]
  iintro #HR #HL HO Hc19 Hp19 Hc24 Hp24 Hc25 Hp25 Hk
  iapply (wait_lv X K c (dj 19) 21 (src := fw c 3) (dst := fw c 3) (oPt c (QR c (qxp c) 3) fullShare (outF X c)) _) $$ HR HL Hc19 HO Hp19
  iintro ⟨HO, Hp19, Hd19⟩
  iapply (wait_lv X K c (dj 24) 21 (src := fw c 0) (dst := fw c 0) (oPt c (QR c (qzp c) 0) fullShare (outF X c)) _) $$ HR HL Hc24 HO Hp24
  iintro ⟨HO, Hp24, Hd24⟩
  iapply (wait_lv X K c (dj 25) 21 (src := fw c 1) (dst := fw c 1) (oPt c (QR c (qzp c) 1) fullShare (outF X c)) _) $$ HR HL Hc25 HO Hp25
  iintro ⟨HO, Hp25, Hd25⟩
  rw [wp_ret]; imodintro
  iapply Hk
  isplitl [HO]; · iexists _; iexact HO
  iframe

end Cert.KernelIdeal.A2A

end
-- ==== Proof.Part15.lean ====
import proofs.«900637_g7700000000000638_dist_a2a_v7x_xyz2x2x4_y_m1024_n512_f32_1_alg».proof.Proof.Steps

noncomputable section

namespace Cert.KernelIdeal.A2A

open Cert.KernelIdeal Cert.KernelIdeal.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

variable (X : XBuf (Elt F)) (K : Dev nD × Fin 38 → ℕ)

theorem part15_spec (c : Dev nD) (W : Waits sig Unit) (v2 v5 v8 v10 v23 : BitVec 32)
    (Kt : (PUnit) → sProp 𝕄) :
    ⊢ recs X K
      -∗ levAts L lv
      -∗ owes (c : Thread nD τ) (owedAfter c 21) W
      -∗ crD c (dj 30)
      -∗ pos0 c (dj 30)
      -∗ crD c (dj 34)
      -∗ pos0 c (dj 34)
      -∗ crD c (dj 31)
      -∗ pos0 c (dj 31)
      -∗ ((∃ W', owes (c : Thread nD τ) (owedAfter c 21) W') ∗ pos1 c (dj 30) ∗ pos1 c (dj 34) ∗ pos1 c (dj 31) ∗ oPt c (QR c (q4 c) 0) fullShare (outF X c) ∗ oPt c (QR c (q4 c) 2) fullShare (outF X c) ∗ oPt c (QR c (q4 c) 1) fullShare (outF X c) -∗ Kt ⟨⟩)
      -∗ wp frame (wpE (defs₀ (F := F)) 𝒱₀ (c : Thread nD τ) none) Set.univ (k0_part15 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12 c v2 v5 v8 v10 v23) Kt := by
  rw [k0_part15_eq_skeleton]; unfold k0_part15_skel
  simp only [semSignalWord, semWaitWord, Prog.lift, Prog.bind_op, Prog.bind_ret, Prog.pure_eq_ret]
  iintro #HR #HL HO Hc30 Hp30 Hc34 Hp34 Hc31 Hp31 Hk
  iapply (wait_lv X K c (dj 30) 21 (src := fa c 0) (dst := fa c 0) (oPt c (QR c (q4 c) 0) fullShare (outF X c)) _) $$ HR HL Hc30 HO Hp30
  iintro ⟨HO, Hp30, Hd30⟩
  iapply (wait_lv X K c (dj 34) 21 (src := fb c 0) (dst := fb c 0) (oPt c (QR c (q4 c) 2) fullShare (outF X c)) _) $$ HR HL Hc34 HO Hp34
  iintro ⟨HO, Hp34, Hd34⟩
  iapply (wait_lv X K c (dj 31) 21 (src := fa c 1) (dst := fa c 1) (oPt c (QR c (q4 c) 1) fullShare (outF X c)) _) $$ HR HL Hc31 HO Hp31
  iintro ⟨HO, Hp31, Hd31⟩
  rw [wp_ret]; imodintro
  iapply Hk
  isplitl [HO]; · iexists _; iexact HO
  iframe

end Cert.KernelIdeal.A2A

end
-- ==== Proof.Part16.lean ====
import proofs.«900637_g7700000000000638_dist_a2a_v7x_xyz2x2x4_y_m1024_n512_f32_1_alg».proof.Proof.Steps

noncomputable section

namespace Cert.KernelIdeal.A2A

open Cert.KernelIdeal Cert.KernelIdeal.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

variable (X : XBuf (Elt F)) (K : Dev nD × Fin 38 → ℕ)

theorem part16_spec (c : Dev nD) (W : Waits sig Unit) (v2 v8 v9 : BitVec 32)
    (Kt : (PUnit) → sProp 𝕄) :
    ⊢ recs X K
      -∗ levAts L lv
      -∗ owes (c : Thread nD τ) (owedAfter c 21) W
      -∗ crD c (dj 35)
      -∗ pos0 c (dj 35)
      -∗ crD c (dj 10)
      -∗ pos0 c (dj 10)
      -∗ crD c (dj 8)
      -∗ pos0 c (dj 8)
      -∗ crD c (dj 11)
      -∗ pos0 c (dj 11)
      -∗ crD c (dj 9)
      -∗ pos0 c (dj 9)
      -∗ ((∃ W', owes (c : Thread nD τ) (owedAfter c 21) W') ∗ pos1 c (dj 35) ∗ pos1 c (dj 10) ∗ pos1 c (dj 8) ∗ pos1 c (dj 11) ∗ pos1 c (dj 9) ∗ oPt c (QR c (q4 c) 3) fullShare (outF X c) ∗ oPt c (TR c 0) fullShare (outF X c) ∗ xPt c (X c) (TS c 0) fullShare ∗ oPt c (TR c 1) fullShare (outF X c) ∗ xPt c (X c) (TS c 1) fullShare -∗ Kt ⟨⟩)
      -∗ wp frame (wpE (defs₀ (F := F)) 𝒱₀ (c : Thread nD τ) none) Set.univ (k0_part16 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12 c v2 v8 v9) Kt := by
  rw [k0_part16_eq_skeleton]; unfold k0_part16_skel
  simp only [semSignalWord, semWaitWord, Prog.lift, Prog.bind_op, Prog.bind_ret, Prog.pure_eq_ret]
  iintro #HR #HL HO Hc35 Hp35 Hc10 Hp10 Hc8 Hp8 Hc11 Hp11 Hc9 Hp9 Hk
  iapply (wait_lv X K c (dj 35) 21 (src := fb c 1) (dst := fb c 1) (oPt c (QR c (q4 c) 3) fullShare (outF X c)) _) $$ HR HL Hc35 HO Hp35
  iintro ⟨HO, Hp35, Hd35⟩
  iapply (wait_lv X K c (dj 10) 21 (src := tSrc0 c) (dst := tDst c 0) (oPt c (TR c 0) fullShare (outF X c)) _) $$ HR HL Hc10 HO Hp10
  iintro ⟨HO, Hp10, Hd10⟩
  iapply (wait_lv X K c (dj 8) 21 (src := tDst c 0) (dst := tSrc0 c) (xPt c (X c) (TS c 0) fullShare) _) $$ HR HL Hc8 HO Hp8
  iintro ⟨HO, Hp8, Hd8⟩
  iapply (wait_lv X K c (dj 11) 21 (src := tSrc1 c) (dst := tDst c 1) (oPt c (TR c 1) fullShare (outF X c)) _) $$ HR HL Hc11 HO Hp11
  iintro ⟨HO, Hp11, Hd11⟩
  iapply (wait_lv X K c (dj 9) 21 (src := tDst c 1) (dst := tSrc1 c) (xPt c (X c) (TS c 1) fullShare) _) $$ HR HL Hc9 HO Hp9
  iintro ⟨HO, Hp9, Hd9⟩
  rw [wp_ret]; imodintro
  iapply Hk
  isplitl [HO]; · iexists _; iexact HO
  iframe

end Cert.KernelIdeal.A2A

end
-- ==== Proof.Part17.lean ====
import proofs.«900637_g7700000000000638_dist_a2a_v7x_xyz2x2x4_y_m1024_n512_f32_1_alg».proof.Proof.Steps

noncomputable section

namespace Cert.KernelIdeal.A2A

open Cert.KernelIdeal Cert.KernelIdeal.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

variable (X : XBuf (Elt F)) (K : Dev nD × Fin 38 → ℕ)

theorem part17_spec (c : Dev nD) (W : Waits sig Unit)
    (Kt : (PUnit) → sProp 𝕄) :
    ⊢ recs X K
      -∗ levAts L lv
      -∗ owes (c : Thread nD τ) (owedAfter c 21) W
      -∗ crD c (dj 0)
      -∗ pos0 c (dj 0)
      -∗ crD c (dj 12)
      -∗ pos0 c (dj 12)
      -∗ crD c (dj 20)
      -∗ pos0 c (dj 20)
      -∗ crD c (dj 1)
      -∗ pos0 c (dj 1)
      -∗ crD c (dj 13)
      -∗ pos0 c (dj 13)
      -∗ crD c (dj 21)
      -∗ pos0 c (dj 21)
      -∗ ((∃ W', owes (c : Thread nD τ) (owedAfter c 21) W') ∗ pos1 c (dj 0) ∗ pos1 c (dj 12) ∗ pos1 c (dj 20) ∗ pos1 c (dj 1) ∗ pos1 c (dj 13) ∗ pos1 c (dj 21) ∗ xPt c (X c) (YS c 0) fullShare ∗ oPt c (QR c (qme c) 0) fullShare.left (outF X c) ∗ oPt c (QR c (qme c) 0) fullShare.right (outF X c) ∗ xPt c (X c) (YS c 1) fullShare ∗ oPt c (QR c (qme c) 1) fullShare.left (outF X c) ∗ oPt c (QR c (qme c) 1) fullShare.right (outF X c) -∗ Kt ⟨⟩)
      -∗ wp frame (wpE (defs₀ (F := F)) 𝒱₀ (c : Thread nD τ) none) Set.univ (k0_part17 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12 c) Kt := by
  rw [k0_part17_eq_skeleton]; unfold k0_part17_skel
  simp only [semSignalWord, semWaitWord, Prog.lift, Prog.bind_op, Prog.bind_ret, Prog.pure_eq_ret]
  iintro #HR #HL HO Hc0 Hp0 Hc12 Hp12 Hc20 Hp20 Hc1 Hp1 Hc13 Hp13 Hc21 Hp21 Hk
  iapply (wait_lv X K c (dj 0) 21 (src := yDst c 0) (dst := ySrc c 0) (xPt c (X c) (YS c 0) fullShare) _) $$ HR HL Hc0 HO Hp0
  iintro ⟨HO, Hp0, Hd0⟩
  iapply (wait_lv X K c (dj 12) 21 (src := fw c 0) (dst := fw c 0) (oPt c (QR c (qme c) 0) fullShare.left (outF X c)) _) $$ HR HL Hc12 HO Hp12
  iintro ⟨HO, Hp12, Hd12⟩
  iapply (wait_lv X K c (dj 20) 21 (src := fw c 0) (dst := fw c 0) (oPt c (QR c (qme c) 0) fullShare.right (outF X c)) _) $$ HR HL Hc20 HO Hp20
  iintro ⟨HO, Hp20, Hd20⟩
  iapply (wait_lv X K c (dj 1) 21 (src := yDst c 1) (dst := ySrc c 1) (xPt c (X c) (YS c 1) fullShare) _) $$ HR HL Hc1 HO Hp1
  iintro ⟨HO, Hp1, Hd1⟩
  iapply (wait_lv X K c (dj 13) 21 (src := fw c 1) (dst := fw c 1) (oPt c (QR c (qme c) 1) fullShare.left (outF X c)) _) $$ HR HL Hc13 HO Hp13
  iintro ⟨HO, Hp13, Hd13⟩
  iapply (wait_lv X K c (dj 21) 21 (src := fw c 1) (dst := fw c 1) (oPt c (QR c (qme c) 1) fullShare.right (outF X c)) _) $$ HR HL Hc21 HO Hp21
  iintro ⟨HO, Hp21, Hd21⟩
  rw [wp_ret]; imodintro
  iapply Hk
  isplitl [HO]; · iexists _; iexact HO
  iframe

end Cert.KernelIdeal.A2A

end
-- ==== Proof.Part18.lean ====
import proofs.«900637_g7700000000000638_dist_a2a_v7x_xyz2x2x4_y_m1024_n512_f32_1_alg».proof.Proof.Steps

noncomputable section

namespace Cert.KernelIdeal.A2A

open Cert.KernelIdeal Cert.KernelIdeal.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

variable (X : XBuf (Elt F)) (K : Dev nD × Fin 38 → ℕ)

theorem part18_spec (c : Dev nD) (W : Waits sig Unit)
    (Kt : (PUnit) → sProp 𝕄) :
    ⊢ recs X K
      -∗ levAts L lv
      -∗ owes (c : Thread nD τ) (owedAfter c 21) W
      -∗ crD c (dj 2)
      -∗ pos0 c (dj 2)
      -∗ crD c (dj 14)
      -∗ pos0 c (dj 14)
      -∗ crD c (dj 22)
      -∗ pos0 c (dj 22)
      -∗ crD c (dj 3)
      -∗ pos0 c (dj 3)
      -∗ crD c (dj 15)
      -∗ pos0 c (dj 15)
      -∗ crD c (dj 23)
      -∗ pos0 c (dj 23)
      -∗ ((∃ W', owes (c : Thread nD τ) (owedAfter c 21) W') ∗ pos1 c (dj 2) ∗ pos1 c (dj 14) ∗ pos1 c (dj 22) ∗ pos1 c (dj 3) ∗ pos1 c (dj 15) ∗ pos1 c (dj 23) ∗ xPt c (X c) (YS c 2) fullShare ∗ oPt c (QR c (qme c) 2) fullShare.left (outF X c) ∗ oPt c (QR c (qme c) 2) fullShare.right (outF X c) ∗ xPt c (X c) (YS c 3) fullShare ∗ oPt c (QR c (qme c) 3) fullShare.left (outF X c) ∗ oPt c (QR c (qme c) 3) fullShare.right (outF X c) -∗ Kt ⟨⟩)
      -∗ wp frame (wpE (defs₀ (F := F)) 𝒱₀ (c : Thread nD τ) none) Set.univ (k0_part18 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12 c) Kt := by
  rw [k0_part18_eq_skeleton]; unfold k0_part18_skel
  simp only [semSignalWord, semWaitWord, Prog.lift, Prog.bind_op, Prog.bind_ret, Prog.pure_eq_ret]
  iintro #HR #HL HO Hc2 Hp2 Hc14 Hp14 Hc22 Hp22 Hc3 Hp3 Hc15 Hp15 Hc23 Hp23 Hk
  iapply (wait_lv X K c (dj 2) 21 (src := yDst c 2) (dst := ySrc c 2) (xPt c (X c) (YS c 2) fullShare) _) $$ HR HL Hc2 HO Hp2
  iintro ⟨HO, Hp2, Hd2⟩
  iapply (wait_lv X K c (dj 14) 21 (src := fw c 2) (dst := fw c 2) (oPt c (QR c (qme c) 2) fullShare.left (outF X c)) _) $$ HR HL Hc14 HO Hp14
  iintro ⟨HO, Hp14, Hd14⟩
  iapply (wait_lv X K c (dj 22) 21 (src := fw c 2) (dst := fw c 2) (oPt c (QR c (qme c) 2) fullShare.right (outF X c)) _) $$ HR HL Hc22 HO Hp22
  iintro ⟨HO, Hp22, Hd22⟩
  iapply (wait_lv X K c (dj 3) 21 (src := yDst c 3) (dst := ySrc c 3) (xPt c (X c) (YS c 3) fullShare) _) $$ HR HL Hc3 HO Hp3
  iintro ⟨HO, Hp3, Hd3⟩
  iapply (wait_lv X K c (dj 15) 21 (src := fw c 3) (dst := fw c 3) (oPt c (QR c (qme c) 3) fullShare.left (outF X c)) _) $$ HR HL Hc15 HO Hp15
  iintro ⟨HO, Hp15, Hd15⟩
  iapply (wait_lv X K c (dj 23) 21 (src := fw c 3) (dst := fw c 3) (oPt c (QR c (qme c) 3) fullShare.right (outF X c)) _) $$ HR HL Hc23 HO Hp23
  iintro ⟨HO, Hp23, Hd23⟩
  rw [wp_ret]; imodintro
  iapply Hk
  isplitl [HO]; · iexists _; iexact HO
  iframe

end Cert.KernelIdeal.A2A

end
-- ==== Proof.Body.lean ====
import proofs.«900637_g7700000000000638_dist_a2a_v7x_xyz2x2x4_y_m1024_n512_f32_1_alg».proof.Proof.Dats
import proofs.«900637_g7700000000000638_dist_a2a_v7x_xyz2x2x4_y_m1024_n512_f32_1_alg».proof.Proof.Chains
import proofs.«900637_g7700000000000638_dist_a2a_v7x_xyz2x2x4_y_m1024_n512_f32_1_alg».proof.Proof.Part01
import proofs.«900637_g7700000000000638_dist_a2a_v7x_xyz2x2x4_y_m1024_n512_f32_1_alg».proof.Proof.Part02
import proofs.«900637_g7700000000000638_dist_a2a_v7x_xyz2x2x4_y_m1024_n512_f32_1_alg».proof.Proof.Part03
import proofs.«900637_g7700000000000638_dist_a2a_v7x_xyz2x2x4_y_m1024_n512_f32_1_alg».proof.Proof.Part04
import proofs.«900637_g7700000000000638_dist_a2a_v7x_xyz2x2x4_y_m1024_n512_f32_1_alg».proof.Proof.Part05
import proofs.«900637_g7700000000000638_dist_a2a_v7x_xyz2x2x4_y_m1024_n512_f32_1_alg».proof.Proof.Part06
import proofs.«900637_g7700000000000638_dist_a2a_v7x_xyz2x2x4_y_m1024_n512_f32_1_alg».proof.Proof.Part07
import proofs.«900637_g7700000000000638_dist_a2a_v7x_xyz2x2x4_y_m1024_n512_f32_1_alg».proof.Proof.Part08
import proofs.«900637_g7700000000000638_dist_a2a_v7x_xyz2x2x4_y_m1024_n512_f32_1_alg».proof.Proof.Part09
import proofs.«900637_g7700000000000638_dist_a2a_v7x_xyz2x2x4_y_m1024_n512_f32_1_alg».proof.Proof.Part10
import proofs.«900637_g7700000000000638_dist_a2a_v7x_xyz2x2x4_y_m1024_n512_f32_1_alg».proof.Proof.Part11
import proofs.«900637_g7700000000000638_dist_a2a_v7x_xyz2x2x4_y_m1024_n512_f32_1_alg».proof.Proof.Part12
import proofs.«900637_g7700000000000638_dist_a2a_v7x_xyz2x2x4_y_m1024_n512_f32_1_alg».proof.Proof.Part13
import proofs.«900637_g7700000000000638_dist_a2a_v7x_xyz2x2x4_y_m1024_n512_f32_1_alg».proof.Proof.Part14
import proofs.«900637_g7700000000000638_dist_a2a_v7x_xyz2x2x4_y_m1024_n512_f32_1_alg».proof.Proof.Part15
import proofs.«900637_g7700000000000638_dist_a2a_v7x_xyz2x2x4_y_m1024_n512_f32_1_alg».proof.Proof.Part16
import proofs.«900637_g7700000000000638_dist_a2a_v7x_xyz2x2x4_y_m1024_n512_f32_1_alg».proof.Proof.Part17
import proofs.«900637_g7700000000000638_dist_a2a_v7x_xyz2x2x4_y_m1024_n512_f32_1_alg».proof.Proof.Part18

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
-- One device's whole body: the parts in program order, each fed what the earlier ones and the launch left it.
theorem sound_body (K : Dev nD × Fin 38 → ℕ) (c : Dev nD) (W : Waits sig Unit) (Kt : PUnit → sProp 𝕄) :
    ⊢ ghost (Xm m) K c -∗ credsC c -∗ levAts L lv -∗ owes (c : Thread nD τ) (O₀ c) W
      -∗ (oLoc c ↦{fullShare} m (oLoc c)) -∗ (xLoc c ↦{fullShare} Xm m c)
      -∗ ((Φ₁ m c ∗ ∃ W', owes (c : Thread nD τ) 0 W') -∗ Kt ⟨⟩)
      -∗ wp frame (wpE (defs₀ (F := F)) 𝒱₀ (c : Thread nD τ) none) Set.univ (cc0_body (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12) Kt := by
  rw [cc0_body_eq_skeleton]; unfold cc0_body_skel
  unfold ghost credsC
  rw [positions_eq, payToks_eq]
  iintro ⟨#HR, ⟨P0, P1, P2, P3, P4, P5, P6, P7, P8, P9, P10, P11, P12, P13, P14, P15, P16, P17, P18, P19, P20, P21, P22, P23, P24, P25, P26, P27, P28, P29, P30, P31, P32, P33, P34, P35, P36, PB⟩, TBy, TBx, TBz, ⟨S0, S1, S2, S3, S8, S9, S12, S13, S14, S15, S20, S21, S22, S23, S28, S29, S32, S33, S36⟩, ⟨Y4, Y5, Y6, Y7, Y10, Y11⟩, ⟨X16, X17, X18, X19, X34, X35⟩, ⟨Z24, Z25, Z26, Z27, Z30, Z31⟩⟩
    ⟨CB, ⟨C4, C5, C6, C7⟩, ⟨C10, C11⟩, ⟨C16, C17, C18, C19⟩, ⟨C24, C25, C26, C27⟩, ⟨C30, C31⟩, ⟨C34, C35⟩⟩ #HL HO Hout Hx Hk
  ihave Hc := (out_cut c (m (oLoc c))).1 $$ Hout
  icases Hc with ⟨OL, ⟨Om0, Om1, Om2, Om3⟩, ⟨Ox0, Ox1, Ox2, Ox3⟩, ⟨Oz0, Oz1, Oz2, Oz3⟩, ⟨O40, O41, O42, O43⟩, ⟨OT0, OT1⟩⟩
  ihave Hxc := (x_cut c (Xm m c)).1 $$ Hx
  icases Hxc with ⟨⟨XY0, XY1, XY2, XY3⟩, ⟨XT0, XT1⟩, XL, XRst⟩
  ihave GY := (give_y c (m (oLoc c))) $$ [Om0 Om1 Om2 Om3 OT0 OT1]
  · iframe
  ihave GX := (give_x c (m (oLoc c))) $$ [Ox0 Ox1 Ox2 Ox3 O42 O43]
  · iframe
  ihave GZ := (give_z c (m (oLoc c))) $$ [Oz0 Oz1 Oz2 Oz3 O40 O41]
  · iframe
  rw [show O₀ c = owedAfter c 0 from rfl, wp_bind]
  iapply (part1_spec (Xm m) K c W _) $$ HR HO TBy GY
  iintro %v2 %v5 %v8 %v9 %v10 %v20 %v23 %v32 %c4 HO
  try dsimp only
  rw [wp_bind]
  iapply (part2_spec (Xm m) K c W v2 v5 v8 v9 v10 v20 v23 v32 c4 _) $$ HR HL HO TBx GX TBz GZ CB PB
  iintro %ret ⟨⟨%W2, HO⟩, BP0, BP1, BP2⟩
  obtain ⟨v44, v52, v54, v56, v64⟩ := ret
  try dsimp only
  ihave BQ0 := (Entails.of_eq (barPay0_eq c)) $$ BP0
  ihave BQ1 := (Entails.of_eq (barPay1_eq c)) $$ BP1
  ihave BQ2 := (Entails.of_eq (barPay2_eq c)) $$ BP2
  icases BQ0 with ⟨Dy0, Dy1, Dy2, Dy3, Dt0, Dt1⟩
  icases BQ1 with ⟨Dx0, Dx1, Dx2, Dx3, Dfb0, Dfb1⟩
  icases BQ2 with ⟨Dz0, Dz1, Dz2, Dz3, Dfa0, Dfa1⟩
  rw [wp_bind]
  iapply (part3_spec (Xm m) K c W2 v2 v5 v8 v9 v44 v64 _) $$ HR HL HO XY0 XY1 Dy0 Dy1 S0 S1 Y4 Y5
  iintro %v100 ⟨⟨%W3, HO⟩, E0, E1⟩
  try dsimp only
  rw [wp_bind]
  iapply (part4_spec (Xm m) K c W3 v2 v5 v8 v9 v44 v100 _) $$ HR HL HO XY2 XY3 Dy2 Dy3 S2 S3 Y6 Y7
  iintro %ret ⟨⟨%W4, HO⟩, E2, E3⟩
  obtain ⟨v134, c896⟩ := ret
  try dsimp only
  rw [wp_bind]
  iapply (part5_spec (Xm m) K c W4 v2 v5 v8 v9 v134 c896 _) $$ HR HL HO XT0 XT1 Dt0 Dt1 S8 S9 Y10 Y11
  iintro ⟨⟨%W5, HO⟩, E8, E9⟩
  try dsimp only
  rw [wp_bind]
  iapply (part6_spec (Xm m) K c W5 v2 v5 v8 v9 v10 v23 v52 _) $$ HR HL HO XL [OL] S36 C4 P4 Dx0 S12 X16
  · iexists _; iexact OL
  iintro ⟨⟨%W6, HO⟩, E36, Q4, E12, R0r⟩
  try dsimp only
  rw [wp_bind]
  iapply (part7_spec (Xm m) K c W6 v2 v5 v8 v9 v10 v52 _) $$ HR HL HO R0r Dz0 S20 Z24 C5 P5 Dx1 S13 X17
  iintro %ret ⟨⟨%W7, HO⟩, E20, Q5, E13, R1r⟩
  obtain ⟨v232, c4b⟩ := ret
  try dsimp only
  rw [wp_bind]
  iapply (part8_spec (Xm m) K c W7 v2 v5 v8 v9 v10 v23 v52 v232 c4b _) $$ HR HL HO R1r Dz1 S21 Z25 C6 P6 Dx2 S14 X18
  iintro ⟨⟨%W8, HO⟩, E21, Q6, E14, R2r⟩
  try dsimp only
  rw [wp_bind]
  iapply (part9_spec (Xm m) K c W8 v2 v5 v8 v9 v10 v23 v52 _) $$ HR HL HO R2r Dz2 S22 Z26 C7 P7
  iintro ⟨⟨%W9, HO⟩, E22, Q7, R3⟩
  try dsimp only
  rw [wp_bind]
  iapply (part10_spec (Xm m) K c W9 v2 v5 v8 v10 v23 v52 v54 _) $$ HR HL HO R3 Dx3 S15 X19 Dz3 S23 Z27 C16 P16
  iintro %ret ⟨⟨%W10, HO⟩, E15, E23, Q16, A0⟩
  obtain ⟨v332, v333⟩ := ret
  try dsimp only
  rw [wp_bind]
  iapply (part11_spec (Xm m) K c W10 v2 v5 v8 v10 v23 v54 v332 v333 _) $$ HR HL HO A0 Dfa0 S28 Z30 C17 P17 Dfa1 S29 Z31
  iintro %v366 ⟨⟨%W11, HO⟩, E28, Q17, E29⟩
  try dsimp only
  rw [wp_bind]
  iapply (part12_spec (Xm m) K c W11 v2 v5 v8 v10 v23 v56 v366 _) $$ HR HL HO C26 P26 Dfb0 S32 X34
  iintro ⟨⟨%W12, HO⟩, Q26, E32⟩
  try dsimp only
  rw [wp_bind]
  iapply (part13_spec (Xm m) K c W12 v5 v8 v10 v56 _) $$ HR HL HO C27 P27 Dfb1 S33 X35 C18 P18
  iintro %ret ⟨⟨%W13, HO⟩, Q27, E33, Q18, A2⟩
  obtain ⟨v430, v431⟩ := ret
  try dsimp only
  rw [wp_bind]
  iapply (part14_spec (Xm m) K c W13 v2 v5 v23 v430 v431 _) $$ HR HL HO C19 P19 C24 P24 C25 P25
  iintro ⟨⟨%W14, HO⟩, Q19, Q24, Q25, A3, B0, B1⟩
  try dsimp only
  rw [wp_bind]
  iapply (part15_spec (Xm m) K c W14 v2 v5 v8 v10 v23 _) $$ HR HL HO C30 P30 C34 P34 C31 P31
  iintro ⟨⟨%W15, HO⟩, Q30, Q34, Q31, D0, D2, D1⟩
  try dsimp only
  rw [wp_bind]
  iapply (part16_spec (Xm m) K c W15 v2 v8 v9 _) $$ HR HL HO C35 P35 C10 P10 E8 P8 C11 P11 E9 P9
  iintro ⟨⟨%W16, HO⟩, Q35, Q10, Q8, Q11, Q9, D3, T0, XT0, T1, XT1⟩
  try dsimp only
  rw [wp_bind]
  iapply (part17_spec (Xm m) K c W16 _) $$ HR HL HO E0 P0 E12 P12 E20 P20 E1 P1 E13 P13 E21 P21
  iintro ⟨⟨%W17, HO⟩, Q0, Q12, Q20, Q1, Q13, Q21, XY0, M0l, M0r, XY1, M1l, M1r⟩
  try dsimp only
  rw [wp_bind]
  iapply (part18_spec (Xm m) K c W17 _) $$ HR HL HO E2 P2 E14 P14 E22 P22 E3 P3 E15 P15 E23 P23
  iintro ⟨⟨%W18, HO⟩, Q2, Q14, Q22, Q3, Q15, Q23, XY2, M2l, M2r, XY3, M3l, M3r⟩
  try dsimp only
  simp only [Prog.lift, Prog.bind_op, Prog.bind_ret, Prog.pure_eq_ret]
  iapply (wait_lv (Xm m) K c (dj 28) 21 (src := fa c 0) (dst := fa c 0) (oPt c (QR c (qxp c) 0) fullShare (outF (Xm m) c)) _) $$ HR HL E28 HO P28
  iintro ⟨HO, Q28, A0⟩
  iapply (wait_lv (Xm m) K c (dj 32) 21 (src := fb c 0) (dst := fb c 0) (oPt c (QR c (qzp c) 2) fullShare (outF (Xm m) c)) _) $$ HR HL E32 HO P32
  iintro ⟨HO, Q32, B2⟩
  iapply (wait_lv (Xm m) K c (dj 29) 21 (src := fa c 1) (dst := fa c 1) (oPt c (QR c (qxp c) 1) fullShare (outF (Xm m) c)) _) $$ HR HL E29 HO P29
  iintro ⟨HO, Q29, A1⟩
  iapply (wait_lv (Xm m) K c (dj 33) 21 (src := fb c 1) (dst := fb c 1) (oPt c (QR c (qzp c) 3) fullShare (outF (Xm m) c)) _) $$ HR HL E33 HO P33
  iintro ⟨HO, Q33, B3⟩
  iapply (wait_lv (Xm m) K c (dj 36) 21 (src := lSrc c) (dst := lDst c)
      iprop(oPt c (LR c) fullShare (outF (Xm m) c) ∗ xPt c (Xm m c) (LS c) fullShare) _) $$ HR HL E36 HO P36
  iintro ⟨HO, Q36, LRo, XL⟩
  rw [wp_ret]
  ihave HQ := (pos1_family c) $$ [Q0 Q1 Q2 Q3 Q4 Q5 Q6 Q7 Q8 Q9 Q10 Q11 Q12 Q13 Q14 Q15 Q16 Q17 Q18 Q19 Q20 Q21 Q22 Q23 Q24 Q25 Q26 Q27 Q28 Q29 Q30 Q31 Q32 Q33 Q34 Q35 Q36]
  · iframe
  imod (close_all (Xm m) K c) $$ [HQ] with HZ
  · iframe HR HQ
  imodintro
  iapply Hk
  ihave M0 := (oPt_halves c (QR c (qme c) 0) (outF (Xm m) c)).2 $$ [M0l M0r]
  · iframe
  ihave M1 := (oPt_halves c (QR c (qme c) 1) (outF (Xm m) c)).2 $$ [M1l M1r]
  · iframe
  ihave M2 := (oPt_halves c (QR c (qme c) 2) (outF (Xm m) c)).2 $$ [M2l M2r]
  · iframe
  ihave M3 := (oPt_halves c (QR c (qme c) 3) (outF (Xm m) c)).2 $$ [M3l M3r]
  · iframe
  ihave Hout := (out_cut c (outF (Xm m) c)).2 $$ [LRo M0 M1 M2 M3 A0 A1 A2 A3 B0 B1 B2 B3 D0 D1 D2 D3 T0 T1]
  · iframe
  ihave Hx := (x_cut c (Xm m c)).2 $$ [XY0 XY1 XY2 XY3 XT0 XT1 XL XRst]
  · iframe
  unfold Φ₁
  isplitr [HO]
  · iframe
  · iexists _; iexact HO

theorem body_obligation (c : Dev nD) : BodyObligation (dats (F := F) m 0 c) (defs₀ (F := F)) 𝒱₀ () Set.univ := fun t => by
  rw [fin_N t]
  show iprop(Φ₀ m c ∗ (dats m 0 c).owesAt () t₀.castSucc ∗ bigSep Finset.univ fun w : Fin cfg0.W => _)
    ⊢ wp frame (wpE (defs₀ (F := F)) 𝒱₀ (c : Thread nD τ) none) Set.univ (cc0_body (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12) (fun _ => iprop(Φ₁ m c ∗ (dats m 0 c).owesAt () t₀.succ ∗ bigSep Finset.univ fun w : Fin cfg0.W => _))
  unfold Φ₀ start Dat.owesAt Pipeline.owesWithin
  iintro ⟨⟨⟨⟨%K, Hg⟩, Hcr, #HL⟩, Hout, Hx⟩, ⟨%W, %hW, HO⟩, -⟩
  iapply (sound_body m K c W _) $$ Hg Hcr HL [HO] Hout Hx
  · iexact HO
  iintro ⟨H1, ⟨%W', HO⟩⟩
  iframe H1
  isplitl [HO]
  · iexists W'
    isplitr; · ipureintro; exact fun _ _ => Or.inl trivial
    iexact HO
  · first | iempintro | (show _ ⊢ (emp : sProp 𝕄); iempintro)

end Cert.KernelIdeal.A2A

end
-- ==== Proof.Fund.lean ====
import proofs.«900637_g7700000000000638_dist_a2a_v7x_xyz2x2x4_y_m1024_n512_f32_1_alg».proof.Proof.Ghost
import proofs.«900637_g7700000000000638_dist_a2a_v7x_xyz2x2x4_y_m1024_n512_f32_1_alg».proof.Proof.Gen.KernelIdeal.Launch

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : XBuf (Elt F))

theorem csem_injective : Function.Injective csem := by
  intro k k' h
  unfold csem at h
  by_cases hk : k.val < 37 <;> by_cases hk' : k'.val < 37
  · rw [dif_pos hk, dif_pos hk'] at h
    have h3 := Fin.val_eq_of_eq (SemLoc.dma.inj h)
    exact Fin.ext h3
  · rw [dif_pos hk, dif_neg hk'] at h; cases h
  · rw [dif_neg hk, dif_pos hk'] at h; cases h
  · exact Fin.ext (by have := k.isLt; have := k'.isLt; omega)

theorem kcell_injective : Function.Injective (kcell : Dev nD × Fin 38 → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl

def allCells : Finset (GSem nD τ sig) := Finset.univ.map ⟨kcell, kcell_injective⟩

def tokOf (cj : Dev nD × Fin 40) : GSem nD τ sig × ℕ × Fin 3 :=
  if h : cj.2.val < 3 then (barCell cj.1, 0, ⟨cj.2.val, h⟩)
  else (dCell cj.1 ⟨cj.2.val - 3, by have := cj.2.isLt; have : sig.nDmaSem = 37 := rfl; omega⟩, 0, 0)
theorem tokOf_injective : Function.Injective (tokOf : Dev nD × Fin 40 → GSem nD τ sig × ℕ × Fin 3) := by
  rintro ⟨c, j⟩ ⟨c', j'⟩ h
  have hc : c = c' := by
    have := congrArg (fun x : GSem nD τ sig × ℕ × Fin 3 => x.1.1.1) h
    unfold tokOf at this; dsimp only at this
    split at this <;> split at this <;> exact this
  subst hc
  have hj : j.val = j'.val := by
    unfold tokOf at h; dsimp only at h
    split at h <;> split at h
    · exact congrArg (fun x : GSem nD τ sig × ℕ × Fin 3 => x.2.2.val) h
    · exact absurd (congrArg (fun x : GSem nD τ sig × ℕ × Fin 3 => x.1.2) h) (fun h' => by cases h')
    · exact absurd (congrArg (fun x : GSem nD τ sig × ℕ × Fin 3 => x.1.2) h) (fun h' => by cases h')
    · have h3 := congrArg Fin.val (SemLoc.dma.inj (congrArg (fun x : GSem nD τ sig × ℕ × Fin 3 => x.1.2) h))
      dsimp only at h3
      omega
  exact Prod.ext rfl (Fin.ext hj)
def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

theorem bigSep_fin_add {m n : ℕ} (Φ : Fin (m + n) → sProp 𝕄) :
    bigSep Finset.univ Φ = iprop((bigSep Finset.univ fun i : Fin m => Φ (Fin.castAdd n i)) ∗ bigSep Finset.univ fun j : Fin n => Φ (Fin.natAdd m j)) := by
  rw [bigSep_univ_equiv finSumFinEquiv Φ, bigSep_univ_sum]
  simp only [finSumFinEquiv_apply_left, finSumFinEquiv_apply_right]
  rfl

theorem bigSep_union' {I : Type} [DecidableEq I] {s t : Finset I} (hst : Disjoint s t) (Φ : I → sProp 𝕄) :
    bigSep (s ∪ t) Φ = iprop(bigSep s Φ ∗ bigSep t Φ) := bigSep_union hst

theorem sep_assoc_r4 (a b c d : sProp 𝕄) : iprop((a ∗ b ∗ c) ∗ d) = iprop(a ∗ b ∗ c ∗ d) := by
  refine BI.Entails.antisymm (show iprop((a ∗ b ∗ c) ∗ d) ⊢ (iprop(a ∗ b ∗ c ∗ d) : sProp 𝕄) from ?_)
    (show iprop(a ∗ b ∗ c ∗ d) ⊢ (iprop((a ∗ b ∗ c) ∗ d) : sProp 𝕄) from ?_)
  · iintro ⟨⟨Ha, Hb, Hc⟩, Hd⟩; iframe
  · iintro ⟨Ha, Hb, Hc, Hd⟩; iframe
theorem sep_assoc_l4 (a b c d : sProp 𝕄) : iprop(((a ∗ b) ∗ c) ∗ d) = iprop(a ∗ b ∗ c ∗ d) := by
  refine BI.Entails.antisymm (show iprop(((a ∗ b) ∗ c) ∗ d) ⊢ (iprop(a ∗ b ∗ c ∗ d) : sProp 𝕄) from ?_)
    (show iprop(a ∗ b ∗ c ∗ d) ⊢ (iprop(((a ∗ b) ∗ c) ∗ d) : sProp 𝕄) from ?_)
  · iintro ⟨⟨⟨Ha, Hb⟩, Hc⟩, Hd⟩; iframe
  · iintro ⟨Ha, Hb, Hc, Hd⟩; iframe

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem bigSep_cells (c : Dev nD) (Φ : GSem nD τ sig → sProp 𝕄) :
    (bigSep Finset.univ fun k : Fin 38 => Φ (kcell (c, k)))
      = iprop((bigSep Finset.univ fun j : Fin 37 => Φ (dCell c j)) ∗ Φ (barCell c)) := by
  refine (bigSep_fin_add (m := 37) (n := 1) fun k : Fin 38 => Φ (kcell (c, k))).trans ?_
  rw [bigSep_univ_of_subsingleton (0 : Fin 1)]
  have hl : (bigSep Finset.univ fun j : Fin 37 => Φ (kcell (c, (Fin.castAdd 1 j : Fin 38)))) = bigSep Finset.univ fun j : Fin 37 => Φ (dCell c j) :=
    bigSep_congr fun j _ => congrArg Φ (kcell_d c j)
  have hr : Φ (kcell (c, (Fin.natAdd 37 (0 : Fin 1) : Fin 38))) = Φ (barCell c) := congrArg Φ (kcell_b c)
  rw [hl, hr]

theorem tokOf_inl (c : Dev nD) (a : Fin 3) : tokOf (c, (Fin.castAdd 37 a : Fin 40)) = (barCell c, 0, a) := by
  unfold tokOf; dsimp only
  split
  · rfl
  · rename_i h; exact absurd a.isLt h
theorem tokOf_inr (c : Dev nD) (b : Fin 37) : tokOf (c, (Fin.natAdd 3 b : Fin 40)) = (dCell c b, 0, 0) := by
  unfold tokOf; dsimp only
  split
  · rename_i h; have h' : 3 + b.val < 3 := h; omega
  · refine congrArg (fun j : DmaSem sig => ((dCell c j, (0 : ℕ), (0 : Fin 3)) : GSem nD τ sig × ℕ × Fin 3)) (Fin.ext ?_)
    show 3 + b.val - 3 = b.val; omega

theorem toks_eq (c : Dev nD) :
    (bigSep Finset.univ fun j : Fin 40 => (dutyTok ER (tokOf (c, j)).1 (tokOf (c, j)).2.1 (tokOf (c, j)).2.2 : sProp 𝕄)) = toks c := by
  refine (bigSep_fin_add (m := 3) (n := 37) fun j : Fin 40 => (dutyTok ER (tokOf (c, j)).1 (tokOf (c, j)).2.1 (tokOf (c, j)).2.2 : sProp 𝕄)).trans ?_
  have hl : (bigSep Finset.univ fun a : Fin 3 => (dutyTok ER (tokOf (c, (Fin.castAdd 37 a : Fin 40))).1 (tokOf (c, (Fin.castAdd 37 a : Fin 40))).2.1
      (tokOf (c, (Fin.castAdd 37 a : Fin 40))).2.2 : sProp 𝕄)) = bigSep Finset.univ fun a : Fin 3 => tokB c a :=
    bigSep_congr fun a _ => by rw [tokOf_inl]
  have hr : (bigSep Finset.univ fun b : Fin 37 => (dutyTok ER (tokOf (c, (Fin.natAdd 3 b : Fin 40))).1 (tokOf (c, (Fin.natAdd 3 b : Fin 40))).2.1
      (tokOf (c, (Fin.natAdd 3 b : Fin 40))).2.2 : sProp 𝕄)) = bigSep Finset.univ fun j : DmaSem sig => tokD c j :=
    bigSep_congr fun b _ => by rw [tokOf_inr]
  rw [hl, hr, bigSep_fin3]
  unfold toks
  exact sep_assoc_r4 _ _ _ _

theorem fund_all : BI.own (ER (initOf allCells allToks)) ⊢ (|==> bigSep Finset.univ (G X) : sProp 𝕄) := by
  have hX (Φ : GSem nD τ sig → sProp 𝕄) : bigSep allCells Φ = bigSep Finset.univ fun c : Dev nD => bigSep Finset.univ fun k : Fin 38 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (Rd X) allCells allToks) $$ HX with ⟨Hst, Hr, Hat, Htok⟩
  imodintro
  ihave Hst' := (Entails.of_eq (hX fun g => roundState ER (Rd X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe

theorem ownSems0_eq (c : Dev nD) : (Pipeline.ownSems0 (Ix := Unit) (Name := ℕ) (U := UU) (Lvl := ℕ) (Val := Elt F) (τ := τ) osem c : sProp 𝕄)
    = bigSep Finset.univ fun j : Fin 37 => semVal (dCell c j) 0 := rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      = (bigSep Finset.univ fun k : Fin 38 => semVal (kcell (c, k)) 0 : sProp 𝕄) := by
  rw [ownSems0_eq, unscopedSems0_eq, bigSep_cells c fun g => semVal g 0]

theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k => iprop(∃ κ : ℕ, cellInv ER (Rd X) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c)) $$ [Hos Hus]
  · isplitl [Hos] <;> iassumption
  imod (show iprop((bigSep Finset.univ fun k : Fin 38 => semVal (kcell (c, k)) 0) ∗ bigSep Finset.univ fun k : Fin 38 => roundState ER (Rd X) (kcell (c, k)) 0)
      ⊢ (|={Set.univ}=> bigSep Finset.univ fun k => iprop(∃ κ : ℕ, cellInv ER (Rd X) κ (kcell (c, k))) : sProp 𝕄) from by
        rw [← bigSep_sep']
        exact (bigSep_mono fun k _ => (Rounds.body_intro ER (Rd X) (kcell (c, k))).trans inv_alloc).trans (bigSep_fupd _ _)) $$ [Hv Hst] with Hinv
  · isplitl [Hv] <;> iassumption
  imodintro
  iframe

theorem toks_split (c : Dev nD) : (bigSep Finset.univ fun j : DmaSem sig => (tokD c j : sProp 𝕄))
    = iprop((bigSep sendJ fun j => tokD c j) ∗ (bigSep recvY fun j => tokD c j) ∗ (bigSep recvX fun j => tokD c j) ∗ (bigSep recvZ fun j => tokD c j)) := by
  rw [dma_partition, bigSep_union' dma_disj3, bigSep_union' dma_disj2, bigSep_union' dma_disj1]
  exact sep_assoc_l4 _ _ _ _

theorem toks_around : (bigSep Finset.univ fun c : Dev nD => (toks c : sProp 𝕄)) ⊢ bigSep Finset.univ fun c : Dev nD => payToks c := by
  unfold toks payToks
  rw [bigSep_congr (s := Finset.univ) fun (c : Dev nD) _ =>
    congrArg (fun R : sProp 𝕄 => iprop(tokB c 0 ∗ tokB c 1 ∗ tokB c 2 ∗ R)) (toks_split c)]
  simp only [bigSep_sep']
  rw [bigSep_univ_equiv ypE (fun c : Dev nD => (tokB c 0 : sProp 𝕄)),
    bigSep_univ_equiv xpE (fun c : Dev nD => (tokB c 1 : sProp 𝕄)),
    bigSep_univ_equiv zpE (fun c : Dev nD => (tokB c 2 : sProp 𝕄)),
    bigSep_univ_equiv ypE (fun c : Dev nD => (bigSep recvY fun j => tokD c j : sProp 𝕄)),
    bigSep_univ_equiv xpE (fun c : Dev nD => (bigSep recvX fun j => tokD c j : sProp 𝕄)),
    bigSep_univ_equiv zpE (fun c : Dev nD => (bigSep recvZ fun j => tokD c j : sProp 𝕄))]
  iintro ⟨H0, H1, H2, HS, HY, HX, HZ⟩
  isplitl [H0]; · iexact H0
  isplitl [H1]; · iexact H1
  isplitl [H2]; · iexact H2
  isplitl [HS]; · iexact HS
  isplitl [HY]; · iexact HY
  isplitl [HX]; · iexact HX
  iexact HZ

theorem ghost_intro (K : Dev nD × Fin 38 → ℕ) (c : Dev nD) : iprop(recs X K ∗ positions c ∗ payToks c) ⊢ G' X c := by
  unfold G' ghost
  iintro H
  iexists K
  iexact H

theorem regroup :
    (bigSep Finset.univ fun c : Dev nD => iprop((bigSep Finset.univ fun k => iprop(∃ κ : ℕ, cellInv ER (Rd X) κ (kcell (c, k))))
          ∗ (bigSep Finset.univ fun k => iprop(atPos ER (kcell (c, k)) 0 ∅ 0 ∗ reached ER (kcell (c, k)) 0)) ∗ toks c) : sProp 𝕄)
      ⊢ bigSep Finset.univ (G' X) := by
  rw [bigSep_sep', bigSep_sep', ← bigSep_univ_prod (fun ck : Dev nD × Fin 38 => iprop(∃ κ : ℕ, cellInv ER (Rd X) κ (kcell ck))),
    bigSep_congr (s := Finset.univ) (fun (c : Dev nD) _ => bigSep_sep' Finset.univ (fun k : Fin 38 => (atPos ER (kcell (c, k)) 0 ∅ 0 : sProp 𝕄)) (fun k => reached ER (kcell (c, k)) 0)),
    bigSep_sep', ← bigSep_univ_prod (fun ck : Dev nD × Fin 38 => (reached ER (kcell ck) 0 : sProp 𝕄))]
  iintro ⟨HI, ⟨Hat, #HR⟩, Htok⟩
  ihave HK := (BI.bigSep_exists_pi Finset.univ (fun (ck : Dev nD × Fin 38) (κ : ℕ) => (cellInv ER (Rd X) κ (kcell ck) : sProp 𝕄))) $$ HI
  icases HK with ⟨%K, #HI⟩
  ihave Htk := (toks_around (F := F)) $$ Htok
  iapply (bigSep_with_persistent (R := recs X K) fun c _ => ghost_intro X K c)
  isplitr
  · unfold recs; isplitl; · iexact HI
    iexact HR
  · iapply (Entails.of_eq (bigSep_sep' Finset.univ (fun c : Dev nD => (positions c : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c
      ∗ unscopedSems0 c ∗ G X c) : sProp 𝕄) ⊢ |={Set.univ}=> bigSep Finset.univ (G' X) :=
  ((bigSep_mono fun c _ => core_alloc X c).trans (bigSep_fupd _ _)).trans (BI.fupd_mono (regroup X))

theorem ownSemFacts : Pipeline.OwnSemFacts cfg0.spec osem :=
  ⟨fun k => by revert k; decide, fun a b h => SemLoc.dma.inj h, fun k w => w.elim0⟩

/-- info: 'Cert.KernelIdeal.A2A.fund_all' depends on axioms: [propext, Classical.choice, Quot.sound] -/
#guard_msgs in #print axioms fund_all

/-- info: 'Cert.KernelIdeal.A2A.glob' depends on axioms: [propext, Classical.choice, Quot.sound] -/
#guard_msgs in #print axioms glob

/-- info: 'Cert.KernelIdeal.A2A.ownSemFacts' depends on axioms: [propext, Classical.choice, Quot.sound] -/
#guard_msgs in #print axioms ownSemFacts

end Cert.KernelIdeal.A2A

end
-- ==== Proof.Run.lean ====
import proofs.«900637_g7700000000000638_dist_a2a_v7x_xyz2x2x4_y_m1024_n512_f32_1_alg».proof.Proof.Body
import proofs.«900637_g7700000000000638_dist_a2a_v7x_xyz2x2x4_y_m1024_n512_f32_1_alg».proof.Proof.Fund

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def Yc (c : Dev nD) : sProp 𝕄 := iprop((oLoc c ↦{fullShare} outF (Xm m) c) ∗ (xLoc c ↦{fullShare} Xm m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Xm m) c)
      ⊢ |={Set.univ}=> iprop(Φ₀ m c ∗ emp) := by
  rw [Pipeline.unscopedRestP_none, unscopedRest0_eq]
  unfold Φ₀ start G' credsC
  iintro ⟨⟨Hx, Ho⟩, Hlev, Hcr, -, HG⟩
  ihave Hc := (launch_creds (F := F) c) $$ Hcr
  imodintro
  isplitl
  · isplitl [HG Hc Hlev]
    · isplitl [HG]; · iexact HG
      isplitl [Hc]; · iexact Hc
      iexact Hlev
    isplitl [Ho]; · iexact Ho
    iexact Hx
  · iempintro

theorem phi0_intro (c : Dev nD) :
    iprop(Φ₀ m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  iintro ⟨H, -, -⟩
  iexact H

theorem phi1_exit (c : Dev nD) :
    (dats m 0 c).Φ (Fin.last cfg0.N) ⊢ iprop(Yc m c ∗ Pipeline.ownSems0 osem c ∗ Pipeline.scopedRest cfg0.spec c) := by
  rw [show (dats m 0 c).Φ (Fin.last cfg0.N) = Φ₁ m c from rfl, scopedRest0_eq, ownSems0_eq]
  unfold Φ₁ Yc
  iintro ⟨Ho, Hx, Hs⟩
  isplitl [Ho Hx]
  · isplitl [Ho]; · iexact Ho
    iexact Hx
  isplitl [Hs]; · iexact Hs
  iempintro

theorem waits (c : Dev nD) : (levAts L lv : sProp 𝕄) ⊢ Pipeline.cellsWaits cfgs (dats m) () 0 c :=
  Pipeline.cellsWaits_intro cfgs (dats m) () 0 c fun w => w.elim0

theorem run_main : θ_run defs (onTc (τ := τ) (main (F := F))) ⟨m, fun _ => 0, ρ⟩
    (fun r => ∀ c : Dev nD, r.2.mem ((c : Thread nD τ).loc main_v1) = outF (Xm m) c
      ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G (Xm m)) (G' := G' (Xm m)) (u₀ := u₀)
    (hu₀ := by
      unfold u₀
      iintro Hu
      ihave H := (ownU_pair _ _) $$ Hu
      icases H with ⟨HP, HX⟩
      imod (fund_all (Xm m)) $$ HX with HG
      imodintro
      isplitl [HP]; · iexact HP
      iexact HG)
    (hglob := glob (Xm m))
    (hA := fun _ w => w.elim0) (hpf := fun _ k => k.elim0)
    (X := Φ₀ m) (Y := Yc m) (Z := fun _ => iprop(emp))
    (hX := start_intro m ρ) (hin := phi0_intro m) (hout := phi1_exit m)
    (QY := fun c s => s.mem (oLoc c) = outF (Xm m) c ∧ s.mem (xLoc c) = m (xLoc c))
    (hY := fun c s' => by
      unfold Yc
      iintro ⟨⟨Ho, Hx⟩, -, HSI⟩
      icombine HSI Ho gives %ho
      icombine HSI Hx gives %hx
      imodintro
      isplitr; · ipureintro; exact ⟨Buf.eq_of_forall_mem_univ ho, Buf.eq_of_forall_mem_univ hx⟩
      iexact HSI)
    (hQ := fun s h c => (h c).2.2)

end Cert.KernelIdeal.A2A

end
-- ==== Proof.Bits.Mesh.lean ====
import proofs.«900637_g7700000000000638_dist_a2a_v7x_xyz2x2x4_y_m1024_n512_f32_1_alg».proof.Proof.Gen.Kernel

set_option Elab.async false

namespace Cert.Kernel.A2A

open Idealize.ShloMosaic Idealize.SL.Sem Cert.Kernel Cert.Kernel.Gen

abbrev xv (d : Dev nD) : Nat := d.val / 8
abbrev yv (d : Dev nD) : Nat := (d.val / 4) % 2
abbrev pz (d : Dev nD) : Nat := d.val % 2

abbrev qme (d : Dev nD) : Nat := 2 * xv d + pz d
abbrev qxp (d : Dev nD) : Nat := 2 * (1 - xv d) + pz d
abbrev qzp (d : Dev nD) : Nat := 2 * xv d + (1 - pz d)
abbrev q4 (d : Dev nD) : Nat := 2 * (1 - xv d) + (1 - pz d)

theorem xv_le (d : Dev nD) : xv d ≤ 1 := by revert d; decide
theorem yv_le (d : Dev nD) : yv d ≤ 1 := by revert d; decide
theorem pz_le (d : Dev nD) : pz d ≤ 1 := by revert d; decide

def yp (d : Dev nD) : Dev nD := ⟨(8 * (d.val / 8) + (d.val % 4) + 4) - 4 * ((d.val / 4) % 2), by revert d; decide⟩
def xp (d : Dev nD) : Dev nD := ⟨(4 * ((d.val / 4) % 2) + (d.val % 4) + 8) - 8 * (d.val / 8), by revert d; decide⟩
def zp (d : Dev nD) : Dev nD := ⟨(d.val + 1) - 2 * (d.val % 2), by revert d; decide⟩

theorem yp_yp (d : Dev nD) : yp (yp d) = d := by revert d; decide
theorem xp_xp (d : Dev nD) : xp (xp d) = d := by revert d; decide
theorem zp_zp (d : Dev nD) : zp (zp d) = d := by revert d; decide

def ypE : Dev nD ≃ Dev nD := ⟨yp, yp, yp_yp, yp_yp⟩
def xpE : Dev nD ≃ Dev nD := ⟨xp, xp, xp_xp, xp_xp⟩
def zpE : Dev nD ≃ Dev nD := ⟨zp, zp, zp_zp, zp_zp⟩

theorem yv_yp (d : Dev nD) : yv (yp d) = 1 - yv d := by revert d; decide
theorem yv_xp (d : Dev nD) : yv (xp d) = yv d := by revert d; decide
theorem yv_zp (d : Dev nD) : yv (zp d) = yv d := by revert d; decide

theorem dev1_eq (c : Dev nD) : (⟨k0_dev1 c, k0_dev1_lt c⟩ : Dev nD) = yp c := Fin.ext (k0_dev1_eq c)
theorem dev2_eq (c : Dev nD) : (⟨k0_dev2 c, k0_dev2_lt c⟩ : Dev nD) = xp c := Fin.ext (k0_dev2_eq c)
theorem dev3_eq (c : Dev nD) : (⟨k0_dev3 c, k0_dev3_lt c⟩ : Dev nD) = zp c := by revert c; decide +kernel
theorem dev4_eq (c : Dev nD) : (⟨k0_dev4 c, k0_dev4_lt c⟩ : Dev nD) = yp c := Fin.ext (k0_dev4_eq c)
theorem dev5_eq (c : Dev nD) : (⟨k0_dev5 c, k0_dev5_lt c⟩ : Dev nD) = yp c := Fin.ext (k0_dev5_eq c)
theorem dev6_eq (c : Dev nD) : (⟨k0_dev6 c, k0_dev6_lt c⟩ : Dev nD) = yp c := Fin.ext (k0_dev6_eq c)
theorem dev7_eq (c : Dev nD) : (⟨k0_dev7 c, k0_dev7_lt c⟩ : Dev nD) = yp c := Fin.ext (k0_dev7_eq c)
theorem dev8_eq (c : Dev nD) : (⟨k0_dev8 c, k0_dev8_lt c⟩ : Dev nD) = yp c := Fin.ext (k0_dev8_eq c)
theorem dev9_eq (c : Dev nD) : (⟨k0_dev9 c, k0_dev9_lt c⟩ : Dev nD) = yp c := Fin.ext (k0_dev9_eq c)
theorem dev10_eq (c : Dev nD) : (⟨k0_dev10 c, k0_dev10_lt c⟩ : Dev nD) = xp c := Fin.ext (k0_dev10_eq c)
theorem dev11_eq (c : Dev nD) : (⟨k0_dev11 c, k0_dev11_lt c⟩ : Dev nD) = zp c := by revert c; decide +kernel
theorem dev12_eq (c : Dev nD) : (⟨k0_dev12 c, k0_dev12_lt c⟩ : Dev nD) = xp c := Fin.ext (k0_dev12_eq c)
theorem dev13_eq (c : Dev nD) : (⟨k0_dev13 c, k0_dev13_lt c⟩ : Dev nD) = zp c := by revert c; decide +kernel
theorem dev14_eq (c : Dev nD) : (⟨k0_dev14 c, k0_dev14_lt c⟩ : Dev nD) = xp c := Fin.ext (k0_dev14_eq c)
theorem dev15_eq (c : Dev nD) : (⟨k0_dev15 c, k0_dev15_lt c⟩ : Dev nD) = zp c := by revert c; decide +kernel
theorem dev16_eq (c : Dev nD) : (⟨k0_dev16 c, k0_dev16_lt c⟩ : Dev nD) = xp c := Fin.ext (k0_dev16_eq c)
theorem dev17_eq (c : Dev nD) : (⟨k0_dev17 c, k0_dev17_lt c⟩ : Dev nD) = zp c := by revert c; decide +kernel
theorem dev18_eq (c : Dev nD) : (⟨k0_dev18 c, k0_dev18_lt c⟩ : Dev nD) = zp c := by revert c; decide +kernel
theorem dev19_eq (c : Dev nD) : (⟨k0_dev19 c, k0_dev19_lt c⟩ : Dev nD) = zp c := by revert c; decide +kernel
theorem dev20_eq (c : Dev nD) : (⟨k0_dev20 c, k0_dev20_lt c⟩ : Dev nD) = xp c := Fin.ext (k0_dev20_eq c)
theorem dev21_eq (c : Dev nD) : (⟨k0_dev21 c, k0_dev21_lt c⟩ : Dev nD) = xp c := Fin.ext (k0_dev21_eq c)

theorem off1_eq : ∀ d : Dev nD, ∀ r : Fin 4, k0_off1 d (BitVec.ofNat 32 (56 * r.val)) = ![1024 * yv d + 224 * qme d + 56 * r.val, 0] := by decide +kernel

theorem off2_eq : ∀ d : Dev nD, ∀ r : Fin 4, k0_off2 d (BitVec.ofNat 32 (56 * r.val)) = ![224 * qme d + 56 * r.val, 512 - 512 * yv d] := by decide +kernel

theorem off8_eq : ∀ d : Dev nD, ∀ r : Fin 4, k0_off8 d (BitVec.ofNat 32 (56 * r.val)) = ![1024 * (1 - yv d) + 224 * qme d + 56 * r.val, 0] := by decide +kernel

theorem off9_eq : ∀ d : Dev nD, ∀ r : Fin 2, k0_off9 d (BitVec.ofNat 32 (56 * r.val)) = ![1024 * (1 - yv d) + 224 * qxp d + 56 * r.val, 0] := by decide +kernel

theorem off10_eq : ∀ d : Dev nD, ∀ r : Fin 2, k0_off10 d (BitVec.ofNat 32 (56 * r.val)) = ![1024 * (1 - yv d) + 224 * qzp d + 112 + 56 * r.val, 0] := by decide +kernel

end Cert.Kernel.A2A
-- ==== Proof.Bits.Views.lean ====
import proofs.«900637_g7700000000000638_dist_a2a_v7x_xyz2x2x4_y_m1024_n512_f32_1_alg».proof.Proof.Bits.Mesh
import Idealize.ShloMosaic.Lib.Pipeline.Value

noncomputable section

namespace Cert.Kernel.A2A

open Idealize.ShloMosaic Idealize.ShloMosaic.TcCoe Idealize.SL.Sem Cert.Kernel Cert.Kernel.Gen

abbrev xM : Memref sig .tc .hbm S1024x1024 .f32 := Memref.whole main_arg0
abbrev oM : Memref sig .tc .hbm S2048x512 .f32 := Memref.whole main_v1

abbrev ySrc (s : Dev nD) (r : Fin 4) : Memref sig .tc .hbm S56x512 .f32 :=
  xM.slice (Rect.unit (s := S1024x1024) (k0_off2 s (BitVec.ofNat 32 (56 * r.val))) S56x512.size (k0_off2_inb s r)) (fun _ => rfl)

abbrev yDst (s : Dev nD) (r : Fin 4) : Memref sig .tc .hbm S56x512 .f32 :=
  oM.slice (Rect.unit (s := S2048x512) (k0_off1 s (BitVec.ofNat 32 (56 * r.val))) S56x512.size (k0_off1_inb s r)) (fun _ => rfl)

abbrev tSrc0 (s : Dev nD) : Memref sig .tc .hbm S64x512 .f32 :=
  xM.slice (Rect.unit (s := S1024x1024) (k0_off4 s) S64x512.size (k0_off4_inb s)) (fun _ => rfl)
abbrev tSrc1 (s : Dev nD) : Memref sig .tc .hbm S64x512 .f32 :=
  xM.slice (Rect.unit (s := S1024x1024) (k0_off5 s) S64x512.size (k0_off5_inb s)) (fun _ => rfl)

abbrev tDst (s : Dev nD) (r : Fin 2) : Memref sig .tc .hbm S64x512 .f32 :=
  oM.slice (Rect.unit (s := S2048x512) (k0_off3 s (BitVec.ofNat 32 (64 * r.val))) S64x512.size (k0_off3_inb s r)) (fun _ => rfl)

abbrev lSrc (s : Dev nD) : Memref sig .tc .hbm S1024x512 .f32 :=
  xM.slice (Rect.unit (s := S1024x1024) (k0_off7 s) S1024x512.size (k0_off7_inb s)) (fun _ => rfl)
abbrev lDst (s : Dev nD) : Memref sig .tc .hbm S1024x512 .f32 :=
  oM.slice (Rect.unit (s := S2048x512) (k0_off6 s) S1024x512.size (k0_off6_inb s)) (fun _ => rfl)

abbrev fw (s : Dev nD) (r : Fin 4) : Memref sig .tc .hbm S56x512 .f32 :=
  oM.slice (Rect.unit (s := S2048x512) (k0_off8 s (BitVec.ofNat 32 (56 * r.val))) S56x512.size (k0_off8_inb s r)) (fun _ => rfl)

abbrev fa (s : Dev nD) (r : Fin 2) : Memref sig .tc .hbm S56x512 .f32 :=
  oM.slice (Rect.unit (s := S2048x512) (k0_off9 s (BitVec.ofNat 32 (56 * r.val))) S56x512.size (k0_off9_inb s r)) (fun _ => rfl)

abbrev fb (s : Dev nD) (r : Fin 2) : Memref sig .tc .hbm S56x512 .f32 :=
  oM.slice (Rect.unit (s := S2048x512) (k0_off10 s (BitVec.ofNat 32 (56 * r.val))) S56x512.size (k0_off10_inb s r)) (fun _ => rfl)

variable {Val : EltTy → Type}

abbrev XBuf (Val : EltTy → Type) : Type := (d : Dev nD) → Buf Val ((d : Thread nD τ).loc main_arg0)

def srcDev (c : Dev nD) (ρ : Nat) : Dev nD :=
  if h : ρ < 896 then
    ⟨8 * ((ρ / 224) / 2) + 4 * (1 - yv c) + 2 * ((c.val % 4) / 2) + (ρ / 224) % 2, by
      have h1 : ρ / 224 < 4 := Nat.div_lt_of_lt_mul (by omega)
      have h2 := yv_le c
      have h3 : c.val % 4 / 2 < 2 := by omega
      have h4 : (ρ / 224) / 2 < 2 := by omega
      show _ < 16
      omega⟩
  else yp c

def xIdx (c : Dev nD) (ρ : Nat) (hρ : ρ < 1024) (j : Fin 512) : S1024x1024.Idx :=
  fun a => match a with
    | ⟨0, _⟩ => ⟨ρ, hρ⟩
    | ⟨1, _⟩ => ⟨512 * yv c + j.val, by have := yv_le c; have := j.isLt; show _ < 1024; omega⟩

def outF (X : XBuf Val) (c : Dev nD) : Buf Val ((c : Thread nD τ).loc main_v1) :=
  fun i =>
    let ρ : Nat := (i 0).val % 1024
    have hρ : ρ < 1024 := Nat.mod_lt _ (by decide)
    if (i 0).val / 1024 = yv c then X c (xIdx c ρ hρ (i 1))
    else X (srcDev c ρ) (xIdx c ρ hρ (i 1))

end Cert.Kernel.A2A

end
-- ==== Proof.Bits.Core.lean ====
import proofs.«900637_g7700000000000638_dist_a2a_v7x_xyz2x2x4_y_m1024_n512_f32_1_alg».proof.Proof.Bits.Views
import Idealize.ShloMosaic.Lib.Pipeline.Launch
import Idealize.ShloMosaic.Lib.Pipeline.Kit
import Idealize.ShloMosaic.Lib.Tactic

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev barS : Sem sig := (SemArray.scalar (sig.barrier 0 rfl) : Sems sig S_).sem
abbrev barCell (c : Dev nD) : GSem nD τ sig := ((c : Thread nD τ), .reg barS)
abbrev dCell (c : Dev nD) (j : DmaSem sig) : GSem nD τ sig := ((c : Thread nD τ), .dma j)

def csem (k : Fin 38) : SemLoc sig := if h : k.val < 37 then .dma ⟨k.val, h⟩ else .reg barS
abbrev kcell (ck : Dev nD × Fin 38) : GSem nD τ sig := ((ck.1 : Thread nD τ), csem ck.2)

abbrev osem : Fin 37 → SemLoc sig := fun j => .dma j

def rowsO (lo len : Nat) : Finset S2048x512.Idx := Finset.univ.filter fun i => lo ≤ (i 0).val ∧ (i 0).val < lo + len

def rectX (r0 rl c0 : Nat) : Finset S1024x1024.Idx :=
  Finset.univ.filter fun i => (r0 ≤ (i 0).val ∧ (i 0).val < r0 + rl) ∧ (c0 ≤ (i 1).val ∧ (i 1).val < c0 + 512)

abbrev far (c : Dev nD) : Nat := 1024 * (1 - yv c)
abbrev own (c : Dev nD) : Nat := 1024 * yv c

def QR (c : Dev nD) (q r : Nat) : Finset S2048x512.Idx := rowsO (far c + 224 * q + 56 * r) 56
def TR (c : Dev nD) (r : Nat) : Finset S2048x512.Idx := rowsO (far c + 896 + 64 * r) 64
def LR (c : Dev nD) : Finset S2048x512.Idx := rowsO (own c) 1024

def YS (c : Dev nD) (r : Nat) : Finset S1024x1024.Idx := rectX (224 * qme c + 56 * r) 56 (512 - 512 * yv c)
def TS (c : Dev nD) (r : Nat) : Finset S1024x1024.Idx := rectX (896 + 64 * r) 64 (512 - 512 * yv c)
def LS (c : Dev nD) : Finset S1024x1024.Idx := rectX 0 1024 (512 * yv c)

abbrev oLoc (c : Dev nD) : Loc nD τ sig := (c : Thread nD τ).loc main_v1
abbrev xLoc (c : Dev nD) : Loc nD τ sig := (c : Thread nD τ).loc main_arg0

abbrev oPt (c : Dev nD) (S : Finset S2048x512.Idx) (q : PosShare TreeShare) (f : Buf (Elt F) (oLoc c)) : sProp 𝕄 :=
  oLoc c ↦[S]{q} f
abbrev xPt (c : Dev nD) (f : Buf (Elt F) (xLoc c)) (S : Finset S1024x1024.Idx) (q : PosShare TreeShare) : sProp 𝕄 :=
  xLoc c ↦[S]{q} f

abbrev oAny (p : Dev nD) (S : Finset S2048x512.Idx) : sProp 𝕄 := iprop(∃ f : Buf (Elt F) (oLoc p), oLoc p ↦[S]{fullShare} f)

abbrev N56 : ℕ := (fw 0 0).view.dmaCredit
abbrev N64 : ℕ := (tDst 0 0).view.dmaCredit
abbrev NL : ℕ := (lDst 0).view.dmaCredit
theorem N56_pos : 0 < N56 := View.dmaCredit_pos _ (by decide)
theorem N64_pos : 0 < N64 := View.dmaCredit_pos _ (by decide)
theorem NL_pos : 0 < NL := View.dmaCredit_pos _ (by decide)

def cr (j : DmaSem sig) : ℕ := if 8 ≤ j.val ∧ j.val < 12 then N64 else if j.val = 36 then NL else N56
theorem cr_pos (j : DmaSem sig) : 0 < cr j := by
  unfold cr; split
  · exact N64_pos
  · split
    · exact NL_pos
    · exact N56_pos

variable (X : XBuf (Elt F))

def dmaPay (c : Dev nD) : DmaSem sig → sProp 𝕄
  | ⟨0, _⟩ => xPt c (X c) (YS c 0) fullShare
  | ⟨1, _⟩ => xPt c (X c) (YS c 1) fullShare
  | ⟨2, _⟩ => xPt c (X c) (YS c 2) fullShare
  | ⟨3, _⟩ => xPt c (X c) (YS c 3) fullShare
  | ⟨4, _⟩ => oPt c (QR c (qme c) 0) fullShare (outF X c)
  | ⟨5, _⟩ => oPt c (QR c (qme c) 1) fullShare (outF X c)
  | ⟨6, _⟩ => oPt c (QR c (qme c) 2) fullShare (outF X c)
  | ⟨7, _⟩ => oPt c (QR c (qme c) 3) fullShare (outF X c)
  | ⟨8, _⟩ => xPt c (X c) (TS c 0) fullShare
  | ⟨9, _⟩ => xPt c (X c) (TS c 1) fullShare
  | ⟨10, _⟩ => oPt c (TR c 0) fullShare (outF X c)
  | ⟨11, _⟩ => oPt c (TR c 1) fullShare (outF X c)
  | ⟨12, _⟩ => oPt c (QR c (qme c) 0) fullShare.left (outF X c)
  | ⟨13, _⟩ => oPt c (QR c (qme c) 1) fullShare.left (outF X c)
  | ⟨14, _⟩ => oPt c (QR c (qme c) 2) fullShare.left (outF X c)
  | ⟨15, _⟩ => oPt c (QR c (qme c) 3) fullShare.left (outF X c)
  | ⟨16, _⟩ => oPt c (QR c (qxp c) 0) fullShare (outF X c)
  | ⟨17, _⟩ => oPt c (QR c (qxp c) 1) fullShare (outF X c)
  | ⟨18, _⟩ => oPt c (QR c (qxp c) 2) fullShare (outF X c)
  | ⟨19, _⟩ => oPt c (QR c (qxp c) 3) fullShare (outF X c)
  | ⟨20, _⟩ => oPt c (QR c (qme c) 0) fullShare.right (outF X c)
  | ⟨21, _⟩ => oPt c (QR c (qme c) 1) fullShare.right (outF X c)
  | ⟨22, _⟩ => oPt c (QR c (qme c) 2) fullShare.right (outF X c)
  | ⟨23, _⟩ => oPt c (QR c (qme c) 3) fullShare.right (outF X c)
  | ⟨24, _⟩ => oPt c (QR c (qzp c) 0) fullShare (outF X c)
  | ⟨25, _⟩ => oPt c (QR c (qzp c) 1) fullShare (outF X c)
  | ⟨26, _⟩ => oPt c (QR c (qzp c) 2) fullShare (outF X c)
  | ⟨27, _⟩ => oPt c (QR c (qzp c) 3) fullShare (outF X c)
  | ⟨28, _⟩ => oPt c (QR c (qxp c) 0) fullShare (outF X c)
  | ⟨29, _⟩ => oPt c (QR c (qxp c) 1) fullShare (outF X c)
  | ⟨30, _⟩ => oPt c (QR c (q4 c) 0) fullShare (outF X c)
  | ⟨31, _⟩ => oPt c (QR c (q4 c) 1) fullShare (outF X c)
  | ⟨32, _⟩ => oPt c (QR c (qzp c) 2) fullShare (outF X c)
  | ⟨33, _⟩ => oPt c (QR c (qzp c) 3) fullShare (outF X c)
  | ⟨34, _⟩ => oPt c (QR c (q4 c) 2) fullShare (outF X c)
  | ⟨35, _⟩ => oPt c (QR c (q4 c) 3) fullShare (outF X c)
  | ⟨36, _⟩ => iprop(oPt c (LR c) fullShare (outF X c) ∗ xPt c (X c) (LS c) fullShare)
  | ⟨_ + 37, h⟩ => absurd h (by have : sig.nDmaSem = 37 := rfl; omega)

def barPay (c : Dev nD) : Fin 3 → sProp 𝕄
  | 0 => iprop(oAny (yp c) (QR (yp c) (qme c) 0) ∗ oAny (yp c) (QR (yp c) (qme c) 1) ∗ oAny (yp c) (QR (yp c) (qme c) 2) ∗ oAny (yp c) (QR (yp c) (qme c) 3)
      ∗ oAny (yp c) (TR (yp c) 0) ∗ oAny (yp c) (TR (yp c) 1))
  | 1 => iprop(oAny (xp c) (QR (xp c) (qme c) 0) ∗ oAny (xp c) (QR (xp c) (qme c) 1) ∗ oAny (xp c) (QR (xp c) (qme c) 2) ∗ oAny (xp c) (QR (xp c) (qme c) 3)
      ∗ oAny (xp c) (QR (xp c) (qzp c) 2) ∗ oAny (xp c) (QR (xp c) (qzp c) 3))
  | 2 => iprop(oAny (zp c) (QR (zp c) (qme c) 0) ∗ oAny (zp c) (QR (zp c) (qme c) 1) ∗ oAny (zp c) (QR (zp c) (qme c) 2) ∗ oAny (zp c) (QR (zp c) (qme c) 3)
      ∗ oAny (zp c) (QR (zp c) (qxp c) 0) ∗ oAny (zp c) (QR (zp c) (qxp c) 1))

def Rd : Rounds.Schedule (GSem nD τ sig) (Fin 3) 𝕄 where
  duties g r := if r = 0 ∧ g.1.2 = .tc then (match g.2 with | .reg _ => Finset.univ | .dma _ => {0}) else ∅
  unitless _ := False
  amount g _ _ := match g.2 with | .reg _ => 1 | .dma j => cr j
  payload g _ d := match g.2 with | .reg _ => barPay g.1.1 d | .dma j => dmaPay X g.1.1 j
  amount_pos g _ _ _ := by
    cases hg : g.2 with
    | reg s => simp only [hg]; exact Nat.one_pos
    | dma j => simp only [hg]; exact cr_pos j

end Cert.Kernel.A2A

end
-- ==== Proof.Bits.Proto.lean ====
import proofs.«900637_g7700000000000638_dist_a2a_v7x_xyz2x2x4_y_m1024_n512_f32_1_alg».proof.Proof.Bits.Core

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev dj (n : Fin 37) : DmaSem sig := n

def debts (c : Dev nD) : List (GSem nD τ sig × ℕ) :=
  [ (barCell (yp c), 1), (barCell (xp c), 1), (barCell (zp c), 1),
    (dCell (yp c) (dj 4), N56), (dCell (yp c) (dj 5), N56), (dCell (yp c) (dj 6), N56), (dCell (yp c) (dj 7), N56),
    (dCell (yp c) (dj 10), N64), (dCell (yp c) (dj 11), N64),
    (dCell (xp c) (dj 16), N56), (dCell (zp c) (dj 24), N56), (dCell (xp c) (dj 17), N56), (dCell (zp c) (dj 25), N56),
    (dCell (xp c) (dj 18), N56), (dCell (zp c) (dj 26), N56), (dCell (xp c) (dj 19), N56), (dCell (zp c) (dj 27), N56),
    (dCell (zp c) (dj 30), N56), (dCell (zp c) (dj 31), N56), (dCell (xp c) (dj 34), N56), (dCell (xp c) (dj 35), N56) ]

def oweL : List (GSem nD τ sig × ℕ) → CellTallies nD τ sig Unit
  | [] => 0
  | e :: t => oweL t + tallyAt e.1 () e.2

theorem oweL_cons (e : GSem nD τ sig × ℕ) (t : List (GSem nD τ sig × ℕ)) : oweL (e :: t) = oweL t + tallyAt e.1 () e.2 := rfl
theorem oweL_nil : oweL ([] : List (GSem nD τ sig × ℕ)) = 0 := rfl

def O₀ (c : Dev nD) : CellTallies nD τ sig Unit := oweL (debts c)
abbrev owedAfter (c : Dev nD) (n : Nat) : CellTallies nD τ sig Unit := oweL ((debts c).drop n)

def lvS : SemLoc sig → ℕ
  | .reg _ => 0
  | .dma j => if (4 ≤ j.val ∧ j.val < 8) ∨ (10 ≤ j.val ∧ j.val < 12) then 1
      else if (16 ≤ j.val ∧ j.val < 20) ∨ (24 ≤ j.val ∧ j.val < 28) then 2
      else if (30 ≤ j.val ∧ j.val < 32) ∨ (34 ≤ j.val ∧ j.val < 36) then 3 else 0

def L (g : GSem nD τ sig) : Finset Unit := if g.1.2 = .tc then {()} else ∅
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

variable (X : XBuf (Elt F))

def recs (K : Dev nD × Fin 38 → ℕ) : sProp 𝕄 :=
  iprop((bigSep Finset.univ fun ck : Dev nD × Fin 38 => cellInv ER (Rd X) (K ck) (kcell ck))
    ∗ bigSep Finset.univ fun ck : Dev nD × Fin 38 => reached ER (kcell ck) 0)

instance recs_persistent (K : Dev nD × Fin 38 → ℕ) : BI.Persistent (recs X K) := by unfold recs; infer_instance

abbrev kd (j : DmaSem sig) : Fin 38 := ⟨j.val, by have := j.isLt; have : sig.nDmaSem = 37 := rfl; omega⟩
abbrev kb : Fin 38 := ⟨37, by decide⟩

abbrev tokD (c : Dev nD) (j : DmaSem sig) : sProp 𝕄 := dutyTok ER (dCell c j) 0 (0 : Fin 3)
abbrev tokB (c : Dev nD) (d : Fin 3) : sProp 𝕄 := dutyTok ER (barCell c) 0 d
abbrev pos0 (c : Dev nD) (j : DmaSem sig) : sProp 𝕄 := atPos ER (dCell c j) 0 ∅ 0
abbrev pos1 (c : Dev nD) (j : DmaSem sig) : sProp 𝕄 := atPos ER (dCell c j) 1 ∅ 0
abbrev crD (c : Dev nD) (j : DmaSem sig) : sProp 𝕄 := cred (tallyAt (dCell c j) () (cr j))

end Cert.Kernel.A2A

end
-- ==== Proof.Bits.Tables.lean ====
import proofs.«900637_g7700000000000638_dist_a2a_v7x_xyz2x2x4_y_m1024_n512_f32_1_alg».proof.Proof.Bits.Proto

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : XBuf (Elt F))

instance barPay_storable (c : Dev nD) (d : Fin 3) : BI.Storable (upEmb : UEmb _ 𝕄) (barPay (F := F) c d) := by
  match d with
  | 0 => unfold barPay; infer_instance
  | 1 => unfold barPay; infer_instance
  | 2 => unfold barPay; infer_instance

instance dmaPay_storable (c : Dev nD) (j : DmaSem sig) : BI.Storable (upEmb : UEmb _ 𝕄) (dmaPay X c j) := by
  unfold dmaPay
  split <;> first | infer_instance | exact absurd ‹_› (by have : sig.nDmaSem = 37 := rfl; omega)

instance Rd_payload_storable (g : GSem nD τ sig) (r : ℕ) (d : Fin 3) : BI.Storable (upEmb : UEmb _ 𝕄) ((Rd X).payload g r d) := by
  show BI.Storable upEmb (match g.2 with | .reg _ => barPay g.1.1 d | .dma j => dmaPay X g.1.1 j)
  split <;> infer_instance

section Tables
variable (c : Dev nD) (j : DmaSem sig) (d : Fin 3)

theorem duties_bar : (Rd X).duties (barCell c) 0 = Finset.univ := by dsimp only [Rd]; exact if_pos ⟨rfl, rfl⟩
theorem duties_dma : (Rd X).duties (dCell c j) 0 = {0} := by dsimp only [Rd]; exact if_pos ⟨rfl, rfl⟩
theorem duties_later (g : GSem nD τ sig) : ∀ r, 1 ≤ r → (Rd X).duties g r = ∅ :=
  fun r hr => by dsimp only [Rd]; exact if_neg fun h => by omega
theorem amount_bar : (Rd X).amount (barCell c) 0 d = 1 := rfl
theorem amount_dma : (Rd X).amount (dCell c j) 0 d = cr j := rfl
theorem payload_bar : (Rd X).payload (barCell c) 0 d = barPay c d := rfl
theorem payload_dma : (Rd X).payload (dCell c j) 0 d = dmaPay X c j := rfl

theorem expect_bar : (Rd X).expect (barCell c) 0 = 3 := by
  unfold Schedule.expect Schedule.amountOf
  rw [duties_bar, Finset.sum_congr rfl fun d _ => amount_bar X c d, Finset.sum_const, Finset.card_univ, Fintype.card_fin, smul_eq_mul]
theorem expect_dma : (Rd X).expect (dCell c j) 0 = cr j := by
  unfold Schedule.expect Schedule.amountOf; rw [duties_dma, Finset.sum_singleton, amount_dma]

theorem rest_bar : bigSep ((Rd X).duties (barCell c) 0 \ ∅) (fun d => (Rd X).payload (barCell c) 0 d)
    = iprop(barPay c 0 ∗ barPay c 1 ∗ barPay c 2) := by
  rw [Finset.sdiff_empty, duties_bar, bigSep_univ_eq_bigSepL [0, 1, 2] (by decide) (by decide)]
  rfl
theorem rest_dma : bigSep ((Rd X).duties (dCell c j) 0 \ ∅) (fun d => (Rd X).payload (dCell c j) 0 d) = dmaPay X c j := by
  rw [Finset.sdiff_empty, duties_dma, bigSep_singleton, payload_dma]

theorem kcell_d : kcell (c, kd j) = dCell c j := by
  unfold kcell csem; simp only [kd]; rw [dif_pos j.isLt]
theorem kcell_b : kcell (c, kb) = barCell c := by
  unfold kcell csem; rw [dif_neg (show ¬ (kb : Fin 38).val < 37 by decide)]

end Tables

theorem inv_at (K : Dev nD × Fin 38 → ℕ) (ck : Dev nD × Fin 38) : recs X K ⊢ cellInv ER (Rd X) (K ck) (kcell ck) := by
  unfold recs
  iintro ⟨HI, -⟩
  iapply (show (bigSep Finset.univ fun ck : Dev nD × Fin 38 => (cellInv ER (Rd X) (K ck) (kcell ck) : sProp 𝕄))
      ⊢ cellInv ER (Rd X) (K ck) (kcell ck) from bigSep_elim (Finset.mem_univ ck))
  iexact HI
theorem reached_at (K : Dev nD × Fin 38 → ℕ) (ck : Dev nD × Fin 38) : recs X K ⊢ (reached ER (kcell ck) 0 : sProp 𝕄) := by
  unfold recs
  iintro ⟨-, HR⟩
  iapply (show (bigSep Finset.univ fun ck : Dev nD × Fin 38 => (reached ER (kcell ck) 0 : sProp 𝕄))
      ⊢ reached ER (kcell ck) 0 from bigSep_elim (Finset.mem_univ ck))
  iexact HR

theorem inv_d (K : Dev nD × Fin 38 → ℕ) (c : Dev nD) (j : DmaSem sig) : recs X K ⊢ cellInv ER (Rd X) (K (c, kd j)) (dCell c j) := by
  have h := inv_at X K (c, kd j); rw [kcell_d] at h; exact h
theorem inv_b (K : Dev nD × Fin 38 → ℕ) (c : Dev nD) : recs X K ⊢ cellInv ER (Rd X) (K (c, kb)) (barCell c) := by
  have h := inv_at X K (c, kb); rw [kcell_b] at h; exact h
theorem reach_d (K : Dev nD × Fin 38 → ℕ) (c : Dev nD) (j : DmaSem sig) : recs X K ⊢ (reached ER (dCell c j) 0 : sProp 𝕄) := by
  have h := reached_at X K (c, kd j); rw [kcell_d] at h; exact h
theorem reach_b (K : Dev nD × Fin 38 → ℕ) (c : Dev nD) : recs X K ⊢ (reached ER (barCell c) 0 : sProp 𝕄) := by
  have h := reached_at X K (c, kb); rw [kcell_b] at h; exact h

end Cert.Kernel.A2A

end
-- ==== Proof.Bits.Rules.lean ====
import proofs.«900637_g7700000000000638_dist_a2a_v7x_xyz2x2x4_y_m1024_n512_f32_1_alg».proof.Proof.Bits.Tables

noncomputable section

namespace Cert.Kernel.A2A

open Cert.Kernel Cert.Kernel.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

abbrev 𝒱₀ : Variants := Variants.none

variable (X : XBuf (Elt F)) (K : Dev nD × Fin 38 → ℕ)

-- A signal pays one unit of the peer's barrier round and hands over that duty's payload.
theorem sig_step (c p n : Dev nD) (hn : n = p) (d : Fin 3) (O : CellTallies nD τ sig Unit) (W : Waits sig Unit) (k' : ℕ) (hk' : k' = 1)
    {α : Type} {Q : α → sProp 𝕄} {k : PUnit → Prog (TpuEff nD τ sig (Elt F) Λ₀ .tc) α} :
    ⊢ recs X K -∗ owes (c : Thread nD τ) (O + tallyAt (barCell p) () 1) W -∗ tokB p d -∗ barPay p d
      -∗ (owes (c : Thread nD τ) O W -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (n : Thread nD τ) barS k') k) Q := by
  subst hn; subst hk'
  iintro #HR HO Ht Hp
  iapply (Rounds.wp_signal 𝒱₀ ER (Rd X) (c : Thread nD τ) none (dst := (n : Thread nD τ)) (κ := K (n, kb))
      (d := d) (by rw [duties_bar]; exact Finset.mem_univ _) (amount_bar X n d) () O rfl)
  isplitr; · iapply (inv_b X K n); iexact HR
  iframe HO Ht
  isplitl [Hp]; · rw [payload_bar]; iexact Hp
  iapply (reach_b X K n); iexact HR

-- The barrier wait takes the three units of its round and receives the three payloads.
theorem barwait_step (c : Dev nD) (O : CellTallies nD τ sig Unit) (W : Waits sig Unit) (k' : ℕ) (hk' : k' = 3)
    {α : Type} {Q : α → sProp 𝕄} {k : PUnit → Prog (TpuEff nD τ sig (Elt F) Λ₀ .tc) α} :
    ⊢ recs X K -∗ cred (tallyAt (barCell c) () 3) -∗ owes (c : Thread nD τ) O W -∗ MayWait (c : Thread nD τ) (.reg barS) () O
      -∗ atPos ER (barCell c) 0 ∅ 0
      -∗ ((owes (c : Thread nD τ) O (insert (SemLoc.reg barS, ()) W) ∗ barPay c 0 ∗ barPay c 1 ∗ barPay c 2)
            -∗ wp frame (wpE (defs₀ (F := F)) 𝒱₀ (c : Thread nD τ) none) Set.univ (k ⟨⟩) Q)
      -∗ wp frame (wpE (defs₀ (F := F)) 𝒱₀ (c : Thread nD τ) none) Set.univ (.op (.semWait barS k') k) Q := by
  subst hk'
  iintro #HR Hc HO Hm Hat Hk
  iapply (Rounds.wp_wait_rest_token 𝒱₀ ER (Rd X) (c : Thread nD τ) none (κ := K (c, kb))
      (wpE_semWait_eq 𝒱₀ (c : Thread nD τ) none Set.univ) (Set.mem_univ _) () (O := O) (W := W) (R := 0) (m := 0) (T := ∅)
      (by rw [expect_bar])) $$ [Hc HO Hm Hat]
  · isplitr; · iapply (inv_b X K c); iexact HR
    iframe
  iintro ⟨HO, -, -, Hpay⟩
  ihave Hp := (Entails.of_eq (rest_bar X c)) $$ Hpay
  iapply Hk; iframe

-- A remote copy: the sender's cell is paid with the source, the receiver's with the landed contents.
theorem send_step (c c' n : Dev nD) (hn : n = c') {s : Shape}
    {src : Memref sig .tc .hbm s .f32} {dst : Memref sig .tc .hbm s .f32}
    (jS jR : DmaSem sig) (N : ℕ) (hN : dst.view.dmaCredit = N) (hS : cr jS = N) (hR : cr jR = N)
    (q : PosShare TreeShare) (fs : Buf (Elt F) (src.view.loc (c : Thread nD τ))) (fd : Buf (Elt F) (dst.view.loc (c' : Thread nD τ)))
    (hp1 : (src.view.loc (c : Thread nD τ) ↦[src.view.set]{q} fs : sProp 𝕄) ⊢ dmaPay X c jS)
    (hp2 : (dst.view.loc (c' : Thread nD τ) ↦[dst.view.set]{fullShare} (dst.view.write (Elt F) fd (src.view.read (Elt F) fs) Finset.univ) : sProp 𝕄)
      ⊢ dmaPay X c' jR)
    (O : CellTallies nD τ sig Unit) (W : Waits sig Unit)
    {hsc : (dst : Memref sig (Dev.tc n : Thread nD τ).2.kind .hbm s .f32).view.ref.isScScratch = false}
    {hsrc : src.view.WordExact} {hdst : dst.view.WordExact}
    {hsem : DmaTarget.Typed .hbm (.dma jR) (.remote (Dev.tc n : Thread nD τ) dst (.dma jS) hsc)}
    {α : Type} {Q : α → sProp 𝕄} {k : PUnit → Prog (TpuEff nD τ sig (Elt F) Λ₀ .tc) α} :
    ⊢ recs X K -∗ (src.view.loc (c : Thread nD τ) ↦[src.view.set]{q} fs) -∗ (dst.view.loc (c' : Thread nD τ) ↦[dst.view.set]{fullShare} fd)
      -∗ owes (c : Thread nD τ) (O + tallyAt (dCell c' jR) () N) W -∗ tokD c jS -∗ tokD c' jR
      -∗ ((cred (tallyAt (dCell c jS) () N) ∗ owes (c : Thread nD τ) O W)
            -∗ wp frame (wpE (defs₀ (F := F)) 𝒱₀ (c : Thread nD τ) none) Set.univ (k ⟨⟩) Q)
      -∗ wp frame (wpE (defs₀ (F := F)) 𝒱₀ (c : Thread nD τ) none) Set.univ
              (.op (.enqueueDma src (.remote (Dev.tc n : Thread nD τ) dst (.dma jS) hsc) (.dma jR) hsrc hdst hsem) k) Q := by
  subst hn
  iintro #HR Hs Hd HO HtS HtR
  iapply (Rounds.wp_send_pointsTo 𝒱₀ ER (Rd X) (c : Thread nD τ) none (κ₁ := K (c, kd jS)) (κ₂ := K (n, kd jR))
      (r₁ := 0) (r₂ := 0) (d₁ := 0) (d₂ := 0) (fd := fd)
      (by rw [duties_dma]; exact Finset.mem_singleton_self _) (by rw [duties_dma]; exact Finset.mem_singleton_self _)
      () () N (by rw [View.amount_dma]; exact hN) ((amount_dma X c jS 0).trans hS) ((amount_dma X n jR 0).trans hR) O rfl (W := W)
      (by rw [payload_dma]; exact hp1) (by rw [payload_dma]; exact hp2))
  isplitr; · iapply (inv_d X K c jS); iexact HR
  isplitr; · iapply (inv_d X K n jR); iexact HR
  iframe Hs Hd HO HtS
  isplitr; · iapply (reach_d X K c jS); iexact HR
  iframe HtR
  iapply (reach_d X K n jR); iexact HR

-- A local copy pays its one cell with both the landed destination and the source.
theorem copy_step (c : Dev nD) {s : Shape} {src dst : Memref sig .tc .hbm s .f32} (j : DmaSem sig) (N : ℕ)
    (hN : dst.view.dmaCredit = N) (hj : cr j = N)
    (q : PosShare TreeShare) (fs : Buf (Elt F) (src.view.loc (c : Thread nD τ))) (fd : Buf (Elt F) (dst.view.loc (c : Thread nD τ)))
    (hpay : iprop((dst.view.loc (c : Thread nD τ) ↦[dst.view.set]{fullShare} (dst.view.write (Elt F) fd (src.view.read (Elt F) fs) Finset.univ))
        ∗ (src.view.loc (c : Thread nD τ) ↦[src.view.set]{q} fs)) ⊢ (dmaPay X c j : sProp 𝕄))
    {hsrc : src.view.WordExact} {hdst : dst.view.WordExact} {hsem : DmaTarget.Typed (nD := nD) .hbm (.dma j) (DmaTarget.here (nD := nD) (τ := τ) (p := (Proc.tc : Proc τ)) dst)}
    {α : Type} {Q : α → sProp 𝕄} {k : PUnit → Prog (TpuEff nD τ sig (Elt F) Λ₀ .tc) α} :
    ⊢ recs X K -∗ (src.view.loc (c : Thread nD τ) ↦[src.view.set]{q} fs) -∗ (dst.view.loc (c : Thread nD τ) ↦[dst.view.set]{fullShare} fd) -∗ tokD c j
      -∗ (cred (tallyAt (dCell c j) () N) -∗ wp frame (wpE (defs₀ (F := F)) 𝒱₀ (c : Thread nD τ) none) Set.univ (k ⟨⟩) Q)
      -∗ wp frame (wpE (defs₀ (F := F)) 𝒱₀ (c : Thread nD τ) none) Set.univ
              (.op (.enqueueDma src (.here dst) (.dma j) hsrc hdst hsem) k) Q := by
  iintro #HR Hs Hd Ht
  iapply (Rounds.wp_copy_pointsTo 𝒱₀ ER (Rd X) (c : Thread nD τ) none (κ := K (c, kd j)) (r := 0) (d := 0) (fd := fd)
      (by rw [duties_dma]; exact Finset.mem_singleton_self _) () N (by rw [View.amount_dma]; exact hN) ((amount_dma X c j 0).trans hj)
      (by rw [payload_dma]; exact hpay))
  isplitr; · iapply (inv_d X K c j); iexact HR
  iframe Hs Hd Ht
  iapply (reach_d X K c j); iexact HR

-- A wait on a copy's cell takes the round's whole amount and receives the cell's payload.
theorem wait_step (c : Dev nD) (j : DmaSem sig) {s : Shape} {src dst : Memref sig .tc .hbm s .f32}
    (hN : dst.view.dmaCredit = cr j) (O : CellTallies nD τ sig Unit) (W : Waits sig Unit)
    {hsrc : src.view.WordExact} {hdst : dst.view.WordExact}
    {α : Type} {Q : α → sProp 𝕄} {k : PUnit → Prog (TpuEff nD τ sig (Elt F) Λ₀ .tc) α} :
    ⊢ recs X K -∗ crD c j -∗ owes (c : Thread nD τ) O W -∗ MayWait (c : Thread nD τ) (.dma j) () O -∗ pos0 c j
      -∗ ((owes (c : Thread nD τ) O (insert (SemLoc.dma j, ()) W) ∗ pos1 c j ∗ dmaPay X c j)
            -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 j src dst hsrc hdst) k) Q := by
  iintro #HR Hc HO Hm Hat Hk
  iapply (Rounds.wp_wait_rest_token 𝒱₀ ER (Rd X) (c : Thread nD τ) none (κ := K (c, kd j))
      (wpE_waitDma2_eq 𝒱₀ (c : Thread nD τ) none Set.univ) (Set.mem_univ _) () (O := O) (W := W) (R := 0) (m := 0) (T := ∅)
      (by rw [Nat.zero_add, expect_dma]; exact hN)) $$ [Hc HO Hm Hat]
  · isplitr; · iapply (inv_d X K c j); iexact HR
    isplitl [Hc]; · rw [hN]; iexact Hc
    iframe
  iintro ⟨HO, Hat, -, Hpay⟩
  ihave Hp := (Entails.of_eq (rest_dma X c j)) $$ Hpay
  iapply Hk; iframe

end Cert.Kernel.A2A

end
-- ==== Proof.Bits.Geom.lean ====
import proofs.«900637_g7700000000000638_dist_a2a_v7x_xyz2x2x4_y_m1024_n512_f32_1_alg».proof.Proof.Bits.Proto

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem mem_rowsO {lo len : Nat} {i : S2048x512.Idx} : i ∈ rowsO lo len ↔ lo ≤ (i 0).val ∧ (i 0).val < lo + len := by
  unfold rowsO; simp only [Finset.mem_filter, Finset.mem_univ, true_and]
theorem mem_rectX {r0 rl c0 : Nat} {i : S1024x1024.Idx} :
    i ∈ rectX r0 rl c0 ↔ (r0 ≤ (i 0).val ∧ (i 0).val < r0 + rl) ∧ (c0 ≤ (i 1).val ∧ (i 1).val < c0 + 512) := by
  unfold rectX; simp only [Finset.mem_filter, Finset.mem_univ, true_and]

private theorem rows_iff (i : S2048x512.Idx) {E E' len : Nat} {sz : Fin 2 → Nat} (hE : E = E') (h0 : sz 0 = len) (h1 : sz 1 = 512) :
    (∀ a : Fin 2, ![E, 0] a ≤ (i a).val ∧ (i a).val < ![E, 0] a + sz a) ↔ E' ≤ (i 0).val ∧ (i 0).val < E' + len := by
  subst hE h0
  constructor
  · intro h; exact h 0
  · rintro ⟨hlo, hhi⟩ a
    match a with
    | ⟨0, _⟩ => exact ⟨hlo, hhi⟩
    | ⟨1, _⟩ =>
      have hc : (i 1).val < 512 := (i 1).isLt
      refine ⟨Nat.zero_le _, ?_⟩
      show (i 1).val < 0 + sz 1
      omega

private theorem rect_iff (i : S1024x1024.Idx) {R R' C C' rl : Nat} {sz : Fin 2 → Nat} (hR : R = R') (hC : C = C')
    (h0 : sz 0 = rl) (h1 : sz 1 = 512) :
    (∀ a : Fin 2, ![R, C] a ≤ (i a).val ∧ (i a).val < ![R, C] a + sz a)
      ↔ (R' ≤ (i 0).val ∧ (i 0).val < R' + rl) ∧ (C' ≤ (i 1).val ∧ (i 1).val < C' + 512) := by
  subst hR hC h0
  constructor
  · intro h
    refine ⟨h 0, ?_⟩
    have h1' := h 1
    have e : (![R, C] : Fin 2 → Nat) 1 = C := rfl
    rw [e, h1] at h1'
    exact h1'
  · rintro ⟨hr, hc⟩ a
    match a with
    | ⟨0, _⟩ => exact hr
    | ⟨1, _⟩ =>
      show C ≤ (i 1).val ∧ (i 1).val < C + sz 1
      rw [h1]; exact hc

theorem far_xp (c : Dev nD) : far (xp c) = far c := by unfold far; rw [yv_xp]
theorem far_zp (c : Dev nD) : far (zp c) = far c := by unfold far; rw [yv_zp]
theorem far_yp (c : Dev nD) : far (yp c) = own c := by revert c; decide
theorem QR_xp (c : Dev nD) (q r : Nat) : QR (xp c) q r = QR c q r := by unfold QR; rw [far_xp]
theorem QR_zp (c : Dev nD) (q r : Nat) : QR (zp c) q r = QR c q r := by unfold QR; rw [far_zp]

theorem qme_yp (c : Dev nD) : qme (yp c) = qme c := by revert c; decide
theorem qme_xp (c : Dev nD) : qme (xp c) = qxp c := by revert c; decide
theorem qme_zp (c : Dev nD) : qme (zp c) = qzp c := by revert c; decide
theorem qzp_xp (c : Dev nD) : qzp (xp c) = q4 c := by revert c; decide
theorem qxp_zp (c : Dev nD) : qxp (zp c) = q4 c := by revert c; decide
theorem qxp_xp (c : Dev nD) : qxp (xp c) = qme c := by revert c; decide
theorem qzp_zp (c : Dev nD) : qzp (zp c) = qme c := by revert c; decide

section Slices
variable (s p : Dev nD) (q : PosShare TreeShare)

private theorem mem_oslice {sz off : Fin 2 → ℕ} (inb : ∀ a, off a + sz a ≤ S2048x512.size a) (i : S2048x512.Idx)
    {E E' len : ℕ} (ho : off = ![E, 0]) (hE : E = E') (h0 : sz 0 = len) (h1 : sz 1 = 512) :
    i ∈ (oM.slice (Rect.unit (s := S2048x512) off sz inb) (fun _ => rfl)).view.set ↔ i ∈ rowsO E' len := by
  subst ho
  show i ∈ ((View.whole main_v1).slice (Rect.unit (s := S2048x512) ![E, 0] sz inb)).set ↔ _
  rw [View.set_slice_whole, Rect.mem_set_unit, mem_rowsO]
  exact rows_iff i hE h0 h1

private theorem set_xslice {sz off : Fin 2 → ℕ} (inb : ∀ a, off a + sz a ≤ S1024x1024.size a)
    {R R' C C' rl : ℕ} (ho : off = ![R, C]) (hR : R = R') (hC : C = C') (h0 : sz 0 = rl) (h1 : sz 1 = 512) :
    (xM.slice (Rect.unit (s := S1024x1024) off sz inb) (fun _ => rfl)).view.set = rectX R' rl C' := by
  subst ho; ext i
  show i ∈ ((View.whole main_arg0).slice (Rect.unit (s := S1024x1024) ![R, C] sz inb)).set ↔ _
  rw [View.set_slice_whole, Rect.mem_set_unit, mem_rectX]
  exact rect_iff i hR hC h0 h1

theorem mem_set_yDst (r : Fin 4) (i : S2048x512.Idx) : i ∈ (yDst s r).view.set ↔ i ∈ QR (yp s) (qme s) r.val :=
  mem_oslice _ i (off1_eq s r) (by rw [far_yp]) rfl rfl
theorem mem_set_tDst (r : Fin 2) (i : S2048x512.Idx) : i ∈ (tDst s r).view.set ↔ i ∈ TR (yp s) r.val :=
  mem_oslice _ i (k0_off3_eq s r)
    (by rw [far_yp]; show 1024 * yv s + 64 * r.val + 896 = 1024 * yv s + 896 + 64 * r.val; omega) rfl rfl
theorem mem_set_lDst (i : S2048x512.Idx) : i ∈ (lDst s).view.set ↔ i ∈ LR s := mem_oslice _ i (k0_off6_eq s) rfl rfl rfl
theorem mem_set_fw (r : Fin 4) (i : S2048x512.Idx) : i ∈ (fw s r).view.set ↔ i ∈ QR s (qme s) r.val :=
  mem_oslice _ i (off8_eq s r) rfl rfl rfl
theorem mem_set_fa (r : Fin 2) (i : S2048x512.Idx) : i ∈ (fa s r).view.set ↔ i ∈ QR s (qxp s) r.val :=
  mem_oslice _ i (off9_eq s r) rfl rfl rfl
theorem mem_set_fb (r : Fin 2) (i : S2048x512.Idx) : i ∈ (fb s r).view.set ↔ i ∈ QR s (qzp s) (2 + r.val) :=
  mem_oslice _ i (off10_eq s r)
    (show 1024 * (1 - yv s) + 224 * qzp s + 112 + 56 * r.val = 1024 * (1 - yv s) + 224 * qzp s + 56 * (2 + r.val) by omega) rfl rfl

private theorem set_ySrc (r : Fin 4) : (ySrc s r).view.set = YS s r.val := set_xslice _ (off2_eq s r) rfl rfl rfl rfl
private theorem set_tSrc0 : (tSrc0 s).view.set = TS s 0 := set_xslice _ (k0_off4_eq s) rfl rfl rfl rfl
private theorem set_tSrc1 : (tSrc1 s).view.set = TS s 1 := set_xslice _ (k0_off5_eq s) rfl rfl rfl rfl
private theorem set_lSrc : (lSrc s).view.set = LS s := set_xslice _ (k0_off7_eq s) rfl rfl rfl rfl

theorem pt_ySrc (r : Fin 4) (g : Buf (Elt F) (xLoc p)) :
    ((ySrc s r).view.loc (p : Thread nD τ) ↦[(ySrc s r).view.set]{q} g : sProp 𝕄) = xPt p g (YS s r.val) q :=
  congrArg (fun S => (xLoc p ↦[S]{q} g : sProp 𝕄)) (set_ySrc s r)
theorem pt_yDst (r : Fin 4) (g : Buf (Elt F) (oLoc p)) :
    ((yDst s r).view.loc (p : Thread nD τ) ↦[(yDst s r).view.set]{q} g : sProp 𝕄) = oPt p (QR (yp s) (qme s) r.val) q g :=
  congrArg (fun S => (oLoc p ↦[S]{q} g : sProp 𝕄)) (Finset.ext (mem_set_yDst s r))
theorem pt_tSrc0 (g : Buf (Elt F) (xLoc p)) :
    ((tSrc0 s).view.loc (p : Thread nD τ) ↦[(tSrc0 s).view.set]{q} g : sProp 𝕄) = xPt p g (TS s 0) q :=
  congrArg (fun S => (xLoc p ↦[S]{q} g : sProp 𝕄)) (set_tSrc0 s)
theorem pt_tSrc1 (g : Buf (Elt F) (xLoc p)) :
    ((tSrc1 s).view.loc (p : Thread nD τ) ↦[(tSrc1 s).view.set]{q} g : sProp 𝕄) = xPt p g (TS s 1) q :=
  congrArg (fun S => (xLoc p ↦[S]{q} g : sProp 𝕄)) (set_tSrc1 s)
theorem pt_tDst (r : Fin 2) (g : Buf (Elt F) (oLoc p)) :
    ((tDst s r).view.loc (p : Thread nD τ) ↦[(tDst s r).view.set]{q} g : sProp 𝕄) = oPt p (TR (yp s) r.val) q g :=
  congrArg (fun S => (oLoc p ↦[S]{q} g : sProp 𝕄)) (Finset.ext (mem_set_tDst s r))
theorem pt_lSrc (g : Buf (Elt F) (xLoc p)) :
    ((lSrc s).view.loc (p : Thread nD τ) ↦[(lSrc s).view.set]{q} g : sProp 𝕄) = xPt p g (LS s) q :=
  congrArg (fun S => (xLoc p ↦[S]{q} g : sProp 𝕄)) (set_lSrc s)
theorem pt_lDst (g : Buf (Elt F) (oLoc p)) :
    ((lDst s).view.loc (p : Thread nD τ) ↦[(lDst s).view.set]{q} g : sProp 𝕄) = oPt p (LR s) q g :=
  congrArg (fun S => (oLoc p ↦[S]{q} g : sProp 𝕄)) (Finset.ext (mem_set_lDst s))
theorem pt_fw (r : Fin 4) (g : Buf (Elt F) (oLoc p)) :
    ((fw s r).view.loc (p : Thread nD τ) ↦[(fw s r).view.set]{q} g : sProp 𝕄) = oPt p (QR s (qme s) r.val) q g :=
  congrArg (fun S => (oLoc p ↦[S]{q} g : sProp 𝕄)) (Finset.ext (mem_set_fw s r))
theorem pt_fa (r : Fin 2) (g : Buf (Elt F) (oLoc p)) :
    ((fa s r).view.loc (p : Thread nD τ) ↦[(fa s r).view.set]{q} g : sProp 𝕄) = oPt p (QR s (qxp s) r.val) q g :=
  congrArg (fun S => (oLoc p ↦[S]{q} g : sProp 𝕄)) (Finset.ext (mem_set_fa s r))
theorem pt_fb (r : Fin 2) (g : Buf (Elt F) (oLoc p)) :
    ((fb s r).view.loc (p : Thread nD τ) ↦[(fb s r).view.set]{q} g : sProp 𝕄) = oPt p (QR s (qzp s) (2 + r.val)) q g :=
  congrArg (fun S => (oLoc p ↦[S]{q} g : sProp 𝕄)) (Finset.ext (mem_set_fb s r))

end Slices

private theorem pt_cut {ℓ : Loc nD τ sig} {I J S : Finset (Idx ℓ)} {q : PosShare TreeShare} {f : Buf (Elt F) ℓ} {P Q : sProp 𝕄}
    (hS : S = I ∪ J) (hd : Disjoint I J) (hI : (ℓ ↦[I]{q} f : sProp 𝕄) ⊣⊢ P) (hJ : (ℓ ↦[J]{q} f : sProp 𝕄) ⊣⊢ Q) :
    (ℓ ↦[S]{q} f : sProp 𝕄) ⊣⊢ iprop(P ∗ Q) := by
  subst hS; exact (pointsTo_union hd).trans (sep_congr hI hJ)

private theorem rowsO_disjoint {lo len lo' len' : Nat} (h : lo + len ≤ lo' ∨ lo' + len' ≤ lo) :
    Disjoint (rowsO lo len) (rowsO lo' len') :=
  Finset.disjoint_left.mpr fun i hi hj => by rw [mem_rowsO] at hi hj; omega

private theorem oPt_split (c : Dev nD) (q : PosShare TreeShare) (f : Buf (Elt F) (oLoc c)) {lo len lo₁ len₁ lo₂ len₂ : Nat}
    (h₁ : lo₁ = lo) (h₂ : lo₂ = lo + len₁) (h : len = len₁ + len₂) {P Q : sProp 𝕄}
    (hI : oPt c (rowsO lo₁ len₁) q f ⊣⊢ P) (hJ : oPt c (rowsO lo₂ len₂) q f ⊣⊢ Q) :
    oPt c (rowsO lo len) q f ⊣⊢ iprop(P ∗ Q) := by
  subst h₁ h₂ h
  refine pt_cut ?_ (rowsO_disjoint (Or.inl (Nat.le_refl _))) hI hJ
  ext i; simp only [Finset.mem_union, mem_rowsO]; omega

private theorem quarter_cut (c : Dev nD) (k : Nat) (f : Buf (Elt F) (oLoc c)) :
    oPt c (rowsO (far c + 224 * k) 224) fullShare f ⊣⊢ iprop(oPt c (QR c k 0) fullShare f ∗ oPt c (QR c k 1) fullShare f
      ∗ oPt c (QR c k 2) fullShare f ∗ oPt c (QR c k 3) fullShare f) := by
  unfold QR
  refine oPt_split c _ f (len₁ := 56) (len₂ := 168) ?_ rfl rfl .rfl
    (oPt_split c _ f (lo := far c + 224 * k + 56) (len₁ := 56) (len₂ := 112) ?_ ?_ rfl .rfl
      (oPt_split c _ f (lo := far c + 224 * k + 56 + 56) (len₁ := 56) (len₂ := 56) ?_ ?_ rfl .rfl .rfl))
  all_goals omega

private theorem far_cut (c : Dev nD) (f : Buf (Elt F) (oLoc c)) :
    oPt c (rowsO (far c) 1024) fullShare f ⊣⊢ iprop(oPt c (rowsO (far c + 224 * qme c) 224) fullShare f
      ∗ oPt c (rowsO (far c + 224 * qxp c) 224) fullShare f ∗ oPt c (rowsO (far c + 224 * qzp c) 224) fullShare f
      ∗ oPt c (rowsO (far c + 224 * q4 c) 224) fullShare f ∗ oPt c (rowsO (far c + 896) 128) fullShare f) := by
  have hx := xv_le c
  have hz := pz_le c
  refine pt_cut (ℓ := oLoc c) (I := rowsO (far c + 224 * qme c) 224)
    (J := rowsO (far c + 224 * qxp c) 224 ∪ (rowsO (far c + 224 * qzp c) 224 ∪ (rowsO (far c + 224 * q4 c) 224 ∪ rowsO (far c + 896) 128)))
    ?cover ?d1 .rfl (pt_cut rfl ?d2 .rfl (pt_cut rfl ?d3 .rfl (pt_cut rfl ?d4 .rfl .rfl)))
  case cover =>
    ext i
    simp only [Finset.mem_union, mem_rowsO, qme, qxp, qzp, q4]
    constructor <;> intro h <;> omega
  case d1 =>
    refine Finset.disjoint_left.mpr fun i hi hj => ?_
    simp only [Finset.mem_union, mem_rowsO, qme, qxp, qzp, q4] at hi hj
    omega
  case d2 =>
    refine Finset.disjoint_left.mpr fun i hi hj => ?_
    simp only [Finset.mem_union, mem_rowsO, qme, qxp, qzp, q4] at hi hj
    omega
  case d3 =>
    refine Finset.disjoint_left.mpr fun i hi hj => ?_
    simp only [Finset.mem_union, mem_rowsO, qme, qxp, qzp, q4] at hi hj
    omega
  case d4 =>
    refine Finset.disjoint_left.mpr fun i hi hj => ?_
    simp only [Finset.mem_union, mem_rowsO, qme, qxp, qzp, q4] at hi hj
    omega

def XR (c : Dev nD) : Finset S1024x1024.Idx :=
  Finset.univ \ (YS c 0 ∪ YS c 1 ∪ YS c 2 ∪ YS c 3 ∪ TS c 0 ∪ TS c 1 ∪ LS c)

theorem out_cut (c : Dev nD) (f : Buf (Elt F) (oLoc c)) :
    (oLoc c ↦{fullShare} f : sProp 𝕄) ⊣⊢ iprop(oPt c (LR c) fullShare f
      ∗ (oPt c (QR c (qme c) 0) fullShare f ∗ oPt c (QR c (qme c) 1) fullShare f ∗ oPt c (QR c (qme c) 2) fullShare f ∗ oPt c (QR c (qme c) 3) fullShare f)
      ∗ (oPt c (QR c (qxp c) 0) fullShare f ∗ oPt c (QR c (qxp c) 1) fullShare f ∗ oPt c (QR c (qxp c) 2) fullShare f ∗ oPt c (QR c (qxp c) 3) fullShare f)
      ∗ (oPt c (QR c (qzp c) 0) fullShare f ∗ oPt c (QR c (qzp c) 1) fullShare f ∗ oPt c (QR c (qzp c) 2) fullShare f ∗ oPt c (QR c (qzp c) 3) fullShare f)
      ∗ (oPt c (QR c (q4 c) 0) fullShare f ∗ oPt c (QR c (q4 c) 1) fullShare f ∗ oPt c (QR c (q4 c) 2) fullShare f ∗ oPt c (QR c (q4 c) 3) fullShare f)
      ∗ (oPt c (TR c 0) fullShare f ∗ oPt c (TR c 1) fullShare f)) := by
  have hy := yv_le c
  show (oLoc c ↦[Finset.univ]{fullShare} f : sProp 𝕄) ⊣⊢ _
  have top : (oLoc c ↦[Finset.univ]{fullShare} f : sProp 𝕄)
      ⊣⊢ iprop(oPt c (LR c) fullShare f ∗ oPt c (rowsO (far c) 1024) fullShare f) := by
    refine pt_cut (ℓ := oLoc c) (I := LR c) (J := rowsO (far c) 1024) ?_ ?_ .rfl .rfl
    · refine (Finset.eq_univ_of_forall fun (i : S2048x512.Idx) => ?_).symm
      have hi : (i 0).val < 2048 := (i 0).isLt
      unfold LR
      rw [Finset.mem_union, mem_rowsO, mem_rowsO]
      show (1024 * yv c ≤ (i 0).val ∧ (i 0).val < 1024 * yv c + 1024)
        ∨ (1024 * (1 - yv c) ≤ (i 0).val ∧ (i 0).val < 1024 * (1 - yv c) + 1024)
      omega
    · unfold LR
      refine rowsO_disjoint ?_
      show 1024 * yv c + 1024 ≤ 1024 * (1 - yv c) ∨ 1024 * (1 - yv c) + 1024 ≤ 1024 * yv c
      omega
  refine top.trans (sep_congr .rfl ((far_cut c f).trans ?_))
  refine sep_congr (quarter_cut c (qme c) f) (sep_congr (quarter_cut c (qxp c) f)
    (sep_congr (quarter_cut c (qzp c) f) (sep_congr (quarter_cut c (q4 c) f) ?_)))
  unfold TR
  refine oPt_split c _ f (len₁ := 64) (len₂ := 64) ?_ ?_ rfl .rfl .rfl
  all_goals omega

theorem x_cut (c : Dev nD) (f : Buf (Elt F) (xLoc c)) :
    (xLoc c ↦{fullShare} f : sProp 𝕄) ⊣⊢ iprop((xPt c f (YS c 0) fullShare ∗ xPt c f (YS c 1) fullShare ∗ xPt c f (YS c 2) fullShare ∗ xPt c f (YS c 3) fullShare)
      ∗ (xPt c f (TS c 0) fullShare ∗ xPt c f (TS c 1) fullShare) ∗ xPt c f (LS c) fullShare ∗ xPt c f (XR c) fullShare) := by
  have hy := yv_le c
  have hq : qme c ≤ 3 := by
    have hx := xv_le c
    have hz := pz_le c
    show 2 * xv c + pz c ≤ 3
    omega
  show (xLoc c ↦[Finset.univ]{fullShare} f : sProp 𝕄) ⊣⊢ _
  have h1 : (xLoc c ↦[Finset.univ]{fullShare} f : sProp 𝕄)
      ⊣⊢ iprop(xPt c f (YS c 0 ∪ YS c 1 ∪ YS c 2 ∪ YS c 3 ∪ TS c 0 ∪ TS c 1 ∪ LS c) fullShare ∗ xPt c f (XR c) fullShare) :=
    pointsTo_split_subset (Finset.subset_univ _)
  have hW : YS c 0 ∪ YS c 1 ∪ YS c 2 ∪ YS c 3 ∪ TS c 0 ∪ TS c 1 ∪ LS c
      = (YS c 0 ∪ (YS c 1 ∪ (YS c 2 ∪ YS c 3))) ∪ ((TS c 0 ∪ TS c 1) ∪ LS c) := by
    simp only [Finset.union_assoc]
  have h2 : xPt c f (YS c 0 ∪ YS c 1 ∪ YS c 2 ∪ YS c 3 ∪ TS c 0 ∪ TS c 1 ∪ LS c) fullShare
      ⊣⊢ iprop((xPt c f (YS c 0) fullShare ∗ xPt c f (YS c 1) fullShare ∗ xPt c f (YS c 2) fullShare ∗ xPt c f (YS c 3) fullShare)
        ∗ ((xPt c f (TS c 0) fullShare ∗ xPt c f (TS c 1) fullShare) ∗ xPt c f (LS c) fullShare)) := by
    refine pt_cut (ℓ := xLoc c) hW ?_ (pt_cut rfl ?_ .rfl (pt_cut rfl ?_ .rfl (pt_cut rfl ?_ .rfl .rfl)))
      (pt_cut rfl ?_ (pt_cut rfl ?_ .rfl .rfl) .rfl)
    all_goals
      refine Finset.disjoint_left.mpr fun i hi hj => ?_
      simp only [Finset.mem_union, YS, TS, LS, mem_rectX] at hi hj
      omega
  exact h1.trans ((sep_congr h2 .rfl).trans (sep_assoc.trans (sep_congr .rfl sep_assoc)))

theorem oPt_halves (c : Dev nD) (S : Finset S2048x512.Idx) (f : Buf (Elt F) (oLoc c)) :
    (oPt c S fullShare f : sProp 𝕄) ⊣⊢ iprop(oPt c S fullShare.left f ∗ oPt c S fullShare.right f) :=
  pointsTo_share (PosShare.mem_left_op_right fullShare)

end Cert.Kernel.A2A

end
-- ==== Proof.Bits.Landing.lean ====
import proofs.«900637_g7700000000000638_dist_a2a_v7x_xyz2x2x4_y_m1024_n512_f32_1_alg».proof.Proof.Bits.Geom

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : XBuf (Elt F))

theorem srcDev_val_lt (c : Dev nD) (ρ : Nat) (h : ρ < 896) :
    (srcDev c ρ).val = 8 * ((ρ / 224) / 2) + 4 * (1 - yv c) + 2 * ((c.val % 4) / 2) + (ρ / 224) % 2 := by
  unfold srcDev; rw [dif_pos h]

theorem srcDev_tail (c : Dev nD) (ρ : Nat) (h : 896 ≤ ρ) : srcDev c ρ = yp c := by
  unfold srcDev; rw [dif_neg (by omega)]

theorem xp_mod4 (c : Dev nD) : (xp c).val % 4 = c.val % 4 := by revert c; decide
theorem zp_mod4_half (c : Dev nD) : (zp c).val % 4 / 2 = c.val % 4 / 2 := by revert c; decide

theorem srcDev_xp (c : Dev nD) (ρ : Nat) (h : ρ < 896) : srcDev (xp c) ρ = srcDev c ρ := by
  apply Fin.ext
  rw [srcDev_val_lt _ _ h, srcDev_val_lt _ _ h, yv_xp, xp_mod4]
theorem srcDev_zp (c : Dev nD) (ρ : Nat) (h : ρ < 896) : srcDev (zp c) ρ = srcDev c ρ := by
  apply Fin.ext
  rw [srcDev_val_lt _ _ h, srcDev_val_lt _ _ h, yv_zp, zp_mod4_half]

theorem yp_val (c : Dev nD) : (yp c).val = 8 * xv c + 4 * (1 - yv c) + 2 * ((c.val % 4) / 2) + pz c := by revert c; decide

theorem srcDev_qme (c : Dev nD) (ρ : Nat) (h : 224 * qme c ≤ ρ ∧ ρ < 224 * qme c + 224) : srcDev c ρ = yp c := by
  have h1 := xv_le c
  have h2 := pz_le c
  have hqme : qme c = 2 * xv c + pz c := rfl
  have hq : ρ / 224 = 2 * xv c + pz c := by omega
  apply Fin.ext
  rw [srcDev_val_lt _ _ (by omega), yp_val, hq]
  omega

theorem yv_srcDev (c : Dev nD) (ρ : Nat) : yv (srcDev c ρ) = 1 - yv c := by
  by_cases h : ρ < 896
  · have h1 : ρ / 224 < 4 := Nat.div_lt_of_lt_mul (by omega)
    have h2 := yv_le c
    show ((srcDev c ρ).val / 4) % 2 = 1 - yv c
    rw [srcDev_val_lt _ _ h]
    omega
  · rw [srcDev_tail _ _ (by omega), yv_yp]

theorem quarter_rows {y q r a : Nat} (hy : y ≤ 1) (hq : q ≤ 3) (hr : r ≤ 3)
    (h : 1024 * y + 224 * q + 56 * r ≤ a ∧ a < 1024 * y + 224 * q + 56 * r + 56) :
    a / 1024 = y ∧ a % 1024 = 224 * q + 56 * r + (a - (1024 * y + 224 * q + 56 * r)) ∧
      224 * q ≤ a % 1024 ∧ a % 1024 < 224 * q + 224 := by
  have h1 : a / 1024 = y := by omega
  have h2 : a % 1024 = a - 1024 * y := by omega
  omega

theorem tail_rows {y k a : Nat} (hy : y ≤ 1) (hk : k ≤ 1)
    (h : 1024 * y + 896 + 64 * k ≤ a ∧ a < 1024 * y + 896 + 64 * k + 64) :
    a / 1024 = y ∧ a % 1024 = 896 + 64 * k + (a - (1024 * y + 64 * k + 896)) ∧ 896 ≤ a % 1024 := by
  have h1 : a / 1024 = y := by omega
  have h2 : a % 1024 = a - 1024 * y := by omega
  omega

theorem far_yp' (s : Dev nD) : far (yp s) = 1024 * yv s := by
  have hy := yv_le s
  show 1024 * (1 - yv (yp s)) = 1024 * yv s
  rw [yv_yp]; omega
theorem qme_le (s : Dev nD) : qme s ≤ 3 := by revert s; decide
theorem qxp_le (s : Dev nD) : qxp s ≤ 3 := by revert s; decide
theorem qzp_le (s : Dev nD) : qzp s ≤ 3 := by revert s; decide
theorem qme_of_yp (s : Dev nD) : qme (yp s) = qme s := by revert s; decide

theorem write_read_xo {sz : Fin 2 → Nat} (od : Fin 2 → Nat) (inbd : ∀ a, od a + sz a ≤ S2048x512.size a)
    (os : Fin 2 → Nat) (inbs : ∀ a, os a + sz a ≤ S1024x1024.size a)
    (p s : Dev nD) (fd : Buf (Elt F) (oLoc p)) (fs : Buf (Elt F) (xLoc s)) (i : S2048x512.Idx)
    (hi : ∀ a, od a ≤ (i a).val ∧ (i a).val < od a + sz a) (j : S1024x1024.Idx)
    (hj : ∀ a, (j a).val = os a + ((i a).val - od a)) :
    (oM.slice (Rect.unit (s := S2048x512) od sz inbd) (fun _ => rfl)).view.write (Elt F) fd
      ((xM.slice (Rect.unit (s := S1024x1024) os sz inbs) (fun _ => rfl)).view.read (Elt F) fs) Finset.univ i = fs j := by
  let y : (⟨2, sz⟩ : Shape).Idx := fun a => ⟨(i a).val - od a, by have := hi a; show _ < sz a; omega⟩
  have he : (oM.slice (Rect.unit (s := S2048x512) od sz inbd) (fun _ => rfl)).view.emb y = i := by
    funext a; apply Fin.ext
    show od a + 1 * ((i a).val - od a) = (i a).val
    have := hi a; omega
  have hw := View.write_emb_of_mem (v := (oM.slice (Rect.unit (s := S2048x512) od sz inbd) (fun _ => rfl)).view)
    (Val := Elt F) fd ((xM.slice (Rect.unit (s := S1024x1024) os sz inbs) (fun _ => rfl)).view.read (Elt F) fs)
    (M := Finset.univ) (x := y) (Finset.mem_univ _)
  rw [he] at hw
  rw [hw, View.read_apply, cast_cast, cast_eq]
  congr 1
  funext a; apply Fin.ext
  show os a + 1 * ((i a).val - od a) = (j a).val
  rw [hj a]; omega

theorem write_read_oo {sz : Fin 2 → Nat} (od : Fin 2 → Nat) (inbd : ∀ a, od a + sz a ≤ S2048x512.size a)
    (p s : Dev nD) (fd : Buf (Elt F) (oLoc p)) (fs : Buf (Elt F) (oLoc s)) (i : S2048x512.Idx)
    (hi : ∀ a, od a ≤ (i a).val ∧ (i a).val < od a + sz a) :
    (oM.slice (Rect.unit (s := S2048x512) od sz inbd) (fun _ => rfl)).view.write (Elt F) fd
      ((oM.slice (Rect.unit (s := S2048x512) od sz inbd) (fun _ => rfl)).view.read (Elt F) fs) Finset.univ i = fs i := by
  let y : (⟨2, sz⟩ : Shape).Idx := fun a => ⟨(i a).val - od a, by have := hi a; show _ < sz a; omega⟩
  have he : (oM.slice (Rect.unit (s := S2048x512) od sz inbd) (fun _ => rfl)).view.emb y = i := by
    funext a; apply Fin.ext
    show od a + 1 * ((i a).val - od a) = (i a).val
    have := hi a; omega
  have hw := View.write_emb_of_mem (v := (oM.slice (Rect.unit (s := S2048x512) od sz inbd) (fun _ => rfl)).view)
    (Val := Elt F) fd ((oM.slice (Rect.unit (s := S2048x512) od sz inbd) (fun _ => rfl)).view.read (Elt F) fs)
    (M := Finset.univ) (x := y) (Finset.mem_univ _)
  rw [he] at hw
  rw [hw, View.read_apply, cast_cast, cast_eq, he]

theorem outF_own (c : Dev nD) (i : S2048x512.Idx) (h : (i 0).val / 1024 = yv c) :
    outF X c i = X c (xIdx c ((i 0).val % 1024) (Nat.mod_lt _ (by decide)) (i 1)) := by
  unfold outF; exact if_pos h
theorem outF_far (c : Dev nD) (i : S2048x512.Idx) (h : (i 0).val / 1024 ≠ yv c) :
    outF X c i = X (srcDev c ((i 0).val % 1024)) (xIdx c ((i 0).val % 1024) (Nat.mod_lt _ (by decide)) (i 1)) := by
  unfold outF; exact if_neg h

theorem xIdx_congr (c c' : Dev nD) (h : yv c' = yv c) (ρ : Nat) (hρ : ρ < 1024) (j : Fin 512) : xIdx c' ρ hρ j = xIdx c ρ hρ j := by
  funext a
  match a with
  | ⟨0, _⟩ => rfl
  | ⟨1, _⟩ => apply Fin.ext; show 512 * yv c' + j.val = 512 * yv c + j.val; rw [h]

theorem outF_xp (c : Dev nD) (i : S2048x512.Idx) (h : far c ≤ (i 0).val ∧ (i 0).val < far c + 896) : outF X (xp c) i = outF X c i := by
  have hy := yv_le c
  have hfar : far c = 1024 * (1 - yv c) := rfl
  have hne : (i 0).val / 1024 ≠ yv c := by omega
  rw [outF_far X c i hne, outF_far X (xp c) i (by rw [yv_xp]; exact hne), srcDev_xp c _ (by omega),
    xIdx_congr c (xp c) (yv_xp c) _ _ (i 1)]
theorem outF_zp (c : Dev nD) (i : S2048x512.Idx) (h : far c ≤ (i 0).val ∧ (i 0).val < far c + 896) : outF X (zp c) i = outF X c i := by
  have hy := yv_le c
  have hfar : far c = 1024 * (1 - yv c) := rfl
  have hne : (i 0).val / 1024 ≠ yv c := by omega
  rw [outF_far X c i hne, outF_far X (zp c) i (by rw [yv_zp]; exact hne), srcDev_zp c _ (by omega),
    xIdx_congr c (zp c) (yv_zp c) _ _ (i 1)]

theorem land_y (s : Dev nD) (r : Fin 4) (fd : Buf (Elt F) (oLoc (yp s))) :
    ∀ i ∈ QR (yp s) (qme s) r.val, (yDst s r).view.write (Elt F) fd ((ySrc s r).view.read (Elt F) (X s)) Finset.univ i = outF X (yp s) i := by
  intro i hi
  have hy := yv_le s
  have hi' := (mem_rowsO (lo := far (yp s) + 224 * qme s + 56 * r.val) (len := 56)).mp hi
  rw [far_yp'] at hi'
  have hr : r.val ≤ 3 := by have := r.isLt; omega
  obtain ⟨hdiv, hmod, hlo, hhi⟩ := quarter_rows hy (qme_le s) hr hi'
  have h1 : (i 1).val < 512 := (i 1).isLt
  have hne : (i 0).val / 1024 ≠ yv (yp s) := by rw [hdiv, yv_yp]; omega
  have hsrc : srcDev (yp s) ((i 0).val % 1024) = s := by
    rw [srcDev_qme (yp s) _ (by rw [qme_of_yp]; exact ⟨hlo, hhi⟩), yp_yp]
  rw [outF_far X (yp s) i hne, hsrc]
  have e1 := off1_eq s r
  have e2 := off2_eq s r
  refine write_read_xo (sz := S56x512.size) _ (k0_off1_inb s r) _ (k0_off2_inb s r) (yp s) s fd (X s) i ?_ _ ?_
  · rw [e1]; refine Fin.forall_fin_two.mpr ⟨hi', ?_⟩
    show 0 ≤ (i 1).val ∧ (i 1).val < 0 + 512; omega
  · rw [e1, e2]; refine Fin.forall_fin_two.mpr ⟨hmod, ?_⟩
    show 512 * yv (yp s) + (i 1).val = 512 - 512 * yv s + ((i 1).val - 0); rw [yv_yp]; omega

theorem land_t0 (s : Dev nD) (fd : Buf (Elt F) (oLoc (yp s))) :
    ∀ i ∈ TR (yp s) 0, (tDst s 0).view.write (Elt F) fd ((tSrc0 s).view.read (Elt F) (X s)) Finset.univ i = outF X (yp s) i := by
  intro i hi
  have hy := yv_le s
  have hi' := (mem_rowsO (lo := far (yp s) + 896 + 64 * 0) (len := 64)).mp hi
  rw [far_yp'] at hi'
  obtain ⟨hdiv, hmod, hlo⟩ := tail_rows hy (k := 0) (by omega) hi'
  have h1 : (i 1).val < 512 := (i 1).isLt
  have hne : (i 0).val / 1024 ≠ yv (yp s) := by rw [hdiv, yv_yp]; omega
  have hsrc : srcDev (yp s) ((i 0).val % 1024) = s := by
    rw [srcDev_tail (yp s) _ hlo, yp_yp]
  rw [outF_far X (yp s) i hne, hsrc]
  have e3 := k0_off3_eq s 0
  have e4 := k0_off4_eq s
  refine write_read_xo (sz := S64x512.size) _ (k0_off3_inb s 0) _ (k0_off4_inb s) (yp s) s fd (X s) i ?_ _ ?_
  · rw [e3]; refine Fin.forall_fin_two.mpr ⟨?_, ?_⟩
    · show 1024 * yv s + 64 * 0 + 896 ≤ (i 0).val ∧ (i 0).val < 1024 * yv s + 64 * 0 + 896 + 64; omega
    · show 0 ≤ (i 1).val ∧ (i 1).val < 0 + 512; omega
  · rw [e3, e4]; refine Fin.forall_fin_two.mpr ⟨?_, ?_⟩
    · show (i 0).val % 1024 = 896 + ((i 0).val - (1024 * yv s + 64 * 0 + 896)); omega
    · show 512 * yv (yp s) + (i 1).val = 512 - 512 * yv s + ((i 1).val - 0); rw [yv_yp]; omega
theorem land_t1 (s : Dev nD) (fd : Buf (Elt F) (oLoc (yp s))) :
    ∀ i ∈ TR (yp s) 1, (tDst s 1).view.write (Elt F) fd ((tSrc1 s).view.read (Elt F) (X s)) Finset.univ i = outF X (yp s) i := by
  intro i hi
  have hy := yv_le s
  have hi' := (mem_rowsO (lo := far (yp s) + 896 + 64 * 1) (len := 64)).mp hi
  rw [far_yp'] at hi'
  obtain ⟨hdiv, hmod, hlo⟩ := tail_rows hy (k := 1) (by omega) hi'
  have h1 : (i 1).val < 512 := (i 1).isLt
  have hne : (i 0).val / 1024 ≠ yv (yp s) := by rw [hdiv, yv_yp]; omega
  have hsrc : srcDev (yp s) ((i 0).val % 1024) = s := by
    rw [srcDev_tail (yp s) _ hlo, yp_yp]
  rw [outF_far X (yp s) i hne, hsrc]
  have e3 := k0_off3_eq s 1
  have e4 := k0_off5_eq s
  refine write_read_xo (sz := S64x512.size) _ (k0_off3_inb s 1) _ (k0_off5_inb s) (yp s) s fd (X s) i ?_ _ ?_
  · rw [e3]; refine Fin.forall_fin_two.mpr ⟨?_, ?_⟩
    · show 1024 * yv s + 64 * 1 + 896 ≤ (i 0).val ∧ (i 0).val < 1024 * yv s + 64 * 1 + 896 + 64; omega
    · show 0 ≤ (i 1).val ∧ (i 1).val < 0 + 512; omega
  · rw [e3, e4]; refine Fin.forall_fin_two.mpr ⟨?_, ?_⟩
    · show (i 0).val % 1024 = 960 + ((i 0).val - (1024 * yv s + 64 * 1 + 896)); omega
    · show 512 * yv (yp s) + (i 1).val = 512 - 512 * yv s + ((i 1).val - 0); rw [yv_yp]; omega

theorem land_l (s : Dev nD) (fd : Buf (Elt F) (oLoc s)) :
    ∀ i ∈ LR s, (lDst s).view.write (Elt F) fd ((lSrc s).view.read (Elt F) (X s)) Finset.univ i = outF X s i := by
  intro i hi
  have hi' := (mem_rowsO (lo := own s) (len := 1024)).mp hi
  have hy := yv_le s
  have h1 : (i 1).val < 512 := (i 1).isLt
  have hown : own s = 1024 * yv s := rfl
  rw [outF_own X s i (by omega)]
  have e6 := k0_off6_eq s
  have e7 := k0_off7_eq s
  refine write_read_xo (sz := S1024x512.size) (k0_off6 s) (k0_off6_inb s) (k0_off7 s) (k0_off7_inb s) s s fd (X s) i ?_ _ ?_
  · rw [e6]; refine Fin.forall_fin_two.mpr ⟨?_, ?_⟩
    · show 1024 * yv s ≤ (i 0).val ∧ (i 0).val < 1024 * yv s + 1024; omega
    · show 0 ≤ (i 1).val ∧ (i 1).val < 0 + 512; omega
  · rw [e6, e7]; refine Fin.forall_fin_two.mpr ⟨?_, ?_⟩
    · show (i 0).val % 1024 = 0 + ((i 0).val - 1024 * yv s); omega
    · show 512 * yv s + (i 1).val = 512 * yv s + ((i 1).val - 0); omega

-- Rows already final on the sender, copied onto the same rows of a peer whose result agrees there, are final on the peer.
private theorem land_fwd (s p : Dev nD) {off : Fin 2 → ℕ} (inb : ∀ a, off a + S56x512.size a ≤ S2048x512.size a)
    {lo : ℕ} (ho : off = ![lo, 0]) (hlo : 1024 * (1 - yv s) ≤ lo ∧ lo + 56 ≤ 1024 * (1 - yv s) + 896)
    (hout : ∀ i : S2048x512.Idx, far s ≤ (i 0).val ∧ (i 0).val < far s + 896 → outF X p i = outF X s i)
    (fs : Buf (Elt F) (oLoc s)) (fd : Buf (Elt F) (oLoc p)) (i : S2048x512.Idx)
    (hi : lo ≤ (i 0).val ∧ (i 0).val < lo + 56) (hfs : fs i = outF X s i) :
    (oM.slice (Rect.unit (s := S2048x512) off S56x512.size inb) (fun _ => rfl)).view.write (Elt F) fd
      ((oM.slice (Rect.unit (s := S2048x512) off S56x512.size inb) (fun _ => rfl)).view.read (Elt F) fs) Finset.univ i = outF X p i := by
  have h1 : (i 1).val < 512 := (i 1).isLt
  rw [hout i (by show 1024 * (1 - yv s) ≤ _ ∧ _ < 1024 * (1 - yv s) + 896; omega), ← hfs]
  refine write_read_oo (sz := S56x512.size) _ inb p s fd fs i ?_
  rw [ho]; refine Fin.forall_fin_two.mpr ⟨hi, ?_⟩
  show 0 ≤ (i 1).val ∧ (i 1).val < 0 + 512; omega

theorem land_xq (s : Dev nD) (r : Fin 4) (fs : Buf (Elt F) (oLoc s)) (hfs : ∀ i ∈ QR s (qme s) r.val, fs i = outF X s i) (fd : Buf (Elt F) (oLoc (xp s))) :
    ∀ i ∈ QR s (qme s) r.val, (fw s r).view.write (Elt F) fd ((fw s r).view.read (Elt F) fs) Finset.univ i = outF X (xp s) i := fun i hi =>
  land_fwd X s (xp s) (k0_off8_inb s r) (off8_eq s r) (by have := qme_le s; have := r.isLt; omega) (outF_xp X s) fs fd i (mem_rowsO.mp hi) (hfs i hi)
theorem land_zq (s : Dev nD) (r : Fin 4) (fs : Buf (Elt F) (oLoc s)) (hfs : ∀ i ∈ QR s (qme s) r.val, fs i = outF X s i) (fd : Buf (Elt F) (oLoc (zp s))) :
    ∀ i ∈ QR s (qme s) r.val, (fw s r).view.write (Elt F) fd ((fw s r).view.read (Elt F) fs) Finset.univ i = outF X (zp s) i := fun i hi =>
  land_fwd X s (zp s) (k0_off8_inb s r) (off8_eq s r) (by have := qme_le s; have := r.isLt; omega) (outF_zp X s) fs fd i (mem_rowsO.mp hi) (hfs i hi)
theorem land_fa (s : Dev nD) (r : Fin 2) (fs : Buf (Elt F) (oLoc s)) (hfs : ∀ i ∈ QR s (qxp s) r.val, fs i = outF X s i) (fd : Buf (Elt F) (oLoc (zp s))) :
    ∀ i ∈ QR s (qxp s) r.val, (fa s r).view.write (Elt F) fd ((fa s r).view.read (Elt F) fs) Finset.univ i = outF X (zp s) i := fun i hi =>
  land_fwd X s (zp s) (k0_off9_inb s r) (off9_eq s r) (by have := qxp_le s; have := r.isLt; omega) (outF_zp X s) fs fd i (mem_rowsO.mp hi) (hfs i hi)
theorem land_fb (s : Dev nD) (r : Fin 2) (fs : Buf (Elt F) (oLoc s)) (hfs : ∀ i ∈ QR s (qzp s) (2 + r.val), fs i = outF X s i) (fd : Buf (Elt F) (oLoc (xp s))) :
    ∀ i ∈ QR s (qzp s) (2 + r.val), (fb s r).view.write (Elt F) fd ((fb s r).view.read (Elt F) fs) Finset.univ i = outF X (xp s) i := fun i hi =>
  land_fwd X s (xp s) (k0_off10_inb s r) (off10_eq s r) (by have := qzp_le s; have := r.isLt; omega) (outF_xp X s) fs fd i
    (by have := mem_rowsO.mp hi; dsimp only [far] at this; omega) (hfs i hi)

theorem meshLin_y (d : Dev nD) : Layout.meshLin [2, 2, 4] d.val [1] = yv d := by revert d; decide

theorem outF_block (Xw : (⟨2, ![2048, 1024]⟩ : Shape).Idx → Elt F .f32)
    (hX : ∀ c : Dev nD, X c = Layout.blockN ⟨2, ![1024, 1024]⟩ ⟨2, ![2048, 1024]⟩ (Layout.meshBlock [2, 2, 4] ![[1], []] c) Xw) (c : Dev nD) :
    outF X c = Layout.blockN ⟨2, ![2048, 512]⟩ ⟨2, ![2048, 1024]⟩ (Layout.meshBlock [2, 2, 4] ![[], [1]] c) Xw := by
  funext i
  have hy := yv_le c
  have h0 : (i 0).val < 2048 := (i 0).isLt
  by_cases h : (i 0).val / 1024 = yv c
  · rw [outF_own X c i h, hX c, Layout.blockN_apply, Layout.blockN_apply]
    congr 1
    funext b
    apply Fin.ext
    rw [Layout.TilesN.idx_val, Layout.TilesN.idx_val]
    match b with
    | ⟨0, _⟩ =>
      show Layout.meshLin [2, 2, 4] c.val [1] * 1024 + (i 0).val % 1024 = Layout.meshLin [2, 2, 4] c.val [] * 2048 + (i 0).val
      rw [meshLin_y]
      show yv c * 1024 + (i 0).val % 1024 = 0 * 2048 + (i 0).val
      omega
    | ⟨1, _⟩ =>
      show Layout.meshLin [2, 2, 4] c.val [] * 1024 + (512 * yv c + (i 1).val) = Layout.meshLin [2, 2, 4] c.val [1] * 512 + (i 1).val
      rw [meshLin_y]
      show 0 * 1024 + (512 * yv c + (i 1).val) = yv c * 512 + (i 1).val
      omega
  · rw [outF_far X c i h, hX (srcDev c ((i 0).val % 1024)), Layout.blockN_apply, Layout.blockN_apply]
    congr 1
    funext b
    apply Fin.ext
    rw [Layout.TilesN.idx_val, Layout.TilesN.idx_val]
    match b with
    | ⟨0, _⟩ =>
      show Layout.meshLin [2, 2, 4] (srcDev c ((i 0).val % 1024)).val [1] * 1024 + (i 0).val % 1024 = Layout.meshLin [2, 2, 4] c.val [] * 2048 + (i 0).val
      rw [meshLin_y, yv_srcDev]
      show (1 - yv c) * 1024 + (i 0).val % 1024 = 0 * 2048 + (i 0).val
      omega
    | ⟨1, _⟩ =>
      show Layout.meshLin [2, 2, 4] (srcDev c ((i 0).val % 1024)).val [] * 1024 + (512 * yv c + (i 1).val) = Layout.meshLin [2, 2, 4] c.val [1] * 512 + (i 1).val
      rw [meshLin_y]
      show 0 * 1024 + (512 * yv c + (i 1).val) = yv c * 512 + (i 1).val
      omega

/-- info: 'Cert.Kernel.A2A.outF_block' depends on axioms: [propext, Classical.choice, Quot.sound] -/
#guard_msgs in #print axioms outF_block
/-- info: 'Cert.Kernel.A2A.land_y' depends on axioms: [propext, Classical.choice, Quot.sound] -/
#guard_msgs in #print axioms land_y

end Cert.Kernel.A2A

end
-- ==== Proof.Bits.Levels.lean ====
import proofs.«900637_g7700000000000638_dist_a2a_v7x_xyz2x2x4_y_m1024_n512_f32_1_alg».proof.Proof.Bits.Tables

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : XBuf (Elt F))

theorem oweL_pos {l : List (GSem nD τ sig × ℕ)} {g : GSem nD τ sig} {u : Unit} (h : 0 < oweL l g u) : ∃ e ∈ l, e.1 = g := by
  induction l with
  | nil => rw [oweL_nil, Pi.zero_apply, Finsupp.zero_apply] at h; exact absurd h (Nat.lt_irrefl 0)
  | cons e t ih =>
    rw [oweL_cons] at h
    rcases Pipeline.add_pos_cases h with h | h
    · obtain ⟨e', he', hg⟩ := ih h
      exact ⟨e', List.mem_cons_of_mem _ he', hg⟩
    · exact ⟨e, List.mem_cons_self, (Pipeline.tallyAt_pos h).1.symm⟩

theorem mayWait_of (c : Dev nD) (sm : SemLoc sig) (l : List (GSem nD τ sig × ℕ))
    (h : ∀ e ∈ l, e.1.1.2 = .tc ∧ lvS sm < lvS e.1.2) :
    (levAts L lv : sProp 𝕄) ⊢ MayWait (c : Thread nD τ) sm () (oweL l) :=
  MayOwe.of_cut (L := L) (lev := lv) (lvS sm)
    (fun p hp => by rw [Finset.mem_singleton.mp hp, L_tc]; exact Finset.mem_singleton_self _)
    (fun g u hg => by
      obtain ⟨e, he, rfl⟩ := oweL_pos hg
      unfold L; rw [if_pos (h e he).1]; exact Finset.mem_singleton_self _)
    (fun p hp => by rw [Finset.mem_singleton.mp hp]; exact le_refl _)
    (fun g u hg => by
      obtain ⟨e, he, rfl⟩ := oweL_pos hg
      exact (h e he).2)

theorem launchCred_cons (e : Dev nD → GSem nD τ sig × ℕ) (t : Dev nD → List (GSem nD τ sig × ℕ)) (c : Dev nD) :
    (Pipeline.launchCred (fun d => oweL (e d :: t d)) c : sProp 𝕄)
      = iprop(Pipeline.launchCred (fun d => oweL (t d)) c ∗ Pipeline.launchCred (fun d => tallyAt (e d).1 () (e d).2) c) :=
  Pipeline.launchCred_add _ _ c

theorem cred_peer (f : Dev nD → Dev nD) (hf : ∀ d, f (f d) = d) (sm : SemLoc sig) (n : ℕ) (c : Dev nD) :
    (Pipeline.launchCred (fun d => tallyAt ((f d : Thread nD τ), sm) () n) c : sProp 𝕄)
      ⊢ cred (tallyAt ((c : Thread nD τ), sm) () n) :=
  Pipeline.launchCred_tallyAt sm f f hf hf () n c

theorem crD_peer (f : Dev nD → Dev nD) (hf : ∀ d, f (f d) = d) (j : DmaSem sig) (n : ℕ) (hn : cr j = n) (c : Dev nD) :
    (Pipeline.launchCred (fun d => tallyAt (dCell (f d) j) () n) c : sProp 𝕄) ⊢ crD c j := by
  subst hn; exact cred_peer f hf (.dma j) _ c

theorem cred_three (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) by
    rw [tallyAt_add, tallyAt_add]]
  exact (sep_mono_right (cred_add _ _).2).trans (cred_add _ _).2

-- The launch credit of all debts is, cell by cell, what each device's peers owe it.
theorem launch_creds (c : Dev nD) :
    (Pipeline.launchCred O₀ c : sProp 𝕄) ⊢ iprop(cred (tallyAt (barCell c) () 3)
      ∗ (crD c (dj 4) ∗ crD c (dj 5) ∗ crD c (dj 6) ∗ crD c (dj 7)) ∗ (crD c (dj 10) ∗ crD c (dj 11))
      ∗ (crD c (dj 16) ∗ crD c (dj 17) ∗ crD c (dj 18) ∗ crD c (dj 19)) ∗ (crD c (dj 24) ∗ crD c (dj 25) ∗ crD c (dj 26) ∗ crD c (dj 27))
      ∗ (crD c (dj 30) ∗ crD c (dj 31)) ∗ (crD c (dj 34) ∗ crD c (dj 35))) := by
  rw [show (O₀ : Dev nD → CellTallies nD τ sig Unit) = fun d => oweL (debts d) from rfl]; unfold debts
  repeat rw [launchCred_cons]
  rw [show (Pipeline.launchCred (fun _ : Dev nD => oweL ([] : List (GSem nD τ sig × ℕ))) c : sProp 𝕄) = iprop(emp) from
      Pipeline.launchCred_zero c]
  dsimp only
  iintro ⟨⟨⟨⟨⟨⟨⟨⟨⟨⟨⟨⟨⟨⟨⟨⟨⟨⟨⟨⟨⟨-, H35⟩, H34⟩, H31⟩, H30⟩, H27⟩, H19⟩, H26⟩, H18⟩, H25⟩, H17⟩, H24⟩, H16⟩, H11⟩, H10⟩, H7⟩, H6⟩, H5⟩, H4⟩, Hz⟩, Hx⟩, Hy⟩
  ihave Hy := (cred_peer yp yp_yp (.reg barS) 1 c) $$ Hy
  ihave Hx := (cred_peer xp xp_xp (.reg barS) 1 c) $$ Hx
  ihave Hz := (cred_peer zp zp_zp (.reg barS) 1 c) $$ Hz
  ihave H4 := (crD_peer yp yp_yp (dj 4) N56 rfl c) $$ H4
  ihave H5 := (crD_peer yp yp_yp (dj 5) N56 rfl c) $$ H5
  ihave H6 := (crD_peer yp yp_yp (dj 6) N56 rfl c) $$ H6
  ihave H7 := (crD_peer yp yp_yp (dj 7) N56 rfl c) $$ H7
  ihave H10 := (crD_peer yp yp_yp (dj 10) N64 rfl c) $$ H10
  ihave H11 := (crD_peer yp yp_yp (dj 11) N64 rfl c) $$ H11
  ihave H16 := (crD_peer xp xp_xp (dj 16) N56 rfl c) $$ H16
  ihave H17 := (crD_peer xp xp_xp (dj 17) N56 rfl c) $$ H17
  ihave H18 := (crD_peer xp xp_xp (dj 18) N56 rfl c) $$ H18
  ihave H19 := (crD_peer xp xp_xp (dj 19) N56 rfl c) $$ H19
  ihave H24 := (crD_peer zp zp_zp (dj 24) N56 rfl c) $$ H24
  ihave H25 := (crD_peer zp zp_zp (dj 25) N56 rfl c) $$ H25
  ihave H26 := (crD_peer zp zp_zp (dj 26) N56 rfl c) $$ H26
  ihave H27 := (crD_peer zp zp_zp (dj 27) N56 rfl c) $$ H27
  ihave H30 := (crD_peer zp zp_zp (dj 30) N56 rfl c) $$ H30
  ihave H31 := (crD_peer zp zp_zp (dj 31) N56 rfl c) $$ H31
  ihave H34 := (crD_peer xp xp_xp (dj 34) N56 rfl c) $$ H34
  ihave H35 := (crD_peer xp xp_xp (dj 35) N56 rfl c) $$ H35
  isplitl [Hy Hx Hz]
  · iapply (cred_three (barCell c)); iframe
  iframe

/-- info: 'Cert.Kernel.A2A.mayWait_of' depends on axioms: [propext, Classical.choice, Quot.sound] -/
#guard_msgs in #print axioms mayWait_of

/-- info: 'Cert.Kernel.A2A.launch_creds' depends on axioms: [propext, Classical.choice, Quot.sound] -/
#guard_msgs in #print axioms launch_creds

end Cert.Kernel.A2A

end
-- ==== Proof.Bits.Res.lean ====
import proofs.«900637_g7700000000000638_dist_a2a_v7x_xyz2x2x4_y_m1024_n512_f32_1_alg».proof.Proof.Bits.Rules
import proofs.«900637_g7700000000000638_dist_a2a_v7x_xyz2x2x4_y_m1024_n512_f32_1_alg».proof.Proof.Bits.Geom
import proofs.«900637_g7700000000000638_dist_a2a_v7x_xyz2x2x4_y_m1024_n512_f32_1_alg».proof.Proof.Bits.Landing
import proofs.«900637_g7700000000000638_dist_a2a_v7x_xyz2x2x4_y_m1024_n512_f32_1_alg».proof.Proof.Bits.Levels
import proofs.«900637_g7700000000000638_dist_a2a_v7x_xyz2x2x4_y_m1024_n512_f32_1_alg».proof.Proof.Gen.Kernel.Skeleton

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev Dy (c : Dev nD) (r : Nat) : sProp 𝕄 := oAny (yp c) (QR (yp c) (qme c) r)
abbrev Dt (c : Dev nD) (r : Nat) : sProp 𝕄 := oAny (yp c) (TR (yp c) r)
abbrev Dx (c : Dev nD) (r : Nat) : sProp 𝕄 := oAny (xp c) (QR (xp c) (qme c) r)
abbrev Dfb (c : Dev nD) (r : Nat) : sProp 𝕄 := oAny (xp c) (QR (xp c) (qzp c) (2 + r))
abbrev Dz (c : Dev nD) (r : Nat) : sProp 𝕄 := oAny (zp c) (QR (zp c) (qme c) r)
abbrev Dfa (c : Dev nD) (r : Nat) : sProp 𝕄 := oAny (zp c) (QR (zp c) (qxp c) r)

theorem barPay0_eq (c : Dev nD) : (barPay c 0 : sProp 𝕄) = iprop(Dy c 0 ∗ Dy c 1 ∗ Dy c 2 ∗ Dy c 3 ∗ Dt c 0 ∗ Dt c 1) := rfl
theorem barPay1_eq (c : Dev nD) : (barPay c 1 : sProp 𝕄) = iprop(Dx c 0 ∗ Dx c 1 ∗ Dx c 2 ∗ Dx c 3 ∗ Dfb c 0 ∗ Dfb c 1) := rfl
theorem barPay2_eq (c : Dev nD) : (barPay c 2 : sProp 𝕄) = iprop(Dz c 0 ∗ Dz c 1 ∗ Dz c 2 ∗ Dz c 3 ∗ Dfa c 0 ∗ Dfa c 1) := rfl

end Cert.Kernel.A2A

end
-- ==== Proof.Bits.Ghost.lean ====
import proofs.«900637_g7700000000000638_dist_a2a_v7x_xyz2x2x4_y_m1024_n512_f32_1_alg».proof.Proof.Bits.Tables

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : XBuf (Elt F))

def sendJ : Finset (DmaSem sig) :=
  {dj 0, dj 1, dj 2, dj 3, dj 8, dj 9, dj 12, dj 13, dj 14, dj 15, dj 20, dj 21, dj 22, dj 23, dj 28, dj 29, dj 32, dj 33, dj 36}

def recvY : Finset (DmaSem sig) := {dj 4, dj 5, dj 6, dj 7, dj 10, dj 11}
def recvX : Finset (DmaSem sig) := {dj 16, dj 17, dj 18, dj 19, dj 34, dj 35}
def recvZ : Finset (DmaSem sig) := {dj 24, dj 25, dj 26, dj 27, dj 30, dj 31}

theorem dma_partition : (Finset.univ : Finset (DmaSem sig)) = sendJ ∪ recvY ∪ recvX ∪ recvZ := by decide
theorem dma_disj1 : Disjoint sendJ recvY := by decide
theorem dma_disj2 : Disjoint (sendJ ∪ recvY) recvX := by decide
theorem dma_disj3 : Disjoint (sendJ ∪ recvY ∪ recvX) recvZ := by decide

def toks (c : Dev nD) : sProp 𝕄 :=
  iprop(tokB c 0 ∗ tokB c 1 ∗ tokB c 2 ∗ bigSep Finset.univ fun j : DmaSem sig => tokD c j)

def payToks (c : Dev nD) : sProp 𝕄 :=
  iprop(tokB (yp c) 0 ∗ tokB (xp c) 1 ∗ tokB (zp c) 2 ∗ (bigSep sendJ fun j => tokD c j)
    ∗ (bigSep recvY fun j => tokD (yp c) j) ∗ (bigSep recvX fun j => tokD (xp c) j) ∗ (bigSep recvZ fun j => tokD (zp c) j))

def positions (c : Dev nD) : sProp 𝕄 := bigSep Finset.univ fun k : Fin 38 => atPos ER (kcell (c, k)) 0 ∅ 0

def ghost (K : Dev nD × Fin 38 → ℕ) (c : Dev nD) : sProp 𝕄 := iprop(recs X K ∗ positions c ∗ payToks c)

def G (c : Dev nD) : sProp 𝕄 :=
  iprop((bigSep Finset.univ fun k : Fin 38 => roundState ER (Rd X) (kcell (c, k)) 0)
    ∗ (bigSep Finset.univ fun k : Fin 38 => iprop(atPos ER (kcell (c, k)) 0 ∅ 0 ∗ reached ER (kcell (c, k)) 0)) ∗ toks c)
def G' (c : Dev nD) : sProp 𝕄 := iprop(∃ K, ghost X K c)

end Cert.Kernel.A2A

end
-- ==== Proof.Bits.Dats.lean ====
import proofs.«900637_g7700000000000638_dist_a2a_v7x_xyz2x2x4_y_m1024_n512_f32_1_alg».proof.Proof.Bits.Res
import proofs.«900637_g7700000000000638_dist_a2a_v7x_xyz2x2x4_y_m1024_n512_f32_1_alg».proof.Proof.Bits.Ghost
import proofs.«900637_g7700000000000638_dist_a2a_v7x_xyz2x2x4_y_m1024_n512_f32_1_alg».proof.Proof.Gen.Kernel.Frame

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev Xm : XBuf (Elt F) := fun d => m ((d : Thread nD τ).loc main_arg0)

def credsC (c : Dev nD) : sProp 𝕄 :=
  iprop(cred (tallyAt (barCell c) () 3)
      ∗ (crD c (dj 4) ∗ crD c (dj 5) ∗ crD c (dj 6) ∗ crD c (dj 7)) ∗ (crD c (dj 10) ∗ crD c (dj 11))
      ∗ (crD c (dj 16) ∗ crD c (dj 17) ∗ crD c (dj 18) ∗ crD c (dj 19)) ∗ (crD c (dj 24) ∗ crD c (dj 25) ∗ crD c (dj 26) ∗ crD c (dj 27))
      ∗ (crD c (dj 30) ∗ crD c (dj 31)) ∗ (crD c (dj 34) ∗ crD c (dj 35)))

def start (c : Dev nD) : sProp 𝕄 := iprop((∃ K, ghost (Xm m) K c) ∗ credsC c ∗ levAts L lv)

def Φ₀ (c : Dev nD) : sProp 𝕄 :=
  iprop(start m c ∗ (oLoc c ↦{fullShare} m (oLoc c)) ∗ (xLoc c ↦{fullShare} Xm m c))
def Φ₁ (c : Dev nD) : sProp 𝕄 :=
  iprop((oLoc c ↦{fullShare} outF (Xm m) c) ∗ (xLoc c ↦{fullShare} Xm m c) ∗ bigSep Finset.univ fun j : Fin 37 => semVal (dCell c j) 0)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := w.elim0
  after w := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.Kernel.A2A

end
-- ==== Proof.Bits.Chains.lean ====
import proofs.«900637_g7700000000000638_dist_a2a_v7x_xyz2x2x4_y_m1024_n512_f32_1_alg».proof.Proof.Bits.Res
import proofs.«900637_g7700000000000638_dist_a2a_v7x_xyz2x2x4_y_m1024_n512_f32_1_alg».proof.Proof.Bits.Ghost

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : XBuf (Elt F)) (K : Dev nD × Fin 38 → ℕ)

theorem positions_eq (c : Dev nD) : (positions c : sProp 𝕄) =
    iprop(pos0 c (dj 0) ∗ pos0 c (dj 1) ∗ pos0 c (dj 2) ∗ pos0 c (dj 3) ∗ pos0 c (dj 4) ∗ pos0 c (dj 5) ∗ pos0 c (dj 6) ∗ pos0 c (dj 7) ∗ pos0 c (dj 8) ∗ pos0 c (dj 9) ∗ pos0 c (dj 10) ∗ pos0 c (dj 11) ∗ pos0 c (dj 12) ∗ pos0 c (dj 13) ∗ pos0 c (dj 14) ∗ pos0 c (dj 15) ∗ pos0 c (dj 16) ∗ pos0 c (dj 17) ∗ pos0 c (dj 18) ∗ pos0 c (dj 19) ∗ pos0 c (dj 20) ∗ pos0 c (dj 21) ∗ pos0 c (dj 22) ∗ pos0 c (dj 23) ∗ pos0 c (dj 24) ∗ pos0 c (dj 25) ∗ pos0 c (dj 26) ∗ pos0 c (dj 27) ∗ pos0 c (dj 28) ∗ pos0 c (dj 29) ∗ pos0 c (dj 30) ∗ pos0 c (dj 31) ∗ pos0 c (dj 32) ∗ pos0 c (dj 33) ∗ pos0 c (dj 34) ∗ pos0 c (dj 35) ∗ pos0 c (dj 36) ∗ atPos ER (barCell c) 0 ∅ 0) := by
  unfold positions
  rw [bigSep_univ_eq_bigSepL ([0, 1, 2, 3, 4, 5, 6, 7, 8, 9, 10, 11, 12, 13, 14, 15, 16, 17, 18, 19, 20, 21, 22, 23, 24, 25, 26, 27, 28, 29, 30, 31, 32, 33, 34, 35, 36, 37] : List (Fin 38)) (by decide) (by decide)]
  rfl

theorem payToks_eq (c : Dev nD) : (payToks c : sProp 𝕄) =
    iprop(tokB (yp c) 0 ∗ tokB (xp c) 1 ∗ tokB (zp c) 2
      ∗ (tokD c (dj 0) ∗ tokD c (dj 1) ∗ tokD c (dj 2) ∗ tokD c (dj 3) ∗ tokD c (dj 8) ∗ tokD c (dj 9) ∗ tokD c (dj 12) ∗ tokD c (dj 13) ∗ tokD c (dj 14) ∗ tokD c (dj 15) ∗ tokD c (dj 20) ∗ tokD c (dj 21) ∗ tokD c (dj 22) ∗ tokD c (dj 23) ∗ tokD c (dj 28) ∗ tokD c (dj 29) ∗ tokD c (dj 32) ∗ tokD c (dj 33) ∗ tokD c (dj 36))
      ∗ (tokD (yp c) (dj 4) ∗ tokD (yp c) (dj 5) ∗ tokD (yp c) (dj 6) ∗ tokD (yp c) (dj 7) ∗ tokD (yp c) (dj 10) ∗ tokD (yp c) (dj 11))
      ∗ (tokD (xp c) (dj 16) ∗ tokD (xp c) (dj 17) ∗ tokD (xp c) (dj 18) ∗ tokD (xp c) (dj 19) ∗ tokD (xp c) (dj 34) ∗ tokD (xp c) (dj 35))
      ∗ (tokD (zp c) (dj 24) ∗ tokD (zp c) (dj 25) ∗ tokD (zp c) (dj 26) ∗ tokD (zp c) (dj 27) ∗ tokD (zp c) (dj 30) ∗ tokD (zp c) (dj 31))) := by
  unfold payToks
  rw [bigSep_eq_bigSepL_of_eq (S := sendJ) [dj 0, dj 1, dj 2, dj 3, dj 8, dj 9, dj 12, dj 13, dj 14, dj 15, dj 20, dj 21, dj 22, dj 23, dj 28, dj 29, dj 32, dj 33, dj 36] (by decide) (by decide),
    bigSep_eq_bigSepL_of_eq (S := recvY) [dj 4, dj 5, dj 6, dj 7, dj 10, dj 11] (by decide) (by decide),
    bigSep_eq_bigSepL_of_eq (S := recvX) [dj 16, dj 17, dj 18, dj 19, dj 34, dj 35] (by decide) (by decide),
    bigSep_eq_bigSepL_of_eq (S := recvZ) [dj 24, dj 25, dj 26, dj 27, dj 30, dj 31] (by decide) (by decide)]
  rfl

theorem pos1_family (c : Dev nD) :
    iprop(pos1 c (dj 0) ∗ pos1 c (dj 1) ∗ pos1 c (dj 2) ∗ pos1 c (dj 3) ∗ pos1 c (dj 4) ∗ pos1 c (dj 5) ∗ pos1 c (dj 6) ∗ pos1 c (dj 7) ∗ pos1 c (dj 8) ∗ pos1 c (dj 9) ∗ pos1 c (dj 10) ∗ pos1 c (dj 11) ∗ pos1 c (dj 12) ∗ pos1 c (dj 13) ∗ pos1 c (dj 14) ∗ pos1 c (dj 15) ∗ pos1 c (dj 16) ∗ pos1 c (dj 17) ∗ pos1 c (dj 18) ∗ pos1 c (dj 19) ∗ pos1 c (dj 20) ∗ pos1 c (dj 21) ∗ pos1 c (dj 22) ∗ pos1 c (dj 23) ∗ pos1 c (dj 24) ∗ pos1 c (dj 25) ∗ pos1 c (dj 26) ∗ pos1 c (dj 27) ∗ pos1 c (dj 28) ∗ pos1 c (dj 29) ∗ pos1 c (dj 30) ∗ pos1 c (dj 31) ∗ pos1 c (dj 32) ∗ pos1 c (dj 33) ∗ pos1 c (dj 34) ∗ pos1 c (dj 35) ∗ pos1 c (dj 36)) ⊢ (bigSep Finset.univ fun j : Fin 37 => pos1 c j : sProp 𝕄) := by
  rw [bigSep_univ_eq_bigSepL ([0, 1, 2, 3, 4, 5, 6, 7, 8, 9, 10, 11, 12, 13, 14, 15, 16, 17, 18, 19, 20, 21, 22, 23, 24, 25, 26, 27, 28, 29, 30, 31, 32, 33, 34, 35, 36] : List (Fin 37)) (by decide) (by decide)]
  exact Entails.of_eq rfl

theorem close_one (c : Dev nD) (j : Fin 37) :
    iprop(recs X K ∗ pos1 c j) ⊢ (|={Set.univ}=> semVal (dCell c j) 0 : sProp 𝕄) := by
  iintro ⟨#HR, Hat⟩
  iapply (Rounds.cell_close ER (Rd X) (Set.mem_univ (K (c, kd j))) (fun h => h) (R := 0 + 1) (duties_later X (dCell c j)))
  isplitr; · iapply (inv_d X K c j); iexact HR
  iexact Hat

theorem close_all (c : Dev nD) :
    iprop(recs X K ∗ bigSep Finset.univ fun j : Fin 37 => pos1 c j) ⊢ (|={Set.univ}=> bigSep Finset.univ fun j : Fin 37 => semVal (dCell c j) 0 : sProp 𝕄) := by
  refine ((sep_mono_left (BI.bigSep_of_persistent (Finset.univ : Finset (Fin 37)) (recs X K))).trans ?_)
  rw [← bigSep_sep']
  exact (bigSep_mono fun j _ => close_one X K c j).trans (bigSep_fupd _ _)

section Give
variable (c : Dev nD) (f : Buf (Elt F) (oLoc c))

theorem give_y :
    iprop(oPt c (QR c (qme c) 0) fullShare f ∗ oPt c (QR c (qme c) 1) fullShare f ∗ oPt c (QR c (qme c) 2) fullShare f ∗ oPt c (QR c (qme c) 3) fullShare f
      ∗ oPt c (TR c 0) fullShare f ∗ oPt c (TR c 1) fullShare f) ⊢ (barPay (yp c) 0 : sProp 𝕄) := by
  rw [barPay0_eq]
  simp only [Dy, Dt, yp_yp, qme_yp]
  iintro ⟨H0, H1, H2, H3, H4, H5⟩
  isplitl [H0]; · iexists f; iexact H0
  isplitl [H1]; · iexists f; iexact H1
  isplitl [H2]; · iexists f; iexact H2
  isplitl [H3]; · iexists f; iexact H3
  isplitl [H4]; · iexists f; iexact H4
  iexists f; iexact H5

theorem give_x :
    iprop(oPt c (QR c (qxp c) 0) fullShare f ∗ oPt c (QR c (qxp c) 1) fullShare f ∗ oPt c (QR c (qxp c) 2) fullShare f ∗ oPt c (QR c (qxp c) 3) fullShare f
      ∗ oPt c (QR c (q4 c) 2) fullShare f ∗ oPt c (QR c (q4 c) 3) fullShare f) ⊢ (barPay (xp c) 1 : sProp 𝕄) := by
  rw [barPay1_eq]
  simp only [Dx, Dfb, xp_xp, qme_xp, qzp_xp]
  iintro ⟨H0, H1, H2, H3, H4, H5⟩
  isplitl [H0]; · iexists f; iexact H0
  isplitl [H1]; · iexists f; iexact H1
  isplitl [H2]; · iexists f; iexact H2
  isplitl [H3]; · iexists f; iexact H3
  isplitl [H4]; · iexists f; iexact H4
  iexists f; iexact H5

theorem give_z :
    iprop(oPt c (QR c (qzp c) 0) fullShare f ∗ oPt c (QR c (qzp c) 1) fullShare f ∗ oPt c (QR c (qzp c) 2) fullShare f ∗ oPt c (QR c (qzp c) 3) fullShare f
      ∗ oPt c (QR c (q4 c) 0) fullShare f ∗ oPt c (QR c (q4 c) 1) fullShare f) ⊢ (barPay (zp c) 2 : sProp 𝕄) := by
  rw [barPay2_eq]
  simp only [Dz, Dfa, zp_zp, qme_zp, qxp_zp]
  iintro ⟨H0, H1, H2, H3, H4, H5⟩
  isplitl [H0]; · iexists f; iexact H0
  isplitl [H1]; · iexists f; iexact H1
  isplitl [H2]; · iexists f; iexact H2
  isplitl [H3]; · iexists f; iexact H3
  isplitl [H4]; · iexists f; iexact H4
  iexists f; iexact H5

end Give

end Cert.Kernel.A2A

end
-- ==== Proof.Bits.Steps.lean ====
import proofs.«900637_g7700000000000638_dist_a2a_v7x_xyz2x2x4_y_m1024_n512_f32_1_alg».proof.Proof.Bits.Res

noncomputable section

namespace Cert.Kernel.A2A

open Cert.Kernel Cert.Kernel.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

variable (X : XBuf (Elt F)) (K : Dev nD × Fin 38 → ℕ)

theorem q4_zp : ∀ d : Dev nD, q4 (zp d) = qxp d := by decide
theorem q4_xp : ∀ d : Dev nD, q4 (xp d) = qzp d := by decide

theorem debts_tc (c : Dev nD) : ∀ e ∈ debts c, e.1.1.2 = .tc := by
  intro e he
  simp only [debts, List.mem_cons, List.not_mem_nil, or_false] at he
  rcases he with rfl | rfl | rfl | rfl | rfl | rfl | rfl | rfl | rfl | rfl | rfl | rfl | rfl | rfl | rfl | rfl | rfl | rfl | rfl | rfl | rfl <;> rfl

-- A wait is allowed once every debt still owed sits at a higher level than the waited cell.
theorem mayWait_drop (c : Dev nD) (sm : SemLoc sig) (n : ℕ)
    (h : ((debts c).drop n).all (fun e => decide (lvS sm < lvS e.1.2)) = true) :
    (levAts L lv : sProp 𝕄) ⊢ MayWait (c : Thread nD τ) sm () (owedAfter c n) :=
  mayWait_of c sm _ fun e he => ⟨debts_tc c e (List.mem_of_mem_drop he), of_decide_eq_true (List.all_eq_true.mp h e he)⟩

theorem wait_lv (c : Dev nD) (j : DmaSem sig) (n : ℕ) {s : Shape} {src dst : Memref sig .tc .hbm s .f32}
    (P : sProp 𝕄) (W : Waits sig Unit) (hP : dmaPay X c j = P := by rfl) (hN : dst.view.dmaCredit = cr j := by rfl)
    (hl : ((debts c).drop n).all (fun e => decide (lvS (.dma j) < lvS e.1.2)) = true := by rfl)
    {hsrc : src.view.WordExact} {hdst : dst.view.WordExact}
    {α : Type} {Q : α → sProp 𝕄} {k : PUnit → Prog (TpuEff nD τ sig (Elt F) Λ₀ .tc) α} :
    ⊢ recs X K -∗ levAts L lv -∗ crD c j -∗ owes (c : Thread nD τ) (owedAfter c n) W -∗ pos0 c j
      -∗ ((owes (c : Thread nD τ) (owedAfter c n) (insert (SemLoc.dma j, ()) W) ∗ pos1 c j ∗ P) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 j src dst hsrc hdst) k) Q := by
  subst hP
  iintro #HR #HL Hc HO Hat
  ihave Hm := (mayWait_drop c (.dma j) n hl) $$ HL
  iapply (wait_step X K c j hN (owedAfter c n) W) $$ HR Hc HO Hm Hat

set_option maxHeartbeats 1600000 in
-- A device sends rows of its own block to its peer along y, where they land as the peer's result rows.
theorem ysend (c n : Dev nD) (hn : n = yp c) (r : Fin 4) (r' : ℕ) (jS jR : DmaSem sig) (a b : ℕ) (W : Waits sig Unit)
    (hr : r.val = r' := by rfl) (hS : cr jS = N56 := by rfl) (hR : cr jR = N56 := by rfl)
    (eS : dmaPay X c jS = xPt c (X c) (YS c r') fullShare := by rfl)
    (eR : dmaPay X (yp c) jR = oPt (yp c) (QR (yp c) (qme (yp c)) r') fullShare (outF X (yp c)) := by rfl)
    (hO : owedAfter c a = owedAfter c b + tallyAt (dCell (yp c) jR) () N56 := by rfl)
    {hsc : (yDst c r : Memref sig (Dev.tc n : Thread nD τ).2.kind .hbm S56x512 .f32).view.ref.isScScratch = false}
    {hsrc : (ySrc c r).view.WordExact} {hdst : (yDst c r).view.WordExact}
    {hsem : DmaTarget.Typed .hbm (.dma jR) (.remote (Dev.tc n : Thread nD τ) (yDst c r) (.dma jS) hsc)}
    {α : Type} {Q : α → sProp 𝕄} {k : PUnit → Prog (TpuEff nD τ sig (Elt F) Λ₀ .tc) α} :
    ⊢ recs X K -∗ xPt c (X c) (YS c r') fullShare -∗ Dy c r' -∗ owes (c : Thread nD τ) (owedAfter c a) W
      -∗ tokD c jS -∗ tokD (yp c) jR
      -∗ ((crD c jS ∗ owes (c : Thread nD τ) (owedAfter c b) W) -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma (ySrc c r) (.remote (Dev.tc n : Thread nD τ) (yDst c r) (.dma jS) hsc) (.dma jR) hsrc hdst hsem) k) Q := by
  subst hr; rw [hO, crD, hS]
  iintro #HR Hs ⟨%fd, Hd⟩ HO HtS HtR
  ihave Hs := (Entails.of_eq (pt_ySrc c c fullShare r (X c)).symm) $$ Hs
  ihave Hd := (Entails.of_eq (pt_yDst c (yp c) fullShare r fd).symm) $$ Hd
  iapply (send_step X K c (yp c) n hn (src := ySrc c r) (dst := yDst c r) jS jR N56 rfl hS hR fullShare (X c) fd
      (Entails.of_eq ((pt_ySrc c c fullShare r (X c)).trans eS.symm))
      (Entails.of_eq ((pt_yDst c (yp c) fullShare r _).trans ((pointsTo_congr (land_y X c r fd)).trans (by rw [eR, qme_yp]))))
      (owedAfter c b) W) $$ HR Hs Hd HO HtS HtR

abbrev oV (off : Fin 2 → ℕ) (inb : ∀ a, off a + S56x512.size a ≤ S2048x512.size a) : Memref sig .tc .hbm S56x512 .f32 :=
  oM.slice (Rect.unit (s := S2048x512) off S56x512.size inb) (fun _ => rfl)

set_option maxHeartbeats 1600000 in
-- Forwarding inside the result array: rows already final on the sender land, unchanged, as the same rows of a peer.
theorem osend (c p n : Dev nD) (hn : n = p) {off : Fin 2 → ℕ} {inb : ∀ a, off a + S56x512.size a ≤ S2048x512.size a}
    (S : Finset S2048x512.Idx)
    (pt : ∀ (p' : Dev nD) (q : PosShare TreeShare) (g : Buf (Elt F) (oLoc p')),
      ((oV off inb).view.loc (p' : Thread nD τ) ↦[(oV off inb).view.set]{q} g : sProp 𝕄) = oPt p' S q g)
    (land : ∀ fd : Buf (Elt F) (oLoc p), ∀ i ∈ S,
      (oV off inb).view.write (Elt F) fd ((oV off inb).view.read (Elt F) (outF X c)) Finset.univ i = outF X p i)
    (jS jR : DmaSem sig) (q : PosShare TreeShare) (Sd : Finset S2048x512.Idx) (hSd : Sd = S)
    (eR : dmaPay X p jR = oPt p S fullShare (outF X p))
    (a b : ℕ) (W : Waits sig Unit) (hS : cr jS = N56 := by rfl) (hR : cr jR = N56 := by rfl)
    (eS : dmaPay X c jS = oPt c S q (outF X c) := by rfl)
    (hO : owedAfter c a = owedAfter c b + tallyAt (dCell p jR) () N56 := by rfl)
    {hsc : (oV off inb : Memref sig (Dev.tc n : Thread nD τ).2.kind .hbm S56x512 .f32).view.ref.isScScratch = false}
    {hsrc : (oV off inb).view.WordExact} {hdst : (oV off inb).view.WordExact}
    {hsem : DmaTarget.Typed .hbm (.dma jR) (.remote (Dev.tc n : Thread nD τ) (oV off inb) (.dma jS) hsc)}
    {α : Type} {Q : α → sProp 𝕄} {k : PUnit → Prog (TpuEff nD τ sig (Elt F) Λ₀ .tc) α} :
    ⊢ recs X K -∗ oPt c S q (outF X c) -∗ oAny p Sd -∗ owes (c : Thread nD τ) (owedAfter c a) W
      -∗ tokD c jS -∗ tokD p jR
      -∗ ((crD c jS ∗ owes (c : Thread nD τ) (owedAfter c b) W) -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma (oV off inb) (.remote (Dev.tc n : Thread nD τ) (oV off inb) (.dma jS) hsc) (.dma jR) hsrc hdst hsem) k) Q := by
  subst hSd; rw [hO, crD, hS]
  iintro #HR Hs ⟨%fd, Hd⟩ HO HtS HtR
  ihave Hs := (Entails.of_eq (pt c q (outF X c)).symm) $$ Hs
  ihave Hd := (Entails.of_eq (pt p fullShare fd).symm) $$ Hd
  iapply (send_step X K c p n hn (src := oV off inb) (dst := oV off inb) jS jR N56 rfl hS hR q (outF X c) fd
      (Entails.of_eq ((pt c q (outF X c)).trans eS.symm))
      (Entails.of_eq ((pt p fullShare _).trans ((pointsTo_congr (land fd)).trans eR.symm))) (owedAfter c b) W)
    $$ HR Hs Hd HO HtS HtR

end Cert.Kernel.A2A

end
-- ==== Proof.Bits.Part01.lean ====
import proofs.«900637_g7700000000000638_dist_a2a_v7x_xyz2x2x4_y_m1024_n512_f32_1_alg».proof.Proof.Bits.Steps

noncomputable section

namespace Cert.Kernel.A2A

open Cert.Kernel Cert.Kernel.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

variable (X : XBuf (Elt F)) (K : Dev nD × Fin 38 → ℕ)

theorem part1_spec (c : Dev nD) (W : Waits sig Unit)
    (Kt : (Σ' (d0 : Dev nD) (v2 : BitVec 32) (v5 : BitVec 32) (v8 : BitVec 32) (v9 : BitVec 32) (v10 : BitVec 32) (v20 : BitVec 32) (v23 : BitVec 32) (v24 : Sems sig S_) (v32 : BitVec 32), BitVec 32) → sProp 𝕄) :
    ⊢ recs X K
      -∗ owes (c : Thread nD τ) (owedAfter c 0) W
      -∗ tokB (yp c) 0
      -∗ barPay (yp c) 0
      -∗ (∀ v2 v5 v8 v9 v10 v20 v23 v32 c4, owes (c : Thread nD τ) (owedAfter c 1) W -∗ Kt ⟨c, v2, v5, v8, v9, v10, v20, v23, SemArray.scalar (sig.barrier 0 rfl), v32, c4⟩)
      -∗ wp frame (wpE (defs₀ (F := F)) 𝒱₀ (c : Thread nD τ) none) Set.univ (k0_part1 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12) Kt := by
  rw [k0_part1_eq_skeleton]; unfold k0_part1_skel
  simp only [semSignalWord, semWaitWord, Prog.lift, Prog.bind_op, Prog.bind_ret, Prog.pure_eq_ret, wp_deviceId]
  iintro #HR HO Ht Hp Hk
  iapply (sig_step X K c (yp c) _ (dev1_eq c) 0 (owedAfter c 1) W _ (by decide)) $$ HR [HO] Ht Hp
  · iexact HO
  iintro HO
  rw [wp_ret]; imodintro
  iapply Hk $$ HO

end Cert.Kernel.A2A

end
-- ==== Proof.Bits.Part02.lean ====
import proofs.«900637_g7700000000000638_dist_a2a_v7x_xyz2x2x4_y_m1024_n512_f32_1_alg».proof.Proof.Bits.Steps

noncomputable section

namespace Cert.Kernel.A2A

open Cert.Kernel Cert.Kernel.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

variable (X : XBuf (Elt F)) (K : Dev nD × Fin 38 → ℕ)

theorem part2_spec (c : Dev nD) (W : Waits sig Unit) (v2 v5 v8 v9 v10 v20 v23 v32 c4 : BitVec 32)
    (Kt : (Σ' (v44 : BitVec 32) (v52 : BitVec 32) (v54 : BitVec 32) (v56 : BitVec 32), BitVec 32) → sProp 𝕄) :
    ⊢ recs X K
      -∗ levAts L lv
      -∗ owes (c : Thread nD τ) (owedAfter c 1) W
      -∗ tokB (xp c) 1
      -∗ barPay (xp c) 1
      -∗ tokB (zp c) 2
      -∗ barPay (zp c) 2
      -∗ cred (tallyAt (barCell c) () 3)
      -∗ atPos ER (barCell c) 0 ∅ 0
      -∗ (∀ ret, (∃ W', owes (c : Thread nD τ) (owedAfter c 3) W') ∗ barPay c 0 ∗ barPay c 1 ∗ barPay c 2 -∗ Kt ret)
      -∗ wp frame (wpE (defs₀ (F := F)) 𝒱₀ (c : Thread nD τ) none) Set.univ (k0_part2 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12 c v2 v5 v8 v9 v10 v20 v23 (SemArray.scalar (sig.barrier 0 rfl)) v32 c4) Kt := by
  rw [k0_part2_eq_skeleton]; unfold k0_part2_skel
  simp only [semSignalWord, semWaitWord, Prog.lift, Prog.bind_op, Prog.bind_ret, Prog.pure_eq_ret]
  iintro #HR #HL HO Htx Hpx Htz Hpz Hc Hat Hk
  iapply (sig_step X K c (xp c) _ (dev2_eq c) 1 (owedAfter c 2) W _ (by decide)) $$ HR [HO] Htx Hpx
  · iexact HO
  iintro HO
  iapply (sig_step X K c (zp c) _ (dev3_eq c) 2 (owedAfter c 3) W _ (by decide)) $$ HR [HO] Htz Hpz
  · iexact HO
  iintro HO
  ihave Hm := (mayWait_drop c (.reg barS) 3 rfl) $$ HL
  iapply (barwait_step X K c (owedAfter c 3) W _ (by decide)) $$ HR Hc HO Hm Hat
  iintro ⟨HO, Hp⟩
  rw [wp_ret]; imodintro
  iapply Hk
  isplitl [HO]; · iexists _; iexact HO
  iframe

end Cert.Kernel.A2A

end
-- ==== Proof.Bits.Part03.lean ====
import proofs.«900637_g7700000000000638_dist_a2a_v7x_xyz2x2x4_y_m1024_n512_f32_1_alg».proof.Proof.Bits.Steps

noncomputable section

namespace Cert.Kernel.A2A

open Cert.Kernel Cert.Kernel.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

variable (X : XBuf (Elt F)) (K : Dev nD × Fin 38 → ℕ)

theorem part3_spec (c : Dev nD) (W : Waits sig Unit) (v2 v5 v8 v9 v44 v64 : BitVec 32)
    (Kt : (BitVec 32) → sProp 𝕄) :
    ⊢ recs X K
      -∗ levAts L lv
      -∗ owes (c : Thread nD τ) (owedAfter c 3) W
      -∗ xPt c (X c) (YS c 0) fullShare
      -∗ xPt c (X c) (YS c 1) fullShare
      -∗ Dy c 0
      -∗ Dy c 1
      -∗ tokD c (dj 0)
      -∗ tokD c (dj 1)
      -∗ tokD (yp c) (dj 4)
      -∗ tokD (yp c) (dj 5)
      -∗ (∀ ret, (∃ W', owes (c : Thread nD τ) (owedAfter c 5) W') ∗ crD c (dj 0) ∗ crD c (dj 1) -∗ Kt ret)
      -∗ wp frame (wpE (defs₀ (F := F)) 𝒱₀ (c : Thread nD τ) none) Set.univ (k0_part3 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12 c v2 v5 v8 v9 v44 v64) Kt := by
  rw [k0_part3_eq_skeleton]; unfold k0_part3_skel
  simp only [semSignalWord, semWaitWord, Prog.lift, Prog.bind_op, Prog.bind_ret, Prog.pure_eq_ret]
  iintro #HR #HL HO Hs0 Hs1 Hd0 Hd1 Ht0 Ht1 Hr0 Hr1 Hk
  iapply (ysend X K c _ (dev4_eq c) 0 0 (dj 0) (dj 4) 3 4 W) $$ HR Hs0 Hd0 HO Ht0 Hr0
  iintro ⟨Hc0, HO⟩
  iapply (ysend X K c _ (dev5_eq c) 1 1 (dj 1) (dj 5) 4 5 W) $$ HR Hs1 Hd1 HO Ht1 Hr1
  iintro ⟨Hc1, HO⟩
  rw [wp_ret]; imodintro
  iapply Hk
  isplitl [HO]; · iexists _; iexact HO
  iframe

end Cert.Kernel.A2A

end
-- ==== Proof.Bits.Part04.lean ====
import proofs.«900637_g7700000000000638_dist_a2a_v7x_xyz2x2x4_y_m1024_n512_f32_1_alg».proof.Proof.Bits.Steps

noncomputable section

namespace Cert.Kernel.A2A

open Cert.Kernel Cert.Kernel.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

variable (X : XBuf (Elt F)) (K : Dev nD × Fin 38 → ℕ)

theorem part4_spec (c : Dev nD) (W : Waits sig Unit) (v2 v5 v8 v9 v44 v100 : BitVec 32)
    (Kt : (Σ' (v134 : BitVec 32), BitVec 32) → sProp 𝕄) :
    ⊢ recs X K
      -∗ levAts L lv
      -∗ owes (c : Thread nD τ) (owedAfter c 5) W
      -∗ xPt c (X c) (YS c 2) fullShare
      -∗ xPt c (X c) (YS c 3) fullShare
      -∗ Dy c 2
      -∗ Dy c 3
      -∗ tokD c (dj 2)
      -∗ tokD c (dj 3)
      -∗ tokD (yp c) (dj 6)
      -∗ tokD (yp c) (dj 7)
      -∗ (∀ ret, (∃ W', owes (c : Thread nD τ) (owedAfter c 7) W') ∗ crD c (dj 2) ∗ crD c (dj 3) -∗ Kt ret)
      -∗ wp frame (wpE (defs₀ (F := F)) 𝒱₀ (c : Thread nD τ) none) Set.univ (k0_part4 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12 c v2 v5 v8 v9 v44 v100) Kt := by
  rw [k0_part4_eq_skeleton]; unfold k0_part4_skel
  simp only [semSignalWord, semWaitWord, Prog.lift, Prog.bind_op, Prog.bind_ret, Prog.pure_eq_ret]
  iintro #HR #HL HO Hs2 Hs3 Hd2 Hd3 Ht2 Ht3 Hr2 Hr3 Hk
  iapply (ysend X K c _ (dev6_eq c) 2 2 (dj 2) (dj 6) 5 6 W) $$ HR Hs2 Hd2 HO Ht2 Hr2
  iintro ⟨Hc2, HO⟩
  iapply (ysend X K c _ (dev7_eq c) 3 3 (dj 3) (dj 7) 6 7 W) $$ HR Hs3 Hd3 HO Ht3 Hr3
  iintro ⟨Hc3, HO⟩
  rw [wp_ret]; imodintro
  iapply Hk
  isplitl [HO]; · iexists _; iexact HO
  iframe

end Cert.Kernel.A2A

end
-- ==== Proof.Bits.Part05.lean ====
import proofs.«900637_g7700000000000638_dist_a2a_v7x_xyz2x2x4_y_m1024_n512_f32_1_alg».proof.Proof.Bits.Steps

noncomputable section

namespace Cert.Kernel.A2A

open Cert.Kernel Cert.Kernel.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

variable (X : XBuf (Elt F)) (K : Dev nD × Fin 38 → ℕ)

theorem part5_spec (c : Dev nD) (W : Waits sig Unit) (v2 v5 v8 v9 v134 c896 : BitVec 32)
    (Kt : (PUnit) → sProp 𝕄) :
    ⊢ recs X K
      -∗ levAts L lv
      -∗ owes (c : Thread nD τ) (owedAfter c 7) W
      -∗ xPt c (X c) (TS c 0) fullShare
      -∗ xPt c (X c) (TS c 1) fullShare
      -∗ Dt c 0
      -∗ Dt c 1
      -∗ tokD c (dj 8)
      -∗ tokD c (dj 9)
      -∗ tokD (yp c) (dj 10)
      -∗ tokD (yp c) (dj 11)
      -∗ ((∃ W', owes (c : Thread nD τ) (owedAfter c 9) W') ∗ crD c (dj 8) ∗ crD c (dj 9) -∗ Kt ⟨⟩)
      -∗ wp frame (wpE (defs₀ (F := F)) 𝒱₀ (c : Thread nD τ) none) Set.univ (k0_part5 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12 c v2 v5 v8 v9 v134 c896) Kt := by
  rw [k0_part5_eq_skeleton]; unfold k0_part5_skel
  simp only [semSignalWord, semWaitWord, Prog.lift, Prog.bind_op, Prog.bind_ret, Prog.pure_eq_ret]
  iintro #HR #HL HO Hs0 Hs1 ⟨%fd0, Hd0⟩ ⟨%fd1, Hd1⟩ Ht0 Ht1 Hr0 Hr1 Hk
  iapply (send_step X K c (yp c) _ (dev8_eq c) (src := tSrc0 c) (dst := tDst c 0) (dj 8) (dj 10) N64 rfl rfl rfl fullShare (X c) fd0
      (Entails.of_eq (pt_tSrc0 c c fullShare (X c)))
      (Entails.of_eq ((pt_tDst c (yp c) fullShare 0 _).trans (pointsTo_congr (land_t0 X c fd0)))) (owedAfter c 8) W) $$ HR [Hs0] [Hd0] [HO] Ht0 Hr0
  · iapply (Entails.of_eq (pt_tSrc0 c c fullShare (X c)).symm); iexact Hs0
  · iapply (Entails.of_eq (pt_tDst c (yp c) fullShare 0 fd0).symm); iexact Hd0
  · iexact HO
  iintro ⟨Hc0, HO⟩
  iapply (send_step X K c (yp c) _ (dev9_eq c) (src := tSrc1 c) (dst := tDst c 1) (dj 9) (dj 11) N64 rfl rfl rfl fullShare (X c) fd1
      (Entails.of_eq (pt_tSrc1 c c fullShare (X c)))
      (Entails.of_eq ((pt_tDst c (yp c) fullShare 1 _).trans (pointsTo_congr (land_t1 X c fd1)))) (owedAfter c 9) W) $$ HR [Hs1] [Hd1] [HO] Ht1 Hr1
  · iapply (Entails.of_eq (pt_tSrc1 c c fullShare (X c)).symm); iexact Hs1
  · iapply (Entails.of_eq (pt_tDst c (yp c) fullShare 1 fd1).symm); iexact Hd1
  · iexact HO
  iintro ⟨Hc1, HO⟩
  rw [wp_ret]; imodintro
  iapply Hk
  isplitl [HO]; · iexists _; iexact HO
  isplitl [Hc0]; · iexact Hc0
  iexact Hc1

end Cert.Kernel.A2A

end
-- ==== Proof.Bits.Part06.lean ====
import proofs.«900637_g7700000000000638_dist_a2a_v7x_xyz2x2x4_y_m1024_n512_f32_1_alg».proof.Proof.Bits.Steps

noncomputable section

namespace Cert.Kernel.A2A

open Cert.Kernel Cert.Kernel.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

variable (X : XBuf (Elt F)) (K : Dev nD × Fin 38 → ℕ)

theorem part6_spec (c : Dev nD) (W : Waits sig Unit) (v2 v5 v8 v9 v10 v23 v52 : BitVec 32)
    (Kt : (PUnit) → sProp 𝕄) :
    ⊢ recs X K
      -∗ levAts L lv
      -∗ owes (c : Thread nD τ) (owedAfter c 9) W
      -∗ xPt c (X c) (LS c) fullShare
      -∗ oAny c (LR c)
      -∗ tokD c (dj 36)
      -∗ crD c (dj 4)
      -∗ pos0 c (dj 4)
      -∗ Dx c 0
      -∗ tokD c (dj 12)
      -∗ tokD (xp c) (dj 16)
      -∗ ((∃ W', owes (c : Thread nD τ) (owedAfter c 10) W') ∗ crD c (dj 36) ∗ pos1 c (dj 4) ∗ crD c (dj 12) ∗ oPt c (QR c (qme c) 0) fullShare.right (outF X c) -∗ Kt ⟨⟩)
      -∗ wp frame (wpE (defs₀ (F := F)) 𝒱₀ (c : Thread nD τ) none) Set.univ (k0_part6 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12 c v2 v5 v8 v9 v10 v23 v52) Kt := by
  rw [k0_part6_eq_skeleton]; unfold k0_part6_skel
  simp only [semSignalWord, semWaitWord, Prog.lift, Prog.bind_op, Prog.bind_ret, Prog.pure_eq_ret]
  iintro #HR #HL HO Hxs ⟨%fl, Hld⟩ Ht36 Hc4 Hp4 Hdx Ht12 Ht16 Hk
  iapply (copy_step X K c (src := lSrc c) (dst := lDst c) (dj 36) NL rfl rfl fullShare (X c) fl
      (BIClass.sep_mono (Entails.of_eq ((pt_lDst c c fullShare _).trans (pointsTo_congr (land_l X c fl))))
        (Entails.of_eq (pt_lSrc c c fullShare (X c))))) $$ HR [Hxs] [Hld] Ht36
  · iapply (Entails.of_eq (pt_lSrc c c fullShare (X c)).symm); iexact Hxs
  · iapply (Entails.of_eq (pt_lDst c c fullShare fl).symm); iexact Hld
  iintro Hc36
  iapply (wait_lv X K c (dj 4) 9 (src := ySrc c 0) (dst := yDst c 0) (oPt c (QR c (qme c) 0) fullShare (outF X c)) W) $$ HR HL Hc4 HO Hp4
  iintro ⟨HO, Hp4, Hy⟩
  ihave Hy := (oPt_halves c (QR c (qme c) 0) (outF X c)).1 $$ Hy
  icases Hy with ⟨Hyl, Hyr⟩
  iapply (osend X K c (xp c) _ (dev10_eq c) (QR c (qme c) 0) (fun p' q g => pt_fw c p' q 0 g)
      (land_xq X c 0 (outF X c) (fun _ _ => rfl)) (dj 12) (dj 16) fullShare.left
      _ (QR_xp c _ _) (by rw [← qxp_xp c, ← QR_xp c]; rfl) 9 10 _) $$ HR Hyl Hdx HO Ht12 Ht16
  iintro ⟨Hc12, HO⟩
  rw [wp_ret]; imodintro
  iapply Hk
  isplitl [HO]; · iexists _; iexact HO
  isplitl [Hc36]; · iexact Hc36
  iframe

end Cert.Kernel.A2A

end
-- ==== Proof.Bits.Part07.lean ====
import proofs.«900637_g7700000000000638_dist_a2a_v7x_xyz2x2x4_y_m1024_n512_f32_1_alg».proof.Proof.Bits.Steps

noncomputable section

namespace Cert.Kernel.A2A

open Cert.Kernel Cert.Kernel.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

variable (X : XBuf (Elt F)) (K : Dev nD × Fin 38 → ℕ)

theorem part7_spec (c : Dev nD) (W : Waits sig Unit) (v2 v5 v8 v9 v10 v52 : BitVec 32)
    (Kt : (Σ' (v232 : BitVec 32), BitVec 32) → sProp 𝕄) :
    ⊢ recs X K
      -∗ levAts L lv
      -∗ owes (c : Thread nD τ) (owedAfter c 10) W
      -∗ oPt c (QR c (qme c) 0) fullShare.right (outF X c)
      -∗ Dz c 0
      -∗ tokD c (dj 20)
      -∗ tokD (zp c) (dj 24)
      -∗ crD c (dj 5)
      -∗ pos0 c (dj 5)
      -∗ Dx c 1
      -∗ tokD c (dj 13)
      -∗ tokD (xp c) (dj 17)
      -∗ (∀ ret, (∃ W', owes (c : Thread nD τ) (owedAfter c 12) W') ∗ crD c (dj 20) ∗ pos1 c (dj 5) ∗ crD c (dj 13) ∗ oPt c (QR c (qme c) 1) fullShare.right (outF X c) -∗ Kt ret)
      -∗ wp frame (wpE (defs₀ (F := F)) 𝒱₀ (c : Thread nD τ) none) Set.univ (k0_part7 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12 c v2 v5 v8 v9 v10 v52) Kt := by
  rw [k0_part7_eq_skeleton]; unfold k0_part7_skel
  simp only [semSignalWord, semWaitWord, Prog.lift, Prog.bind_op, Prog.bind_ret, Prog.pure_eq_ret]
  iintro #HR #HL HO Hq Hdz Ht20 Ht24 Hc5 Hp5 Hdx Ht13 Ht17 Hk
  iapply (osend X K c (zp c) _ (dev11_eq c) (QR c (qme c) 0) (fun p' q g => pt_fw c p' q 0 g)
      (land_zq X c 0 (outF X c) (fun _ _ => rfl)) (dj 20) (dj 24) fullShare.right
      _ (QR_zp c _ _) (by rw [← qzp_zp c, ← QR_zp c]; rfl) 10 11 W) $$ HR Hq Hdz HO Ht20 Ht24
  iintro ⟨Hc20, HO⟩
  iapply (wait_lv X K c (dj 5) 11 (src := ySrc c 1) (dst := yDst c 1) (oPt c (QR c (qme c) 1) fullShare (outF X c)) W) $$ HR HL Hc5 HO Hp5
  iintro ⟨HO, Hp5, Hy⟩
  ihave Hy := (oPt_halves c (QR c (qme c) 1) (outF X c)).1 $$ Hy
  icases Hy with ⟨Hyl, Hyr⟩
  iapply (osend X K c (xp c) _ (dev12_eq c) (QR c (qme c) 1) (fun p' q g => pt_fw c p' q 1 g)
      (land_xq X c 1 (outF X c) (fun _ _ => rfl)) (dj 13) (dj 17) fullShare.left
      _ (QR_xp c _ _) (by rw [← qxp_xp c, ← QR_xp c]; rfl) 11 12 _) $$ HR Hyl Hdx HO Ht13 Ht17
  iintro ⟨Hc13, HO⟩
  rw [wp_ret]; imodintro
  iapply Hk
  isplitl [HO]; · iexists _; iexact HO
  iframe

end Cert.Kernel.A2A

end
-- ==== Proof.Bits.Part08.lean ====
import proofs.«900637_g7700000000000638_dist_a2a_v7x_xyz2x2x4_y_m1024_n512_f32_1_alg».proof.Proof.Bits.Steps

noncomputable section

namespace Cert.Kernel.A2A

open Cert.Kernel Cert.Kernel.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

variable (X : XBuf (Elt F)) (K : Dev nD × Fin 38 → ℕ)

theorem part8_spec (c : Dev nD) (W : Waits sig Unit) (v2 v5 v8 v9 v10 v23 v52 v232 c4 : BitVec 32)
    (Kt : (PUnit) → sProp 𝕄) :
    ⊢ recs X K
      -∗ levAts L lv
      -∗ owes (c : Thread nD τ) (owedAfter c 12) W
      -∗ oPt c (QR c (qme c) 1) fullShare.right (outF X c)
      -∗ Dz c 1
      -∗ tokD c (dj 21)
      -∗ tokD (zp c) (dj 25)
      -∗ crD c (dj 6)
      -∗ pos0 c (dj 6)
      -∗ Dx c 2
      -∗ tokD c (dj 14)
      -∗ tokD (xp c) (dj 18)
      -∗ ((∃ W', owes (c : Thread nD τ) (owedAfter c 14) W') ∗ crD c (dj 21) ∗ pos1 c (dj 6) ∗ crD c (dj 14) ∗ oPt c (QR c (qme c) 2) fullShare.right (outF X c) -∗ Kt ⟨⟩)
      -∗ wp frame (wpE (defs₀ (F := F)) 𝒱₀ (c : Thread nD τ) none) Set.univ (k0_part8 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12 c v2 v5 v8 v9 v10 v23 v52 v232 c4) Kt := by
  rw [k0_part8_eq_skeleton]; unfold k0_part8_skel
  simp only [semSignalWord, semWaitWord, Prog.lift, Prog.bind_op, Prog.bind_ret, Prog.pure_eq_ret]
  iintro #HR #HL HO Hq Hdz Ht21 Ht25 Hc6 Hp6 Hdx Ht14 Ht18 Hk
  iapply (osend X K c (zp c) _ (dev13_eq c) (QR c (qme c) 1) (fun p' q g => pt_fw c p' q 1 g)
      (land_zq X c 1 (outF X c) (fun _ _ => rfl)) (dj 21) (dj 25) fullShare.right
      _ (QR_zp c _ _) (by rw [← qzp_zp c, ← QR_zp c]; rfl) 12 13 W) $$ HR Hq Hdz HO Ht21 Ht25
  iintro ⟨Hc21, HO⟩
  iapply (wait_lv X K c (dj 6) 13 (src := ySrc c 2) (dst := yDst c 2) (oPt c (QR c (qme c) 2) fullShare (outF X c)) W) $$ HR HL Hc6 HO Hp6
  iintro ⟨HO, Hp6, Hy⟩
  ihave Hy := (oPt_halves c (QR c (qme c) 2) (outF X c)).1 $$ Hy
  icases Hy with ⟨Hyl, Hyr⟩
  iapply (osend X K c (xp c) _ (dev14_eq c) (QR c (qme c) 2) (fun p' q g => pt_fw c p' q 2 g)
      (land_xq X c 2 (outF X c) (fun _ _ => rfl)) (dj 14) (dj 18) fullShare.left
      _ (QR_xp c _ _) (by rw [← qxp_xp c, ← QR_xp c]; rfl) 13 14 _) $$ HR Hyl Hdx HO Ht14 Ht18
  iintro ⟨Hc14, HO⟩
  rw [wp_ret]; imodintro
  iapply Hk
  isplitl [HO]; · iexists _; iexact HO
  iframe

end Cert.Kernel.A2A

end
-- ==== Proof.Bits.Part09.lean ====
import proofs.«900637_g7700000000000638_dist_a2a_v7x_xyz2x2x4_y_m1024_n512_f32_1_alg».proof.Proof.Bits.Steps

noncomputable section

namespace Cert.Kernel.A2A

open Cert.Kernel Cert.Kernel.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

variable (X : XBuf (Elt F)) (K : Dev nD × Fin 38 → ℕ)

theorem part9_spec (c : Dev nD) (W : Waits sig Unit) (v2 v5 v8 v9 v10 v23 v52 : BitVec 32)
    (Kt : (PUnit) → sProp 𝕄) :
    ⊢ recs X K
      -∗ levAts L lv
      -∗ owes (c : Thread nD τ) (owedAfter c 14) W
      -∗ oPt c (QR c (qme c) 2) fullShare.right (outF X c)
      -∗ Dz c 2
      -∗ tokD c (dj 22)
      -∗ tokD (zp c) (dj 26)
      -∗ crD c (dj 7)
      -∗ pos0 c (dj 7)
      -∗ ((∃ W', owes (c : Thread nD τ) (owedAfter c 15) W') ∗ crD c (dj 22) ∗ pos1 c (dj 7) ∗ oPt c (QR c (qme c) 3) fullShare (outF X c) -∗ Kt ⟨⟩)
      -∗ wp frame (wpE (defs₀ (F := F)) 𝒱₀ (c : Thread nD τ) none) Set.univ (k0_part9 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12 c v2 v5 v8 v9 v10 v23 v52) Kt := by
  rw [k0_part9_eq_skeleton]; unfold k0_part9_skel
  simp only [semSignalWord, semWaitWord, Prog.lift, Prog.bind_op, Prog.bind_ret, Prog.pure_eq_ret]
  iintro #HR #HL HO Hq Hdz Ht22 Ht26 Hc7 Hp7 Hk
  iapply (osend X K c (zp c) _ (dev15_eq c) (QR c (qme c) 2) (fun p' q g => pt_fw c p' q 2 g)
      (land_zq X c 2 (outF X c) (fun _ _ => rfl)) (dj 22) (dj 26) fullShare.right
      _ (QR_zp c _ _) (by rw [← qzp_zp c, ← QR_zp c]; rfl) 14 15 W) $$ HR Hq Hdz HO Ht22 Ht26
  iintro ⟨Hc22, HO⟩
  iapply (wait_lv X K c (dj 7) 15 (src := ySrc c 3) (dst := yDst c 3) (oPt c (QR c (qme c) 3) fullShare (outF X c)) W) $$ HR HL Hc7 HO Hp7
  iintro ⟨HO, Hp7, Hy⟩
  rw [wp_ret]; imodintro
  iapply Hk
  isplitl [HO]; · iexists _; iexact HO
  iframe

end Cert.Kernel.A2A

end
-- ==== Proof.Bits.Part10.lean ====
import proofs.«900637_g7700000000000638_dist_a2a_v7x_xyz2x2x4_y_m1024_n512_f32_1_alg».proof.Proof.Bits.Steps

noncomputable section

namespace Cert.Kernel.A2A

open Cert.Kernel Cert.Kernel.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

variable (X : XBuf (Elt F)) (K : Dev nD × Fin 38 → ℕ)

theorem part10_spec (c : Dev nD) (W : Waits sig Unit) (v2 v5 v8 v10 v23 v52 v54 : BitVec 32)
    (Kt : (Σ' (v332 : BitVec 32), BitVec 32) → sProp 𝕄) :
    ⊢ recs X K
      -∗ levAts L lv
      -∗ owes (c : Thread nD τ) (owedAfter c 15) W
      -∗ oPt c (QR c (qme c) 3) fullShare (outF X c)
      -∗ Dx c 3
      -∗ tokD c (dj 15)
      -∗ tokD (xp c) (dj 19)
      -∗ Dz c 3
      -∗ tokD c (dj 23)
      -∗ tokD (zp c) (dj 27)
      -∗ crD c (dj 16)
      -∗ pos0 c (dj 16)
      -∗ (∀ ret, (∃ W', owes (c : Thread nD τ) (owedAfter c 17) W') ∗ crD c (dj 15) ∗ crD c (dj 23) ∗ pos1 c (dj 16) ∗ oPt c (QR c (qxp c) 0) fullShare (outF X c) -∗ Kt ret)
      -∗ wp frame (wpE (defs₀ (F := F)) 𝒱₀ (c : Thread nD τ) none) Set.univ (k0_part10 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12 c v2 v5 v8 v10 v23 v52 v54) Kt := by
  rw [k0_part10_eq_skeleton]; unfold k0_part10_skel
  simp only [semSignalWord, semWaitWord, Prog.lift, Prog.bind_op, Prog.bind_ret, Prog.pure_eq_ret]
  iintro #HR #HL HO Hq Hdx Ht15 Ht19 Hdz Ht23 Ht27 Hc16 Hp16 Hk
  ihave Hq := (oPt_halves c (QR c (qme c) 3) (outF X c)).1 $$ Hq
  icases Hq with ⟨Hql, Hqr⟩
  iapply (osend X K c (xp c) _ (dev16_eq c) (QR c (qme c) 3) (fun p' q g => pt_fw c p' q 3 g)
      (land_xq X c 3 (outF X c) (fun _ _ => rfl)) (dj 15) (dj 19) fullShare.left
      _ (QR_xp c _ _) (by rw [← qxp_xp c, ← QR_xp c]; rfl) 15 16 W) $$ HR Hql Hdx HO Ht15 Ht19
  iintro ⟨Hc15, HO⟩
  iapply (osend X K c (zp c) _ (dev17_eq c) (QR c (qme c) 3) (fun p' q g => pt_fw c p' q 3 g)
      (land_zq X c 3 (outF X c) (fun _ _ => rfl)) (dj 23) (dj 27) fullShare.right
      _ (QR_zp c _ _) (by rw [← qzp_zp c, ← QR_zp c]; rfl) 16 17 W) $$ HR Hqr Hdz HO Ht23 Ht27
  iintro ⟨Hc23, HO⟩
  iapply (wait_lv X K c (dj 16) 17 (src := fw c 0) (dst := fw c 0) (oPt c (QR c (qxp c) 0) fullShare (outF X c)) W) $$ HR HL Hc16 HO Hp16
  iintro ⟨HO, Hp16, Ha⟩
  rw [wp_ret]; imodintro
  iapply Hk
  isplitl [HO]; · iexists _; iexact HO
  iframe

end Cert.Kernel.A2A

end
-- ==== Proof.Bits.Part11.lean ====
import proofs.«900637_g7700000000000638_dist_a2a_v7x_xyz2x2x4_y_m1024_n512_f32_1_alg».proof.Proof.Bits.Steps

noncomputable section

namespace Cert.Kernel.A2A

open Cert.Kernel Cert.Kernel.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

variable (X : XBuf (Elt F)) (K : Dev nD × Fin 38 → ℕ)

theorem part11_spec (c : Dev nD) (W : Waits sig Unit) (v2 v5 v8 v10 v23 v54 v332 v333 : BitVec 32)
    (Kt : (BitVec 32) → sProp 𝕄) :
    ⊢ recs X K
      -∗ levAts L lv
      -∗ owes (c : Thread nD τ) (owedAfter c 17) W
      -∗ oPt c (QR c (qxp c) 0) fullShare (outF X c)
      -∗ Dfa c 0
      -∗ tokD c (dj 28)
      -∗ tokD (zp c) (dj 30)
      -∗ crD c (dj 17)
      -∗ pos0 c (dj 17)
      -∗ Dfa c 1
      -∗ tokD c (dj 29)
      -∗ tokD (zp c) (dj 31)
      -∗ (∀ ret, (∃ W', owes (c : Thread nD τ) (owedAfter c 19) W') ∗ crD c (dj 28) ∗ pos1 c (dj 17) ∗ crD c (dj 29) -∗ Kt ret)
      -∗ wp frame (wpE (defs₀ (F := F)) 𝒱₀ (c : Thread nD τ) none) Set.univ (k0_part11 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12 c v2 v5 v8 v10 v23 v54 v332 v333) Kt := by
  rw [k0_part11_eq_skeleton]; unfold k0_part11_skel
  simp only [semSignalWord, semWaitWord, Prog.lift, Prog.bind_op, Prog.bind_ret, Prog.pure_eq_ret]
  iintro #HR #HL HO Hq Hda Ht28 Ht30 Hc17 Hp17 Hdb Ht29 Ht31 Hk
  iapply (osend X K c (zp c) _ (dev18_eq c) (QR c (qxp c) 0) (fun p' q g => pt_fa c p' q 0 g)
      (land_fa X c 0 (outF X c) (fun _ _ => rfl)) (dj 28) (dj 30) fullShare
      _ (QR_zp c _ _) (by rw [← q4_zp c, ← QR_zp c]; rfl) 17 18 W) $$ HR Hq Hda HO Ht28 Ht30
  iintro ⟨Hc28, HO⟩
  iapply (wait_lv X K c (dj 17) 18 (src := fw c 1) (dst := fw c 1) (oPt c (QR c (qxp c) 1) fullShare (outF X c)) W) $$ HR HL Hc17 HO Hp17
  iintro ⟨HO, Hp17, Hq⟩
  iapply (osend X K c (zp c) _ (dev19_eq c) (QR c (qxp c) 1) (fun p' q g => pt_fa c p' q 1 g)
      (land_fa X c 1 (outF X c) (fun _ _ => rfl)) (dj 29) (dj 31) fullShare
      _ (QR_zp c _ _) (by rw [← q4_zp c, ← QR_zp c]; rfl) 18 19 _) $$ HR Hq Hdb HO Ht29 Ht31
  iintro ⟨Hc29, HO⟩
  rw [wp_ret]; imodintro
  iapply Hk
  isplitl [HO]; · iexists _; iexact HO
  iframe

end Cert.Kernel.A2A

end
-- ==== Proof.Bits.Part12.lean ====
import proofs.«900637_g7700000000000638_dist_a2a_v7x_xyz2x2x4_y_m1024_n512_f32_1_alg».proof.Proof.Bits.Steps

noncomputable section

namespace Cert.Kernel.A2A

open Cert.Kernel Cert.Kernel.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

variable (X : XBuf (Elt F)) (K : Dev nD × Fin 38 → ℕ)

theorem part12_spec (c : Dev nD) (W : Waits sig Unit) (v2 v5 v8 v10 v23 v56 v366 : BitVec 32)
    (Kt : (PUnit) → sProp 𝕄) :
    ⊢ recs X K
      -∗ levAts L lv
      -∗ owes (c : Thread nD τ) (owedAfter c 19) W
      -∗ crD c (dj 26)
      -∗ pos0 c (dj 26)
      -∗ Dfb c 0
      -∗ tokD c (dj 32)
      -∗ tokD (xp c) (dj 34)
      -∗ ((∃ W', owes (c : Thread nD τ) (owedAfter c 20) W') ∗ pos1 c (dj 26) ∗ crD c (dj 32) -∗ Kt ⟨⟩)
      -∗ wp frame (wpE (defs₀ (F := F)) 𝒱₀ (c : Thread nD τ) none) Set.univ (k0_part12 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12 c v2 v5 v8 v10 v23 v56 v366) Kt := by
  rw [k0_part12_eq_skeleton]; unfold k0_part12_skel
  simp only [semSignalWord, semWaitWord, Prog.lift, Prog.bind_op, Prog.bind_ret, Prog.pure_eq_ret]
  iintro #HR #HL HO Hc26 Hp26 Hdb Ht32 Ht34 Hk
  iapply (wait_lv X K c (dj 26) 19 (src := fw c 2) (dst := fw c 2) (oPt c (QR c (qzp c) (2 + 0)) fullShare (outF X c)) W) $$ HR HL Hc26 HO Hp26
  iintro ⟨HO, Hp26, Hq⟩
  iapply (osend X K c (xp c) _ (dev20_eq c) (QR c (qzp c) (2 + 0)) (fun p' q g => pt_fb c p' q 0 g)
      (land_fb X c 0 (outF X c) (fun _ _ => rfl)) (dj 32) (dj 34) fullShare
      _ (QR_xp c _ _) (by rw [← q4_xp c, ← QR_xp c]; rfl) 19 20 _) $$ HR Hq Hdb HO Ht32 Ht34
  iintro ⟨Hc32, HO⟩
  rw [wp_ret]; imodintro
  iapply Hk
  isplitl [HO]; · iexists _; iexact HO
  iframe

end Cert.Kernel.A2A

end
-- ==== Proof.Bits.Part13.lean ====
import proofs.«900637_g7700000000000638_dist_a2a_v7x_xyz2x2x4_y_m1024_n512_f32_1_alg».proof.Proof.Bits.Steps

noncomputable section

namespace Cert.Kernel.A2A

open Cert.Kernel Cert.Kernel.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

variable (X : XBuf (Elt F)) (K : Dev nD × Fin 38 → ℕ)

theorem part13_spec (c : Dev nD) (W : Waits sig Unit) (v5 v8 v10 v56 : BitVec 32)
    (Kt : (Σ' (v430 : BitVec 32), BitVec 32) → sProp 𝕄) :
    ⊢ recs X K
      -∗ levAts L lv
      -∗ owes (c : Thread nD τ) (owedAfter c 20) W
      -∗ crD c (dj 27)
      -∗ pos0 c (dj 27)
      -∗ Dfb c 1
      -∗ tokD c (dj 33)
      -∗ tokD (xp c) (dj 35)
      -∗ crD c (dj 18)
      -∗ pos0 c (dj 18)
      -∗ (∀ ret, (∃ W', owes (c : Thread nD τ) (owedAfter c 21) W') ∗ pos1 c (dj 27) ∗ crD c (dj 33) ∗ pos1 c (dj 18) ∗ oPt c (QR c (qxp c) 2) fullShare (outF X c) -∗ Kt ret)
      -∗ wp frame (wpE (defs₀ (F := F)) 𝒱₀ (c : Thread nD τ) none) Set.univ (k0_part13 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12 c v5 v8 v10 v56) Kt := by
  rw [k0_part13_eq_skeleton]; unfold k0_part13_skel
  simp only [semSignalWord, semWaitWord, Prog.lift, Prog.bind_op, Prog.bind_ret, Prog.pure_eq_ret]
  iintro #HR #HL HO Hc27 Hp27 Hdb Ht33 Ht35 Hc18 Hp18 Hk
  iapply (wait_lv X K c (dj 27) 20 (src := fw c 3) (dst := fw c 3) (oPt c (QR c (qzp c) (2 + 1)) fullShare (outF X c)) W) $$ HR HL Hc27 HO Hp27
  iintro ⟨HO, Hp27, Hq⟩
  iapply (osend X K c (xp c) _ (dev21_eq c) (QR c (qzp c) (2 + 1)) (fun p' q g => pt_fb c p' q 1 g)
      (land_fb X c 1 (outF X c) (fun _ _ => rfl)) (dj 33) (dj 35) fullShare
      _ (QR_xp c _ _) (by rw [← q4_xp c, ← QR_xp c]; rfl) 20 21 _) $$ HR Hq Hdb HO Ht33 Ht35
  iintro ⟨Hc33, HO⟩
  iapply (wait_lv X K c (dj 18) 21 (src := fw c 2) (dst := fw c 2) (oPt c (QR c (qxp c) 2) fullShare (outF X c)) _) $$ HR HL Hc18 HO Hp18
  iintro ⟨HO, Hp18, Ha⟩
  rw [wp_ret]; imodintro
  iapply Hk
  isplitl [HO]; · iexists _; iexact HO
  iframe

end Cert.Kernel.A2A

end
-- ==== Proof.Bits.Part14.lean ====
import proofs.«900637_g7700000000000638_dist_a2a_v7x_xyz2x2x4_y_m1024_n512_f32_1_alg».proof.Proof.Bits.Steps

noncomputable section

namespace Cert.Kernel.A2A

open Cert.Kernel Cert.Kernel.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

variable (X : XBuf (Elt F)) (K : Dev nD × Fin 38 → ℕ)

theorem part14_spec (c : Dev nD) (W : Waits sig Unit) (v2 v5 v23 v430 v431 : BitVec 32)
    (Kt : (PUnit) → sProp 𝕄) :
    ⊢ recs X K
      -∗ levAts L lv
      -∗ owes (c : Thread nD τ) (owedAfter c 21) W
      -∗ crD c (dj 19)
      -∗ pos0 c (dj 19)
      -∗ crD c (dj 24)
      -∗ pos0 c (dj 24)
      -∗ crD c (dj 25)
      -∗ pos0 c (dj 25)
      -∗ ((∃ W', owes (c : Thread nD τ) (owedAfter c 21) W') ∗ pos1 c (dj 19) ∗ pos1 c (dj 24) ∗ pos1 c (dj 25) ∗ oPt c (QR c (qxp c) 3) fullShare (outF X c) ∗ oPt c (QR c (qzp c) 0) fullShare (outF X c) ∗ oPt c (QR c (qzp c) 1) fullShare (outF X c) -∗ Kt ⟨⟩)
      -∗ wp frame (wpE (defs₀ (F := F)) 𝒱₀ (c : Thread nD τ) none) Set.univ (k0_part14 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12 c v2 v5 v23 v430 v431) Kt := by
  rw [k0_part14_eq_skeleton]; unfold k0_part14_skel
  simp only [semSignalWord, semWaitWord, Prog.lift, Prog.bind_op, Prog.bind_ret, Prog.pure_eq_ret]
  iintro #HR #HL HO Hc19 Hp19 Hc24 Hp24 Hc25 Hp25 Hk
  iapply (wait_lv X K c (dj 19) 21 (src := fw c 3) (dst := fw c 3) (oPt c (QR c (qxp c) 3) fullShare (outF X c)) _) $$ HR HL Hc19 HO Hp19
  iintro ⟨HO, Hp19, Hd19⟩
  iapply (wait_lv X K c (dj 24) 21 (src := fw c 0) (dst := fw c 0) (oPt c (QR c (qzp c) 0) fullShare (outF X c)) _) $$ HR HL Hc24 HO Hp24
  iintro ⟨HO, Hp24, Hd24⟩
  iapply (wait_lv X K c (dj 25) 21 (src := fw c 1) (dst := fw c 1) (oPt c (QR c (qzp c) 1) fullShare (outF X c)) _) $$ HR HL Hc25 HO Hp25
  iintro ⟨HO, Hp25, Hd25⟩
  rw [wp_ret]; imodintro
  iapply Hk
  isplitl [HO]; · iexists _; iexact HO
  iframe

end Cert.Kernel.A2A

end
-- ==== Proof.Bits.Part15.lean ====
import proofs.«900637_g7700000000000638_dist_a2a_v7x_xyz2x2x4_y_m1024_n512_f32_1_alg».proof.Proof.Bits.Steps

noncomputable section

namespace Cert.Kernel.A2A

open Cert.Kernel Cert.Kernel.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

variable (X : XBuf (Elt F)) (K : Dev nD × Fin 38 → ℕ)

theorem part15_spec (c : Dev nD) (W : Waits sig Unit) (v2 v5 v8 v10 v23 : BitVec 32)
    (Kt : (PUnit) → sProp 𝕄) :
    ⊢ recs X K
      -∗ levAts L lv
      -∗ owes (c : Thread nD τ) (owedAfter c 21) W
      -∗ crD c (dj 30)
      -∗ pos0 c (dj 30)
      -∗ crD c (dj 34)
      -∗ pos0 c (dj 34)
      -∗ crD c (dj 31)
      -∗ pos0 c (dj 31)
      -∗ ((∃ W', owes (c : Thread nD τ) (owedAfter c 21) W') ∗ pos1 c (dj 30) ∗ pos1 c (dj 34) ∗ pos1 c (dj 31) ∗ oPt c (QR c (q4 c) 0) fullShare (outF X c) ∗ oPt c (QR c (q4 c) 2) fullShare (outF X c) ∗ oPt c (QR c (q4 c) 1) fullShare (outF X c) -∗ Kt ⟨⟩)
      -∗ wp frame (wpE (defs₀ (F := F)) 𝒱₀ (c : Thread nD τ) none) Set.univ (k0_part15 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12 c v2 v5 v8 v10 v23) Kt := by
  rw [k0_part15_eq_skeleton]; unfold k0_part15_skel
  simp only [semSignalWord, semWaitWord, Prog.lift, Prog.bind_op, Prog.bind_ret, Prog.pure_eq_ret]
  iintro #HR #HL HO Hc30 Hp30 Hc34 Hp34 Hc31 Hp31 Hk
  iapply (wait_lv X K c (dj 30) 21 (src := fa c 0) (dst := fa c 0) (oPt c (QR c (q4 c) 0) fullShare (outF X c)) _) $$ HR HL Hc30 HO Hp30
  iintro ⟨HO, Hp30, Hd30⟩
  iapply (wait_lv X K c (dj 34) 21 (src := fb c 0) (dst := fb c 0) (oPt c (QR c (q4 c) 2) fullShare (outF X c)) _) $$ HR HL Hc34 HO Hp34
  iintro ⟨HO, Hp34, Hd34⟩
  iapply (wait_lv X K c (dj 31) 21 (src := fa c 1) (dst := fa c 1) (oPt c (QR c (q4 c) 1) fullShare (outF X c)) _) $$ HR HL Hc31 HO Hp31
  iintro ⟨HO, Hp31, Hd31⟩
  rw [wp_ret]; imodintro
  iapply Hk
  isplitl [HO]; · iexists _; iexact HO
  iframe

end Cert.Kernel.A2A

end
-- ==== Proof.Bits.Part16.lean ====
import proofs.«900637_g7700000000000638_dist_a2a_v7x_xyz2x2x4_y_m1024_n512_f32_1_alg».proof.Proof.Bits.Steps

noncomputable section

namespace Cert.Kernel.A2A

open Cert.Kernel Cert.Kernel.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

variable (X : XBuf (Elt F)) (K : Dev nD × Fin 38 → ℕ)

theorem part16_spec (c : Dev nD) (W : Waits sig Unit) (v2 v8 v9 : BitVec 32)
    (Kt : (PUnit) → sProp 𝕄) :
    ⊢ recs X K
      -∗ levAts L lv
      -∗ owes (c : Thread nD τ) (owedAfter c 21) W
      -∗ crD c (dj 35)
      -∗ pos0 c (dj 35)
      -∗ crD c (dj 10)
      -∗ pos0 c (dj 10)
      -∗ crD c (dj 8)
      -∗ pos0 c (dj 8)
      -∗ crD c (dj 11)
      -∗ pos0 c (dj 11)
      -∗ crD c (dj 9)
      -∗ pos0 c (dj 9)
      -∗ ((∃ W', owes (c : Thread nD τ) (owedAfter c 21) W') ∗ pos1 c (dj 35) ∗ pos1 c (dj 10) ∗ pos1 c (dj 8) ∗ pos1 c (dj 11) ∗ pos1 c (dj 9) ∗ oPt c (QR c (q4 c) 3) fullShare (outF X c) ∗ oPt c (TR c 0) fullShare (outF X c) ∗ xPt c (X c) (TS c 0) fullShare ∗ oPt c (TR c 1) fullShare (outF X c) ∗ xPt c (X c) (TS c 1) fullShare -∗ Kt ⟨⟩)
      -∗ wp frame (wpE (defs₀ (F := F)) 𝒱₀ (c : Thread nD τ) none) Set.univ (k0_part16 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12 c v2 v8 v9) Kt := by
  rw [k0_part16_eq_skeleton]; unfold k0_part16_skel
  simp only [semSignalWord, semWaitWord, Prog.lift, Prog.bind_op, Prog.bind_ret, Prog.pure_eq_ret]
  iintro #HR #HL HO Hc35 Hp35 Hc10 Hp10 Hc8 Hp8 Hc11 Hp11 Hc9 Hp9 Hk
  iapply (wait_lv X K c (dj 35) 21 (src := fb c 1) (dst := fb c 1) (oPt c (QR c (q4 c) 3) fullShare (outF X c)) _) $$ HR HL Hc35 HO Hp35
  iintro ⟨HO, Hp35, Hd35⟩
  iapply (wait_lv X K c (dj 10) 21 (src := tSrc0 c) (dst := tDst c 0) (oPt c (TR c 0) fullShare (outF X c)) _) $$ HR HL Hc10 HO Hp10
  iintro ⟨HO, Hp10, Hd10⟩
  iapply (wait_lv X K c (dj 8) 21 (src := tDst c 0) (dst := tSrc0 c) (xPt c (X c) (TS c 0) fullShare) _) $$ HR HL Hc8 HO Hp8
  iintro ⟨HO, Hp8, Hd8⟩
  iapply (wait_lv X K c (dj 11) 21 (src := tSrc1 c) (dst := tDst c 1) (oPt c (TR c 1) fullShare (outF X c)) _) $$ HR HL Hc11 HO Hp11
  iintro ⟨HO, Hp11, Hd11⟩
  iapply (wait_lv X K c (dj 9) 21 (src := tDst c 1) (dst := tSrc1 c) (xPt c (X c) (TS c 1) fullShare) _) $$ HR HL Hc9 HO Hp9
  iintro ⟨HO, Hp9, Hd9⟩
  rw [wp_ret]; imodintro
  iapply Hk
  isplitl [HO]; · iexists _; iexact HO
  iframe

end Cert.Kernel.A2A

end
-- ==== Proof.Bits.Part17.lean ====
import proofs.«900637_g7700000000000638_dist_a2a_v7x_xyz2x2x4_y_m1024_n512_f32_1_alg».proof.Proof.Bits.Steps

noncomputable section

namespace Cert.Kernel.A2A

open Cert.Kernel Cert.Kernel.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

variable (X : XBuf (Elt F)) (K : Dev nD × Fin 38 → ℕ)

theorem part17_spec (c : Dev nD) (W : Waits sig Unit)
    (Kt : (PUnit) → sProp 𝕄) :
    ⊢ recs X K
      -∗ levAts L lv
      -∗ owes (c : Thread nD τ) (owedAfter c 21) W
      -∗ crD c (dj 0)
      -∗ pos0 c (dj 0)
      -∗ crD c (dj 12)
      -∗ pos0 c (dj 12)
      -∗ crD c (dj 20)
      -∗ pos0 c (dj 20)
      -∗ crD c (dj 1)
      -∗ pos0 c (dj 1)
      -∗ crD c (dj 13)
      -∗ pos0 c (dj 13)
      -∗ crD c (dj 21)
      -∗ pos0 c (dj 21)
      -∗ ((∃ W', owes (c : Thread nD τ) (owedAfter c 21) W') ∗ pos1 c (dj 0) ∗ pos1 c (dj 12) ∗ pos1 c (dj 20) ∗ pos1 c (dj 1) ∗ pos1 c (dj 13) ∗ pos1 c (dj 21) ∗ xPt c (X c) (YS c 0) fullShare ∗ oPt c (QR c (qme c) 0) fullShare.left (outF X c) ∗ oPt c (QR c (qme c) 0) fullShare.right (outF X c) ∗ xPt c (X c) (YS c 1) fullShare ∗ oPt c (QR c (qme c) 1) fullShare.left (outF X c) ∗ oPt c (QR c (qme c) 1) fullShare.right (outF X c) -∗ Kt ⟨⟩)
      -∗ wp frame (wpE (defs₀ (F := F)) 𝒱₀ (c : Thread nD τ) none) Set.univ (k0_part17 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12 c) Kt := by
  rw [k0_part17_eq_skeleton]; unfold k0_part17_skel
  simp only [semSignalWord, semWaitWord, Prog.lift, Prog.bind_op, Prog.bind_ret, Prog.pure_eq_ret]
  iintro #HR #HL HO Hc0 Hp0 Hc12 Hp12 Hc20 Hp20 Hc1 Hp1 Hc13 Hp13 Hc21 Hp21 Hk
  iapply (wait_lv X K c (dj 0) 21 (src := yDst c 0) (dst := ySrc c 0) (xPt c (X c) (YS c 0) fullShare) _) $$ HR HL Hc0 HO Hp0
  iintro ⟨HO, Hp0, Hd0⟩
  iapply (wait_lv X K c (dj 12) 21 (src := fw c 0) (dst := fw c 0) (oPt c (QR c (qme c) 0) fullShare.left (outF X c)) _) $$ HR HL Hc12 HO Hp12
  iintro ⟨HO, Hp12, Hd12⟩
  iapply (wait_lv X K c (dj 20) 21 (src := fw c 0) (dst := fw c 0) (oPt c (QR c (qme c) 0) fullShare.right (outF X c)) _) $$ HR HL Hc20 HO Hp20
  iintro ⟨HO, Hp20, Hd20⟩
  iapply (wait_lv X K c (dj 1) 21 (src := yDst c 1) (dst := ySrc c 1) (xPt c (X c) (YS c 1) fullShare) _) $$ HR HL Hc1 HO Hp1
  iintro ⟨HO, Hp1, Hd1⟩
  iapply (wait_lv X K c (dj 13) 21 (src := fw c 1) (dst := fw c 1) (oPt c (QR c (qme c) 1) fullShare.left (outF X c)) _) $$ HR HL Hc13 HO Hp13
  iintro ⟨HO, Hp13, Hd13⟩
  iapply (wait_lv X K c (dj 21) 21 (src := fw c 1) (dst := fw c 1) (oPt c (QR c (qme c) 1) fullShare.right (outF X c)) _) $$ HR HL Hc21 HO Hp21
  iintro ⟨HO, Hp21, Hd21⟩
  rw [wp_ret]; imodintro
  iapply Hk
  isplitl [HO]; · iexists _; iexact HO
  iframe

end Cert.Kernel.A2A

end
-- ==== Proof.Bits.Part18.lean ====
import proofs.«900637_g7700000000000638_dist_a2a_v7x_xyz2x2x4_y_m1024_n512_f32_1_alg».proof.Proof.Bits.Steps

noncomputable section

namespace Cert.Kernel.A2A

open Cert.Kernel Cert.Kernel.Gen Idealize.ShloMosaic Idealize.ShloMosaic.TcCoe Idealize.ShloMosaic.Rounds
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ UU ℕ

variable (X : XBuf (Elt F)) (K : Dev nD × Fin 38 → ℕ)

theorem part18_spec (c : Dev nD) (W : Waits sig Unit)
    (Kt : (PUnit) → sProp 𝕄) :
    ⊢ recs X K
      -∗ levAts L lv
      -∗ owes (c : Thread nD τ) (owedAfter c 21) W
      -∗ crD c (dj 2)
      -∗ pos0 c (dj 2)
      -∗ crD c (dj 14)
      -∗ pos0 c (dj 14)
      -∗ crD c (dj 22)
      -∗ pos0 c (dj 22)
      -∗ crD c (dj 3)
      -∗ pos0 c (dj 3)
      -∗ crD c (dj 15)
      -∗ pos0 c (dj 15)
      -∗ crD c (dj 23)
      -∗ pos0 c (dj 23)
      -∗ ((∃ W', owes (c : Thread nD τ) (owedAfter c 21) W') ∗ pos1 c (dj 2) ∗ pos1 c (dj 14) ∗ pos1 c (dj 22) ∗ pos1 c (dj 3) ∗ pos1 c (dj 15) ∗ pos1 c (dj 23) ∗ xPt c (X c) (YS c 2) fullShare ∗ oPt c (QR c (qme c) 2) fullShare.left (outF X c) ∗ oPt c (QR c (qme c) 2) fullShare.right (outF X c) ∗ xPt c (X c) (YS c 3) fullShare ∗ oPt c (QR c (qme c) 3) fullShare.left (outF X c) ∗ oPt c (QR c (qme c) 3) fullShare.right (outF X c) -∗ Kt ⟨⟩)
      -∗ wp frame (wpE (defs₀ (F := F)) 𝒱₀ (c : Thread nD τ) none) Set.univ (k0_part18 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12 c) Kt := by
  rw [k0_part18_eq_skeleton]; unfold k0_part18_skel
  simp only [semSignalWord, semWaitWord, Prog.lift, Prog.bind_op, Prog.bind_ret, Prog.pure_eq_ret]
  iintro #HR #HL HO Hc2 Hp2 Hc14 Hp14 Hc22 Hp22 Hc3 Hp3 Hc15 Hp15 Hc23 Hp23 Hk
  iapply (wait_lv X K c (dj 2) 21 (src := yDst c 2) (dst := ySrc c 2) (xPt c (X c) (YS c 2) fullShare) _) $$ HR HL Hc2 HO Hp2
  iintro ⟨HO, Hp2, Hd2⟩
  iapply (wait_lv X K c (dj 14) 21 (src := fw c 2) (dst := fw c 2) (oPt c (QR c (qme c) 2) fullShare.left (outF X c)) _) $$ HR HL Hc14 HO Hp14
  iintro ⟨HO, Hp14, Hd14⟩
  iapply (wait_lv X K c (dj 22) 21 (src := fw c 2) (dst := fw c 2) (oPt c (QR c (qme c) 2) fullShare.right (outF X c)) _) $$ HR HL Hc22 HO Hp22
  iintro ⟨HO, Hp22, Hd22⟩
  iapply (wait_lv X K c (dj 3) 21 (src := yDst c 3) (dst := ySrc c 3) (xPt c (X c) (YS c 3) fullShare) _) $$ HR HL Hc3 HO Hp3
  iintro ⟨HO, Hp3, Hd3⟩
  iapply (wait_lv X K c (dj 15) 21 (src := fw c 3) (dst := fw c 3) (oPt c (QR c (qme c) 3) fullShare.left (outF X c)) _) $$ HR HL Hc15 HO Hp15
  iintro ⟨HO, Hp15, Hd15⟩
  iapply (wait_lv X K c (dj 23) 21 (src := fw c 3) (dst := fw c 3) (oPt c (QR c (qme c) 3) fullShare.right (outF X c)) _) $$ HR HL Hc23 HO Hp23
  iintro ⟨HO, Hp23, Hd23⟩
  rw [wp_ret]; imodintro
  iapply Hk
  isplitl [HO]; · iexists _; iexact HO
  iframe

end Cert.Kernel.A2A

end
-- ==== Proof.Bits.Body.lean ====
import proofs.«900637_g7700000000000638_dist_a2a_v7x_xyz2x2x4_y_m1024_n512_f32_1_alg».proof.Proof.Bits.Dats
import proofs.«900637_g7700000000000638_dist_a2a_v7x_xyz2x2x4_y_m1024_n512_f32_1_alg».proof.Proof.Bits.Chains
import proofs.«900637_g7700000000000638_dist_a2a_v7x_xyz2x2x4_y_m1024_n512_f32_1_alg».proof.Proof.Bits.Part01
import proofs.«900637_g7700000000000638_dist_a2a_v7x_xyz2x2x4_y_m1024_n512_f32_1_alg».proof.Proof.Bits.Part02
import proofs.«900637_g7700000000000638_dist_a2a_v7x_xyz2x2x4_y_m1024_n512_f32_1_alg».proof.Proof.Bits.Part03
import proofs.«900637_g7700000000000638_dist_a2a_v7x_xyz2x2x4_y_m1024_n512_f32_1_alg».proof.Proof.Bits.Part04
import proofs.«900637_g7700000000000638_dist_a2a_v7x_xyz2x2x4_y_m1024_n512_f32_1_alg».proof.Proof.Bits.Part05
import proofs.«900637_g7700000000000638_dist_a2a_v7x_xyz2x2x4_y_m1024_n512_f32_1_alg».proof.Proof.Bits.Part06
import proofs.«900637_g7700000000000638_dist_a2a_v7x_xyz2x2x4_y_m1024_n512_f32_1_alg».proof.Proof.Bits.Part07
import proofs.«900637_g7700000000000638_dist_a2a_v7x_xyz2x2x4_y_m1024_n512_f32_1_alg».proof.Proof.Bits.Part08
import proofs.«900637_g7700000000000638_dist_a2a_v7x_xyz2x2x4_y_m1024_n512_f32_1_alg».proof.Proof.Bits.Part09
import proofs.«900637_g7700000000000638_dist_a2a_v7x_xyz2x2x4_y_m1024_n512_f32_1_alg».proof.Proof.Bits.Part10
import proofs.«900637_g7700000000000638_dist_a2a_v7x_xyz2x2x4_y_m1024_n512_f32_1_alg».proof.Proof.Bits.Part11
import proofs.«900637_g7700000000000638_dist_a2a_v7x_xyz2x2x4_y_m1024_n512_f32_1_alg».proof.Proof.Bits.Part12
import proofs.«900637_g7700000000000638_dist_a2a_v7x_xyz2x2x4_y_m1024_n512_f32_1_alg».proof.Proof.Bits.Part13
import proofs.«900637_g7700000000000638_dist_a2a_v7x_xyz2x2x4_y_m1024_n512_f32_1_alg».proof.Proof.Bits.Part14
import proofs.«900637_g7700000000000638_dist_a2a_v7x_xyz2x2x4_y_m1024_n512_f32_1_alg».proof.Proof.Bits.Part15
import proofs.«900637_g7700000000000638_dist_a2a_v7x_xyz2x2x4_y_m1024_n512_f32_1_alg».proof.Proof.Bits.Part16
import proofs.«900637_g7700000000000638_dist_a2a_v7x_xyz2x2x4_y_m1024_n512_f32_1_alg».proof.Proof.Bits.Part17
import proofs.«900637_g7700000000000638_dist_a2a_v7x_xyz2x2x4_y_m1024_n512_f32_1_alg».proof.Proof.Bits.Part18

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
-- One device's whole body: the parts in program order, each fed what the earlier ones and the launch left it.
theorem sound_body (K : Dev nD × Fin 38 → ℕ) (c : Dev nD) (W : Waits sig Unit) (Kt : PUnit → sProp 𝕄) :
    ⊢ ghost (Xm m) K c -∗ credsC c -∗ levAts L lv -∗ owes (c : Thread nD τ) (O₀ c) W
      -∗ (oLoc c ↦{fullShare} m (oLoc c)) -∗ (xLoc c ↦{fullShare} Xm m c)
      -∗ ((Φ₁ m c ∗ ∃ W', owes (c : Thread nD τ) 0 W') -∗ Kt ⟨⟩)
      -∗ wp frame (wpE (defs₀ (F := F)) 𝒱₀ (c : Thread nD τ) none) Set.univ (cc0_body (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12) Kt := by
  rw [cc0_body_eq_skeleton]; unfold cc0_body_skel
  unfold ghost credsC
  rw [positions_eq, payToks_eq]
  iintro ⟨#HR, ⟨P0, P1, P2, P3, P4, P5, P6, P7, P8, P9, P10, P11, P12, P13, P14, P15, P16, P17, P18, P19, P20, P21, P22, P23, P24, P25, P26, P27, P28, P29, P30, P31, P32, P33, P34, P35, P36, PB⟩, TBy, TBx, TBz, ⟨S0, S1, S2, S3, S8, S9, S12, S13, S14, S15, S20, S21, S22, S23, S28, S29, S32, S33, S36⟩, ⟨Y4, Y5, Y6, Y7, Y10, Y11⟩, ⟨X16, X17, X18, X19, X34, X35⟩, ⟨Z24, Z25, Z26, Z27, Z30, Z31⟩⟩
    ⟨CB, ⟨C4, C5, C6, C7⟩, ⟨C10, C11⟩, ⟨C16, C17, C18, C19⟩, ⟨C24, C25, C26, C27⟩, ⟨C30, C31⟩, ⟨C34, C35⟩⟩ #HL HO Hout Hx Hk
  ihave Hc := (out_cut c (m (oLoc c))).1 $$ Hout
  icases Hc with ⟨OL, ⟨Om0, Om1, Om2, Om3⟩, ⟨Ox0, Ox1, Ox2, Ox3⟩, ⟨Oz0, Oz1, Oz2, Oz3⟩, ⟨O40, O41, O42, O43⟩, ⟨OT0, OT1⟩⟩
  ihave Hxc := (x_cut c (Xm m c)).1 $$ Hx
  icases Hxc with ⟨⟨XY0, XY1, XY2, XY3⟩, ⟨XT0, XT1⟩, XL, XRst⟩
  ihave GY := (give_y c (m (oLoc c))) $$ [Om0 Om1 Om2 Om3 OT0 OT1]
  · iframe
  ihave GX := (give_x c (m (oLoc c))) $$ [Ox0 Ox1 Ox2 Ox3 O42 O43]
  · iframe
  ihave GZ := (give_z c (m (oLoc c))) $$ [Oz0 Oz1 Oz2 Oz3 O40 O41]
  · iframe
  rw [show O₀ c = owedAfter c 0 from rfl, wp_bind]
  iapply (part1_spec (Xm m) K c W _) $$ HR HO TBy GY
  iintro %v2 %v5 %v8 %v9 %v10 %v20 %v23 %v32 %c4 HO
  try dsimp only
  rw [wp_bind]
  iapply (part2_spec (Xm m) K c W v2 v5 v8 v9 v10 v20 v23 v32 c4 _) $$ HR HL HO TBx GX TBz GZ CB PB
  iintro %ret ⟨⟨%W2, HO⟩, BP0, BP1, BP2⟩
  obtain ⟨v44, v52, v54, v56, v64⟩ := ret
  try dsimp only
  ihave BQ0 := (Entails.of_eq (barPay0_eq c)) $$ BP0
  ihave BQ1 := (Entails.of_eq (barPay1_eq c)) $$ BP1
  ihave BQ2 := (Entails.of_eq (barPay2_eq c)) $$ BP2
  icases BQ0 with ⟨Dy0, Dy1, Dy2, Dy3, Dt0, Dt1⟩
  icases BQ1 with ⟨Dx0, Dx1, Dx2, Dx3, Dfb0, Dfb1⟩
  icases BQ2 with ⟨Dz0, Dz1, Dz2, Dz3, Dfa0, Dfa1⟩
  rw [wp_bind]
  iapply (part3_spec (Xm m) K c W2 v2 v5 v8 v9 v44 v64 _) $$ HR HL HO XY0 XY1 Dy0 Dy1 S0 S1 Y4 Y5
  iintro %v100 ⟨⟨%W3, HO⟩, E0, E1⟩
  try dsimp only
  rw [wp_bind]
  iapply (part4_spec (Xm m) K c W3 v2 v5 v8 v9 v44 v100 _) $$ HR HL HO XY2 XY3 Dy2 Dy3 S2 S3 Y6 Y7
  iintro %ret ⟨⟨%W4, HO⟩, E2, E3⟩
  obtain ⟨v134, c896⟩ := ret
  try dsimp only
  rw [wp_bind]
  iapply (part5_spec (Xm m) K c W4 v2 v5 v8 v9 v134 c896 _) $$ HR HL HO XT0 XT1 Dt0 Dt1 S8 S9 Y10 Y11
  iintro ⟨⟨%W5, HO⟩, E8, E9⟩
  try dsimp only
  rw [wp_bind]
  iapply (part6_spec (Xm m) K c W5 v2 v5 v8 v9 v10 v23 v52 _) $$ HR HL HO XL [OL] S36 C4 P4 Dx0 S12 X16
  · iexists _; iexact OL
  iintro ⟨⟨%W6, HO⟩, E36, Q4, E12, R0r⟩
  try dsimp only
  rw [wp_bind]
  iapply (part7_spec (Xm m) K c W6 v2 v5 v8 v9 v10 v52 _) $$ HR HL HO R0r Dz0 S20 Z24 C5 P5 Dx1 S13 X17
  iintro %ret ⟨⟨%W7, HO⟩, E20, Q5, E13, R1r⟩
  obtain ⟨v232, c4b⟩ := ret
  try dsimp only
  rw [wp_bind]
  iapply (part8_spec (Xm m) K c W7 v2 v5 v8 v9 v10 v23 v52 v232 c4b _) $$ HR HL HO R1r Dz1 S21 Z25 C6 P6 Dx2 S14 X18
  iintro ⟨⟨%W8, HO⟩, E21, Q6, E14, R2r⟩
  try dsimp only
  rw [wp_bind]
  iapply (part9_spec (Xm m) K c W8 v2 v5 v8 v9 v10 v23 v52 _) $$ HR HL HO R2r Dz2 S22 Z26 C7 P7
  iintro ⟨⟨%W9, HO⟩, E22, Q7, R3⟩
  try dsimp only
  rw [wp_bind]
  iapply (part10_spec (Xm m) K c W9 v2 v5 v8 v10 v23 v52 v54 _) $$ HR HL HO R3 Dx3 S15 X19 Dz3 S23 Z27 C16 P16
  iintro %ret ⟨⟨%W10, HO⟩, E15, E23, Q16, A0⟩
  obtain ⟨v332, v333⟩ := ret
  try dsimp only
  rw [wp_bind]
  iapply (part11_spec (Xm m) K c W10 v2 v5 v8 v10 v23 v54 v332 v333 _) $$ HR HL HO A0 Dfa0 S28 Z30 C17 P17 Dfa1 S29 Z31
  iintro %v366 ⟨⟨%W11, HO⟩, E28, Q17, E29⟩
  try dsimp only
  rw [wp_bind]
  iapply (part12_spec (Xm m) K c W11 v2 v5 v8 v10 v23 v56 v366 _) $$ HR HL HO C26 P26 Dfb0 S32 X34
  iintro ⟨⟨%W12, HO⟩, Q26, E32⟩
  try dsimp only
  rw [wp_bind]
  iapply (part13_spec (Xm m) K c W12 v5 v8 v10 v56 _) $$ HR HL HO C27 P27 Dfb1 S33 X35 C18 P18
  iintro %ret ⟨⟨%W13, HO⟩, Q27, E33, Q18, A2⟩
  obtain ⟨v430, v431⟩ := ret
  try dsimp only
  rw [wp_bind]
  iapply (part14_spec (Xm m) K c W13 v2 v5 v23 v430 v431 _) $$ HR HL HO C19 P19 C24 P24 C25 P25
  iintro ⟨⟨%W14, HO⟩, Q19, Q24, Q25, A3, B0, B1⟩
  try dsimp only
  rw [wp_bind]
  iapply (part15_spec (Xm m) K c W14 v2 v5 v8 v10 v23 _) $$ HR HL HO C30 P30 C34 P34 C31 P31
  iintro ⟨⟨%W15, HO⟩, Q30, Q34, Q31, D0, D2, D1⟩
  try dsimp only
  rw [wp_bind]
  iapply (part16_spec (Xm m) K c W15 v2 v8 v9 _) $$ HR HL HO C35 P35 C10 P10 E8 P8 C11 P11 E9 P9
  iintro ⟨⟨%W16, HO⟩, Q35, Q10, Q8, Q11, Q9, D3, T0, XT0, T1, XT1⟩
  try dsimp only
  rw [wp_bind]
  iapply (part17_spec (Xm m) K c W16 _) $$ HR HL HO E0 P0 E12 P12 E20 P20 E1 P1 E13 P13 E21 P21
  iintro ⟨⟨%W17, HO⟩, Q0, Q12, Q20, Q1, Q13, Q21, XY0, M0l, M0r, XY1, M1l, M1r⟩
  try dsimp only
  rw [wp_bind]
  iapply (part18_spec (Xm m) K c W17 _) $$ HR HL HO E2 P2 E14 P14 E22 P22 E3 P3 E15 P15 E23 P23
  iintro ⟨⟨%W18, HO⟩, Q2, Q14, Q22, Q3, Q15, Q23, XY2, M2l, M2r, XY3, M3l, M3r⟩
  try dsimp only
  simp only [Prog.lift, Prog.bind_op, Prog.bind_ret, Prog.pure_eq_ret]
  iapply (wait_lv (Xm m) K c (dj 28) 21 (src := fa c 0) (dst := fa c 0) (oPt c (QR c (qxp c) 0) fullShare (outF (Xm m) c)) _) $$ HR HL E28 HO P28
  iintro ⟨HO, Q28, A0⟩
  iapply (wait_lv (Xm m) K c (dj 32) 21 (src := fb c 0) (dst := fb c 0) (oPt c (QR c (qzp c) 2) fullShare (outF (Xm m) c)) _) $$ HR HL E32 HO P32
  iintro ⟨HO, Q32, B2⟩
  iapply (wait_lv (Xm m) K c (dj 29) 21 (src := fa c 1) (dst := fa c 1) (oPt c (QR c (qxp c) 1) fullShare (outF (Xm m) c)) _) $$ HR HL E29 HO P29
  iintro ⟨HO, Q29, A1⟩
  iapply (wait_lv (Xm m) K c (dj 33) 21 (src := fb c 1) (dst := fb c 1) (oPt c (QR c (qzp c) 3) fullShare (outF (Xm m) c)) _) $$ HR HL E33 HO P33
  iintro ⟨HO, Q33, B3⟩
  iapply (wait_lv (Xm m) K c (dj 36) 21 (src := lSrc c) (dst := lDst c)
      iprop(oPt c (LR c) fullShare (outF (Xm m) c) ∗ xPt c (Xm m c) (LS c) fullShare) _) $$ HR HL E36 HO P36
  iintro ⟨HO, Q36, LRo, XL⟩
  rw [wp_ret]
  ihave HQ := (pos1_family c) $$ [Q0 Q1 Q2 Q3 Q4 Q5 Q6 Q7 Q8 Q9 Q10 Q11 Q12 Q13 Q14 Q15 Q16 Q17 Q18 Q19 Q20 Q21 Q22 Q23 Q24 Q25 Q26 Q27 Q28 Q29 Q30 Q31 Q32 Q33 Q34 Q35 Q36]
  · iframe
  imod (close_all (Xm m) K c) $$ [HQ] with HZ
  · iframe HR HQ
  imodintro
  iapply Hk
  ihave M0 := (oPt_halves c (QR c (qme c) 0) (outF (Xm m) c)).2 $$ [M0l M0r]
  · iframe
  ihave M1 := (oPt_halves c (QR c (qme c) 1) (outF (Xm m) c)).2 $$ [M1l M1r]
  · iframe
  ihave M2 := (oPt_halves c (QR c (qme c) 2) (outF (Xm m) c)).2 $$ [M2l M2r]
  · iframe
  ihave M3 := (oPt_halves c (QR c (qme c) 3) (outF (Xm m) c)).2 $$ [M3l M3r]
  · iframe
  ihave Hout := (out_cut c (outF (Xm m) c)).2 $$ [LRo M0 M1 M2 M3 A0 A1 A2 A3 B0 B1 B2 B3 D0 D1 D2 D3 T0 T1]
  · iframe
  ihave Hx := (x_cut c (Xm m c)).2 $$ [XY0 XY1 XY2 XY3 XT0 XT1 XL XRst]
  · iframe
  unfold Φ₁
  isplitr [HO]
  · iframe
  · iexists _; iexact HO

theorem body_obligation (c : Dev nD) : BodyObligation (dats (F := F) m 0 c) (defs₀ (F := F)) 𝒱₀ () Set.univ := fun t => by
  rw [fin_N t]
  show iprop(Φ₀ m c ∗ (dats m 0 c).owesAt () t₀.castSucc ∗ bigSep Finset.univ fun w : Fin cfg0.W => _)
    ⊢ wp frame (wpE (defs₀ (F := F)) 𝒱₀ (c : Thread nD τ) none) Set.univ (cc0_body (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 cc0_scratch10 cc0_scratch11 cc0_scratch12) (fun _ => iprop(Φ₁ m c ∗ (dats m 0 c).owesAt () t₀.succ ∗ bigSep Finset.univ fun w : Fin cfg0.W => _))
  unfold Φ₀ start Dat.owesAt Pipeline.owesWithin
  iintro ⟨⟨⟨⟨%K, Hg⟩, Hcr, #HL⟩, Hout, Hx⟩, ⟨%W, %hW, HO⟩, -⟩
  iapply (sound_body m K c W _) $$ Hg Hcr HL [HO] Hout Hx
  · iexact HO
  iintro ⟨H1, ⟨%W', HO⟩⟩
  iframe H1
  isplitl [HO]
  · iexists W'
    isplitr; · ipureintro; exact fun _ _ => Or.inl trivial
    iexact HO
  · first | iempintro | (show _ ⊢ (emp : sProp 𝕄); iempintro)

end Cert.Kernel.A2A

end
-- ==== Proof.Bits.Fund.lean ====
import proofs.«900637_g7700000000000638_dist_a2a_v7x_xyz2x2x4_y_m1024_n512_f32_1_alg».proof.Proof.Bits.Ghost
import proofs.«900637_g7700000000000638_dist_a2a_v7x_xyz2x2x4_y_m1024_n512_f32_1_alg».proof.Proof.Gen.Kernel.Launch

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : XBuf (Elt F))

theorem csem_injective : Function.Injective csem := by
  intro k k' h
  unfold csem at h
  by_cases hk : k.val < 37 <;> by_cases hk' : k'.val < 37
  · rw [dif_pos hk, dif_pos hk'] at h
    have h3 := Fin.val_eq_of_eq (SemLoc.dma.inj h)
    exact Fin.ext h3
  · rw [dif_pos hk, dif_neg hk'] at h; cases h
  · rw [dif_neg hk, dif_pos hk'] at h; cases h
  · exact Fin.ext (by have := k.isLt; have := k'.isLt; omega)

theorem kcell_injective : Function.Injective (kcell : Dev nD × Fin 38 → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl

def allCells : Finset (GSem nD τ sig) := Finset.univ.map ⟨kcell, kcell_injective⟩

def tokOf (cj : Dev nD × Fin 40) : GSem nD τ sig × ℕ × Fin 3 :=
  if h : cj.2.val < 3 then (barCell cj.1, 0, ⟨cj.2.val, h⟩)
  else (dCell cj.1 ⟨cj.2.val - 3, by have := cj.2.isLt; have : sig.nDmaSem = 37 := rfl; omega⟩, 0, 0)
theorem tokOf_injective : Function.Injective (tokOf : Dev nD × Fin 40 → GSem nD τ sig × ℕ × Fin 3) := by
  rintro ⟨c, j⟩ ⟨c', j'⟩ h
  have hc : c = c' := by
    have := congrArg (fun x : GSem nD τ sig × ℕ × Fin 3 => x.1.1.1) h
    unfold tokOf at this; dsimp only at this
    split at this <;> split at this <;> exact this
  subst hc
  have hj : j.val = j'.val := by
    unfold tokOf at h; dsimp only at h
    split at h <;> split at h
    · exact congrArg (fun x : GSem nD τ sig × ℕ × Fin 3 => x.2.2.val) h
    · exact absurd (congrArg (fun x : GSem nD τ sig × ℕ × Fin 3 => x.1.2) h) (fun h' => by cases h')
    · exact absurd (congrArg (fun x : GSem nD τ sig × ℕ × Fin 3 => x.1.2) h) (fun h' => by cases h')
    · have h3 := congrArg Fin.val (SemLoc.dma.inj (congrArg (fun x : GSem nD τ sig × ℕ × Fin 3 => x.1.2) h))
      dsimp only at h3
      omega
  exact Prod.ext rfl (Fin.ext hj)
def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

theorem bigSep_fin_add {m n : ℕ} (Φ : Fin (m + n) → sProp 𝕄) :
    bigSep Finset.univ Φ = iprop((bigSep Finset.univ fun i : Fin m => Φ (Fin.castAdd n i)) ∗ bigSep Finset.univ fun j : Fin n => Φ (Fin.natAdd m j)) := by
  rw [bigSep_univ_equiv finSumFinEquiv Φ, bigSep_univ_sum]
  simp only [finSumFinEquiv_apply_left, finSumFinEquiv_apply_right]
  rfl

theorem bigSep_union' {I : Type} [DecidableEq I] {s t : Finset I} (hst : Disjoint s t) (Φ : I → sProp 𝕄) :
    bigSep (s ∪ t) Φ = iprop(bigSep s Φ ∗ bigSep t Φ) := bigSep_union hst

theorem sep_assoc_r4 (a b c d : sProp 𝕄) : iprop((a ∗ b ∗ c) ∗ d) = iprop(a ∗ b ∗ c ∗ d) := by
  refine BI.Entails.antisymm (show iprop((a ∗ b ∗ c) ∗ d) ⊢ (iprop(a ∗ b ∗ c ∗ d) : sProp 𝕄) from ?_)
    (show iprop(a ∗ b ∗ c ∗ d) ⊢ (iprop((a ∗ b ∗ c) ∗ d) : sProp 𝕄) from ?_)
  · iintro ⟨⟨Ha, Hb, Hc⟩, Hd⟩; iframe
  · iintro ⟨Ha, Hb, Hc, Hd⟩; iframe
theorem sep_assoc_l4 (a b c d : sProp 𝕄) : iprop(((a ∗ b) ∗ c) ∗ d) = iprop(a ∗ b ∗ c ∗ d) := by
  refine BI.Entails.antisymm (show iprop(((a ∗ b) ∗ c) ∗ d) ⊢ (iprop(a ∗ b ∗ c ∗ d) : sProp 𝕄) from ?_)
    (show iprop(a ∗ b ∗ c ∗ d) ⊢ (iprop(((a ∗ b) ∗ c) ∗ d) : sProp 𝕄) from ?_)
  · iintro ⟨⟨⟨Ha, Hb⟩, Hc⟩, Hd⟩; iframe
  · iintro ⟨Ha, Hb, Hc, Hd⟩; iframe

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem bigSep_cells (c : Dev nD) (Φ : GSem nD τ sig → sProp 𝕄) :
    (bigSep Finset.univ fun k : Fin 38 => Φ (kcell (c, k)))
      = iprop((bigSep Finset.univ fun j : Fin 37 => Φ (dCell c j)) ∗ Φ (barCell c)) := by
  refine (bigSep_fin_add (m := 37) (n := 1) fun k : Fin 38 => Φ (kcell (c, k))).trans ?_
  rw [bigSep_univ_of_subsingleton (0 : Fin 1)]
  have hl : (bigSep Finset.univ fun j : Fin 37 => Φ (kcell (c, (Fin.castAdd 1 j : Fin 38)))) = bigSep Finset.univ fun j : Fin 37 => Φ (dCell c j) :=
    bigSep_congr fun j _ => congrArg Φ (kcell_d c j)
  have hr : Φ (kcell (c, (Fin.natAdd 37 (0 : Fin 1) : Fin 38))) = Φ (barCell c) := congrArg Φ (kcell_b c)
  rw [hl, hr]

theorem tokOf_inl (c : Dev nD) (a : Fin 3) : tokOf (c, (Fin.castAdd 37 a : Fin 40)) = (barCell c, 0, a) := by
  unfold tokOf; dsimp only
  split
  · rfl
  · rename_i h; exact absurd a.isLt h
theorem tokOf_inr (c : Dev nD) (b : Fin 37) : tokOf (c, (Fin.natAdd 3 b : Fin 40)) = (dCell c b, 0, 0) := by
  unfold tokOf; dsimp only
  split
  · rename_i h; have h' : 3 + b.val < 3 := h; omega
  · refine congrArg (fun j : DmaSem sig => ((dCell c j, (0 : ℕ), (0 : Fin 3)) : GSem nD τ sig × ℕ × Fin 3)) (Fin.ext ?_)
    show 3 + b.val - 3 = b.val; omega

theorem toks_eq (c : Dev nD) :
    (bigSep Finset.univ fun j : Fin 40 => (dutyTok ER (tokOf (c, j)).1 (tokOf (c, j)).2.1 (tokOf (c, j)).2.2 : sProp 𝕄)) = toks c := by
  refine (bigSep_fin_add (m := 3) (n := 37) fun j : Fin 40 => (dutyTok ER (tokOf (c, j)).1 (tokOf (c, j)).2.1 (tokOf (c, j)).2.2 : sProp 𝕄)).trans ?_
  have hl : (bigSep Finset.univ fun a : Fin 3 => (dutyTok ER (tokOf (c, (Fin.castAdd 37 a : Fin 40))).1 (tokOf (c, (Fin.castAdd 37 a : Fin 40))).2.1
      (tokOf (c, (Fin.castAdd 37 a : Fin 40))).2.2 : sProp 𝕄)) = bigSep Finset.univ fun a : Fin 3 => tokB c a :=
    bigSep_congr fun a _ => by rw [tokOf_inl]
  have hr : (bigSep Finset.univ fun b : Fin 37 => (dutyTok ER (tokOf (c, (Fin.natAdd 3 b : Fin 40))).1 (tokOf (c, (Fin.natAdd 3 b : Fin 40))).2.1
      (tokOf (c, (Fin.natAdd 3 b : Fin 40))).2.2 : sProp 𝕄)) = bigSep Finset.univ fun j : DmaSem sig => tokD c j :=
    bigSep_congr fun b _ => by rw [tokOf_inr]
  rw [hl, hr, bigSep_fin3]
  unfold toks
  exact sep_assoc_r4 _ _ _ _

theorem fund_all : BI.own (ER (initOf allCells allToks)) ⊢ (|==> bigSep Finset.univ (G X) : sProp 𝕄) := by
  have hX (Φ : GSem nD τ sig → sProp 𝕄) : bigSep allCells Φ = bigSep Finset.univ fun c : Dev nD => bigSep Finset.univ fun k : Fin 38 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (Rd X) allCells allToks) $$ HX with ⟨Hst, Hr, Hat, Htok⟩
  imodintro
  ihave Hst' := (Entails.of_eq (hX fun g => roundState ER (Rd X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe

theorem ownSems0_eq (c : Dev nD) : (Pipeline.ownSems0 (Ix := Unit) (Name := ℕ) (U := UU) (Lvl := ℕ) (Val := Elt F) (τ := τ) osem c : sProp 𝕄)
    = bigSep Finset.univ fun j : Fin 37 => semVal (dCell c j) 0 := rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      = (bigSep Finset.univ fun k : Fin 38 => semVal (kcell (c, k)) 0 : sProp 𝕄) := by
  rw [ownSems0_eq, unscopedSems0_eq, bigSep_cells c fun g => semVal g 0]

theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k => iprop(∃ κ : ℕ, cellInv ER (Rd X) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c)) $$ [Hos Hus]
  · isplitl [Hos] <;> iassumption
  imod (show iprop((bigSep Finset.univ fun k : Fin 38 => semVal (kcell (c, k)) 0) ∗ bigSep Finset.univ fun k : Fin 38 => roundState ER (Rd X) (kcell (c, k)) 0)
      ⊢ (|={Set.univ}=> bigSep Finset.univ fun k => iprop(∃ κ : ℕ, cellInv ER (Rd X) κ (kcell (c, k))) : sProp 𝕄) from by
        rw [← bigSep_sep']
        exact (bigSep_mono fun k _ => (Rounds.body_intro ER (Rd X) (kcell (c, k))).trans inv_alloc).trans (bigSep_fupd _ _)) $$ [Hv Hst] with Hinv
  · isplitl [Hv] <;> iassumption
  imodintro
  iframe

theorem toks_split (c : Dev nD) : (bigSep Finset.univ fun j : DmaSem sig => (tokD c j : sProp 𝕄))
    = iprop((bigSep sendJ fun j => tokD c j) ∗ (bigSep recvY fun j => tokD c j) ∗ (bigSep recvX fun j => tokD c j) ∗ (bigSep recvZ fun j => tokD c j)) := by
  rw [dma_partition, bigSep_union' dma_disj3, bigSep_union' dma_disj2, bigSep_union' dma_disj1]
  exact sep_assoc_l4 _ _ _ _

theorem toks_around : (bigSep Finset.univ fun c : Dev nD => (toks c : sProp 𝕄)) ⊢ bigSep Finset.univ fun c : Dev nD => payToks c := by
  unfold toks payToks
  rw [bigSep_congr (s := Finset.univ) fun (c : Dev nD) _ =>
    congrArg (fun R : sProp 𝕄 => iprop(tokB c 0 ∗ tokB c 1 ∗ tokB c 2 ∗ R)) (toks_split c)]
  simp only [bigSep_sep']
  rw [bigSep_univ_equiv ypE (fun c : Dev nD => (tokB c 0 : sProp 𝕄)),
    bigSep_univ_equiv xpE (fun c : Dev nD => (tokB c 1 : sProp 𝕄)),
    bigSep_univ_equiv zpE (fun c : Dev nD => (tokB c 2 : sProp 𝕄)),
    bigSep_univ_equiv ypE (fun c : Dev nD => (bigSep recvY fun j => tokD c j : sProp 𝕄)),
    bigSep_univ_equiv xpE (fun c : Dev nD => (bigSep recvX fun j => tokD c j : sProp 𝕄)),
    bigSep_univ_equiv zpE (fun c : Dev nD => (bigSep recvZ fun j => tokD c j : sProp 𝕄))]
  iintro ⟨H0, H1, H2, HS, HY, HX, HZ⟩
  isplitl [H0]; · iexact H0
  isplitl [H1]; · iexact H1
  isplitl [H2]; · iexact H2
  isplitl [HS]; · iexact HS
  isplitl [HY]; · iexact HY
  isplitl [HX]; · iexact HX
  iexact HZ

theorem ghost_intro (K : Dev nD × Fin 38 → ℕ) (c : Dev nD) : iprop(recs X K ∗ positions c ∗ payToks c) ⊢ G' X c := by
  unfold G' ghost
  iintro H
  iexists K
  iexact H

theorem regroup :
    (bigSep Finset.univ fun c : Dev nD => iprop((bigSep Finset.univ fun k => iprop(∃ κ : ℕ, cellInv ER (Rd X) κ (kcell (c, k))))
          ∗ (bigSep Finset.univ fun k => iprop(atPos ER (kcell (c, k)) 0 ∅ 0 ∗ reached ER (kcell (c, k)) 0)) ∗ toks c) : sProp 𝕄)
      ⊢ bigSep Finset.univ (G' X) := by
  rw [bigSep_sep', bigSep_sep', ← bigSep_univ_prod (fun ck : Dev nD × Fin 38 => iprop(∃ κ : ℕ, cellInv ER (Rd X) κ (kcell ck))),
    bigSep_congr (s := Finset.univ) (fun (c : Dev nD) _ => bigSep_sep' Finset.univ (fun k : Fin 38 => (atPos ER (kcell (c, k)) 0 ∅ 0 : sProp 𝕄)) (fun k => reached ER (kcell (c, k)) 0)),
    bigSep_sep', ← bigSep_univ_prod (fun ck : Dev nD × Fin 38 => (reached ER (kcell ck) 0 : sProp 𝕄))]
  iintro ⟨HI, ⟨Hat, #HR⟩, Htok⟩
  ihave HK := (BI.bigSep_exists_pi Finset.univ (fun (ck : Dev nD × Fin 38) (κ : ℕ) => (cellInv ER (Rd X) κ (kcell ck) : sProp 𝕄))) $$ HI
  icases HK with ⟨%K, #HI⟩
  ihave Htk := (toks_around (F := F)) $$ Htok
  iapply (bigSep_with_persistent (R := recs X K) fun c _ => ghost_intro X K c)
  isplitr
  · unfold recs; isplitl; · iexact HI
    iexact HR
  · iapply (Entails.of_eq (bigSep_sep' Finset.univ (fun c : Dev nD => (positions c : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c
      ∗ unscopedSems0 c ∗ G X c) : sProp 𝕄) ⊢ |={Set.univ}=> bigSep Finset.univ (G' X) :=
  ((bigSep_mono fun c _ => core_alloc X c).trans (bigSep_fupd _ _)).trans (BI.fupd_mono (regroup X))

theorem ownSemFacts : Pipeline.OwnSemFacts cfg0.spec osem :=
  ⟨fun k => by revert k; decide, fun a b h => SemLoc.dma.inj h, fun k w => w.elim0⟩

/-- info: 'Cert.Kernel.A2A.fund_all' depends on axioms: [propext, Classical.choice, Quot.sound] -/
#guard_msgs in #print axioms fund_all

/-- info: 'Cert.Kernel.A2A.glob' depends on axioms: [propext, Classical.choice, Quot.sound] -/
#guard_msgs in #print axioms glob

/-- info: 'Cert.Kernel.A2A.ownSemFacts' depends on axioms: [propext, Classical.choice, Quot.sound] -/
#guard_msgs in #print axioms ownSemFacts

end Cert.Kernel.A2A

end
-- ==== Proof.Bits.Run.lean ====
import proofs.«900637_g7700000000000638_dist_a2a_v7x_xyz2x2x4_y_m1024_n512_f32_1_alg».proof.Proof.Bits.Body
import proofs.«900637_g7700000000000638_dist_a2a_v7x_xyz2x2x4_y_m1024_n512_f32_1_alg».proof.Proof.Bits.Fund

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def Yc (c : Dev nD) : sProp 𝕄 := iprop((oLoc c ↦{fullShare} outF (Xm m) c) ∗ (xLoc c ↦{fullShare} Xm m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Xm m) c)
      ⊢ |={Set.univ}=> iprop(Φ₀ m c ∗ emp) := by
  rw [Pipeline.unscopedRestP_none, unscopedRest0_eq]
  unfold Φ₀ start G' credsC
  iintro ⟨⟨Hx, Ho⟩, Hlev, Hcr, -, HG⟩
  ihave Hc := (launch_creds (F := F) c) $$ Hcr
  imodintro
  isplitl
  · isplitl [HG Hc Hlev]
    · isplitl [HG]; · iexact HG
      isplitl [Hc]; · iexact Hc
      iexact Hlev
    isplitl [Ho]; · iexact Ho
    iexact Hx
  · iempintro

theorem phi0_intro (c : Dev nD) :
    iprop(Φ₀ m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  iintro ⟨H, -, -⟩
  iexact H

theorem phi1_exit (c : Dev nD) :
    (dats m 0 c).Φ (Fin.last cfg0.N) ⊢ iprop(Yc m c ∗ Pipeline.ownSems0 osem c ∗ Pipeline.scopedRest cfg0.spec c) := by
  rw [show (dats m 0 c).Φ (Fin.last cfg0.N) = Φ₁ m c from rfl, scopedRest0_eq, ownSems0_eq]
  unfold Φ₁ Yc
  iintro ⟨Ho, Hx, Hs⟩
  isplitl [Ho Hx]
  · isplitl [Ho]; · iexact Ho
    iexact Hx
  isplitl [Hs]; · iexact Hs
  iempintro

theorem waits (c : Dev nD) : (levAts L lv : sProp 𝕄) ⊢ Pipeline.cellsWaits cfgs (dats m) () 0 c :=
  Pipeline.cellsWaits_intro cfgs (dats m) () 0 c fun w => w.elim0

theorem run_main : θ_run defs (onTc (τ := τ) (main (F := F))) ⟨m, fun _ => 0, ρ⟩
    (fun r => ∀ c : Dev nD, r.2.mem ((c : Thread nD τ).loc main_v1) = outF (Xm m) c
      ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G (Xm m)) (G' := G' (Xm m)) (u₀ := u₀)
    (hu₀ := by
      unfold u₀
      iintro Hu
      ihave H := (ownU_pair _ _) $$ Hu
      icases H with ⟨HP, HX⟩
      imod (fund_all (Xm m)) $$ HX with HG
      imodintro
      isplitl [HP]; · iexact HP
      iexact HG)
    (hglob := glob (Xm m))
    (hA := fun _ w => w.elim0) (hpf := fun _ k => k.elim0)
    (X := Φ₀ m) (Y := Yc m) (Z := fun _ => iprop(emp))
    (hX := start_intro m ρ) (hin := phi0_intro m) (hout := phi1_exit m)
    (QY := fun c s => s.mem (oLoc c) = outF (Xm m) c ∧ s.mem (xLoc c) = m (xLoc c))
    (hY := fun c s' => by
      unfold Yc
      iintro ⟨⟨Ho, Hx⟩, -, HSI⟩
      icombine HSI Ho gives %ho
      icombine HSI Hx gives %hx
      imodintro
      isplitr; · ipureintro; exact ⟨Buf.eq_of_forall_mem_univ ho, Buf.eq_of_forall_mem_univ hx⟩
      iexact HSI)
    (hQ := fun s h c => (h c).2.2)

end Cert.Kernel.A2A

end
-- ==== Proof.Ref.lean ====
import proofs.«900637_g7700000000000638_dist_a2a_v7x_xyz2x2x4_y_m1024_n512_f32_1_alg».proof.ReferenceIdeal
import proofs.«900637_g7700000000000638_dist_a2a_v7x_xyz2x2x4_y_m1024_n512_f32_1_alg».proof.Proof.Gen.ReferenceIdeal
import Idealize.ShloMosaic.Lib.StableHlo.Run

noncomputable section

namespace Cert.ReferenceIdeal.A2A

open Cert.ReferenceIdeal Cert.ReferenceIdeal.Gen Idealize.ShloMosaic Idealize.ShloMosaic.TcCoe Idealize.SL.Sem Idealize.ShloMosaic.StableHlo

variable {F : FTy → Type} [FloatOps F]

theorem main_eq (c : Dev nD) : main (F := F) c = seq ([] : List (HloOp τ sig (Elt F))) := rfl
theorem scopedRefs_eq : (Finset.univ.filter fun b : Ref sig .tc => b.isScoped) = ∅ := by decide
theorem scopedSems_eq : (Finset.univ.filter fun sm : SemLoc sig => sm.isScoped .tc) = ∅ := by decide

theorem ref_run_tc (m' : (ℓ : Loc nD τ sig) → Buf (Elt F) ℓ) (g' : Dev nD → PrngReg) :
    θ_run (defs (F := F)) (onTc (τ := τ) (main (F := F))) ⟨m', fun _ => 0, g'⟩ (fun r =>
      ∀ (d : Dev nD) (b : Ref sig .tc), r.2.mem ((d.tc : Thread nD τ).loc b) = m' ((d.tc : Thread nD τ).loc b)) :=
  (θ_run defs _ _).mono (fun _ h d b => h d b)
    (run_seq scopedRefs_eq scopedSems_eq defs main (fun _ => []) main_eq (fun _ => trivial) m' g'
      (fun _ _ h => nomatch h))

theorem devRef_eq (b : DevRef τ sig) : b = Proc.devRef (.tc : Proc τ) main_arg0 := by
  rcases b with ⟨_ | _ | _ | ⟨κ, cs⟩, i, u⟩
  · obtain rfl : i = (0 : Fin 1) := Subsingleton.elim _ _
    exact congrArg (DevRef.mk .hbm 0) (Topo.HbmHolder.eq_of_eq_false (τ := τ) rfl _ _)
  · exact i.elim0
  · exact i.elim0
  · cases κ <;> cases cs <;> exact i.elim0

theorem ref_run (m' : (ℓ : Loc nD τ sig) → Buf (Elt F) ℓ) (g' : Dev nD → PrngReg) :
    θ_run (defs (F := F)) (onTc (τ := τ) (main (F := F))) ⟨m', fun _ => 0, g'⟩ (fun r => r.2.mem = m') :=
  (θ_run defs _ _).mono (fun r h => by
    funext ℓ
    obtain ⟨d, b⟩ := ℓ
    obtain rfl := devRef_eq b
    exact h d main_arg0) (ref_run_tc m' g')

/-- info: 'Cert.ReferenceIdeal.A2A.ref_run' depends on axioms: [propext, Classical.choice, Quot.sound] -/
#guard_msgs in #print axioms ref_run

end Cert.ReferenceIdeal.A2A

end
-- ==== Proof.lean ====
-- Each device's result is the rows' regrouping of the argument blocks, which is its column block of the whole array.
import proofs.«900637_g7700000000000638_dist_a2a_v7x_xyz2x2x4_y_m1024_n512_f32_1_alg».proof.Defs
import proofs.«900637_g7700000000000638_dist_a2a_v7x_xyz2x2x4_y_m1024_n512_f32_1_alg».proof.Proof.Gen.Kernel
import proofs.«900637_g7700000000000638_dist_a2a_v7x_xyz2x2x4_y_m1024_n512_f32_1_alg».proof.Proof.Gen.Kernel.Skeleton
import proofs.«900637_g7700000000000638_dist_a2a_v7x_xyz2x2x4_y_m1024_n512_f32_1_alg».proof.Proof.Gen.Kernel.Launch
import proofs.«900637_g7700000000000638_dist_a2a_v7x_xyz2x2x4_y_m1024_n512_f32_1_alg».proof.Proof.Gen.Kernel.Points
import proofs.«900637_g7700000000000638_dist_a2a_v7x_xyz2x2x4_y_m1024_n512_f32_1_alg».proof.Proof.Gen.Kernel.Frame
import proofs.«900637_g7700000000000638_dist_a2a_v7x_xyz2x2x4_y_m1024_n512_f32_1_alg».proof.Proof.Gen.KernelIdeal
import proofs.«900637_g7700000000000638_dist_a2a_v7x_xyz2x2x4_y_m1024_n512_f32_1_alg».proof.Proof.Gen.KernelIdeal.Skeleton
import proofs.«900637_g7700000000000638_dist_a2a_v7x_xyz2x2x4_y_m1024_n512_f32_1_alg».proof.Proof.Gen.KernelIdeal.Launch
import proofs.«900637_g7700000000000638_dist_a2a_v7x_xyz2x2x4_y_m1024_n512_f32_1_alg».proof.Proof.Gen.KernelIdeal.Points
import proofs.«900637_g7700000000000638_dist_a2a_v7x_xyz2x2x4_y_m1024_n512_f32_1_alg».proof.Proof.Gen.KernelIdeal.Frame
import proofs.«900637_g7700000000000638_dist_a2a_v7x_xyz2x2x4_y_m1024_n512_f32_1_alg».proof.Proof.Gen.ReferenceIdeal
import proofs.«900637_g7700000000000638_dist_a2a_v7x_xyz2x2x4_y_m1024_n512_f32_1_alg».proof.Proof.Gen.Pre_finite_inputs_Kernel
import proofs.«900637_g7700000000000638_dist_a2a_v7x_xyz2x2x4_y_m1024_n512_f32_1_alg».proof.Proof.Gen.Pre_finite_inputs_ReferenceIdeal
import Idealize.ShloMosaic.Adequacy
import Idealize.ShloMosaic.Init
import proofs.«900637_g7700000000000638_dist_a2a_v7x_xyz2x2x4_y_m1024_n512_f32_1_alg».proof.Proof.Run
import proofs.«900637_g7700000000000638_dist_a2a_v7x_xyz2x2x4_y_m1024_n512_f32_1_alg».proof.Proof.Bits.Run
import proofs.«900637_g7700000000000638_dist_a2a_v7x_xyz2x2x4_y_m1024_n512_f32_1_alg».proof.Proof.Landing
import proofs.«900637_g7700000000000638_dist_a2a_v7x_xyz2x2x4_y_m1024_n512_f32_1_alg».proof.Proof.Ref

noncomputable section

namespace Cert.Proof

open Idealize.ShloMosaic Idealize.SL.Sem Idealize.ShloMosaic.TcCoe

theorem frame_Kernel_pf :
    Cert.frame_Kernel (hKernel := Cert.Kernel.Gen.facts) (hPre_finite_inputs_Kernel := Cert.Pre_finite_inputs_Kernel.Gen.facts) :=
  fun m g _ => (θ_run _ _ _).mono (fun _ h c => (h c).2) (Cert.Kernel.A2A.run_main m g)

theorem frame_KernelIdeal_pf :
    Cert.frame_KernelIdeal (hKernelIdeal := Cert.KernelIdeal.Gen.facts) (hPre_finite_inputs_Kernel := Cert.Pre_finite_inputs_Kernel.Gen.facts) :=
  fun m g _ => (θ_run _ _ _).mono (fun _ h c => (h c).2) (Cert.KernelIdeal.A2A.run_main m g)

theorem frame_ReferenceIdeal_pf :
    Cert.frame_ReferenceIdeal (hReferenceIdeal := Cert.ReferenceIdeal.Gen.facts) (hPre_finite_inputs_ReferenceIdeal := Cert.Pre_finite_inputs_ReferenceIdeal.Gen.facts) :=
  fun m g _ => (θ_run _ _ _).mono (fun _ h c => congrFun h _) (Cert.ReferenceIdeal.A2A.ref_run m g)

theorem algebraic_pf :
    Cert.algebraic_KernelIdeal_ReferenceIdeal (hKernelIdeal := Cert.KernelIdeal.Gen.facts) (hReferenceIdeal := Cert.ReferenceIdeal.Gen.facts)
      (hPre_finite_inputs_Kernel := Cert.Pre_finite_inputs_Kernel.Gen.facts) :=
  fun m g m' g' _ hX =>
    ⟨m' (((0 : Dev Cert.ReferenceIdeal.nD).tc : Thread Cert.ReferenceIdeal.nD Cert.ReferenceIdeal.τ).loc Cert.ReferenceIdeal.main_arg0),
      (θ_run _ _ _).mono (fun _ h c => ⟨(h c).1.trans (Cert.KernelIdeal.A2A.outF_block (Cert.KernelIdeal.A2A.Xm m) _ hX c), (h c).2⟩)
        (Cert.KernelIdeal.A2A.run_main m g),
      (θ_run _ _ _).mono (fun _ h => ⟨congrFun h _, congrFun h _⟩) (Cert.ReferenceIdeal.A2A.ref_run m' g')⟩

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_Kernel_pf, frame_KernelIdeal_pf, frame_ReferenceIdeal_pf, trivial, algebraic_pf⟩

end Cert.Proof

end
